-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v70_0)) (v1 : (c : Dev Cert.KernelIdeal.nD) → Buf (Elt Ideal) ((c.tc : Thread Cert.KernelIdeal.nD Cert.KernelIdeal.τ).loc Cert.KernelIdeal.main_v54_0)) (v2 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70_0) = v0 c
          ∧ r.2.mem ((c.tc : Thread Cert.KernelIdeal.nD Cert.KernelIdeal.τ).loc Cert.KernelIdeal.main_v54_0) = v1 c
          ∧ r.2.mem ((c.tc : Thread Cert.KernelIdeal.nD Cert.KernelIdeal.τ).loc Cert.KernelIdeal.main_v96) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S320000x16 : Shape := ⟨2, ![320000, 16]⟩
abbrev S64x8 : Shape := ⟨2, ![64, 8]⟩
abbrev S152x128 : Shape := ⟨2, ![152, 128]⟩
abbrev S128 : Shape := ⟨1, ![128]⟩
abbrev S128x128 : Shape := ⟨2, ![128, 128]⟩
abbrev S128x200 : Shape := ⟨2, ![128, 200]⟩
abbrev S128x264 : Shape := ⟨2, ![128, 264]⟩
abbrev S264x128 : Shape := ⟨2, ![264, 128]⟩
abbrev S2x320000 : Shape := ⟨2, ![2, 320000]⟩
abbrev S20000 : Shape := ⟨1, ![20000]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S320000x16 : S_.BroadcastsInDim S320000x16 (![] : Fin 0 → Fin S320000x16.rank)
  reducesTo_S320000x16_S_d0_1 : S320000x16.ReducesTo [0, 1] S_
  bcast_S_S64x8 : S_.BroadcastsInDim S64x8 (![] : Fin 0 → Fin S64x8.rank)
  reducesTo_S64x8_S_d0_1 : S64x8.ReducesTo [0, 1] S_
  bcast_S_S152x128 : S_.BroadcastsInDim S152x128 (![] : Fin 0 → Fin S152x128.rank)
  reducesTo_S152x128_S_d0_1 : S152x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x200 : S_.BroadcastsInDim S128x200 (![] : Fin 0 → Fin S128x200.rank)
  reducesTo_S128x200_S_d0_1 : S128x200.ReducesTo [0, 1] S_
  bcast_S_S128x264 : S_.BroadcastsInDim S128x264 (![] : Fin 0 → Fin S128x264.rank)
  reducesTo_S128x264_S_d0_1 : S128x264.ReducesTo [0, 1] S_
  bcast_S_S264x128 : S_.BroadcastsInDim S264x128 (![] : Fin 0 → Fin S264x128.rank)
  reducesTo_S264x128_S_d0_1 : S264x128.ReducesTo [0, 1] S_

variable [Facts]

def fn_part4 {F : FTy → Type} [FloatOps F] (main_arg14 : FVec F S128 .f32) (main_arg15 : FVec F S128x128 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg11 : FVec F S128x128 .f32) (main_arg12 : FVec F S128 .f32) (main_arg13 : FVec F S264x128 .f32) (main_arg14 : FVec F S128 .f32) (main_arg15 : FVec F S128x128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S264x128 .f32 := Host.absf main_arg13
  let main_cst_24 : FVec F S_ .f32 := constant S_ .f32 0x7F800000#32
  let main_v65 : FVec F S264x128 .f32 := broadcastInDim S264x128 ![] bcast_S_S264x128 main_cst_24
  let main_v66 : IVec S264x128 1 := cmpf .olt main_v64 main_v65
  let main_c_25 : IVec S_ 1 := constantI S_ 1 1#1
  let main_v67 : IVec S_ 1 := (fun x v => Host.reduce IntOp.andi x v reducesTo_S264x128_S_d0_1 h_S_) main_v66 main_c_25
  fn_part4 (F := F) main_arg14 main_arg15 main_arg16 main_v63 main_v67

def fn_part2 {F : FTy → Type} [FloatOps F] (main_arg7 : FVec F S128x200 .f32) (main_arg8 : FVec F S128x264 .f32) (main_arg9 : FVec F S264x128 .f32) (main_arg10 : FVec F S128 .f32) (main_arg11 : FVec F S128x128 .f32) (main_arg12 : FVec F S128 .f32) (main_arg13 : FVec F S264x128 .f32) (main_arg14 : FVec F S128 .f32) (main_arg15 : FVec F S128x128 .f32) (main_arg16 : FVec F S128 .f32) (main_v33 : IVec S_ 1) : IVec S_ 1 :=
  let main_v34 : FVec F S128x200 .f32 := Host.absf main_arg7
  let main_cst_12 : FVec F S_ .f32 := constant S_ .f32 0x7F800000#32
  let main_v35 : FVec F S128x200 .f32 := broadcastInDim S128x200 ![] bcast_S_S128x200 main_cst_12
  let main_v36 : IVec S128x200 1 := cmpf .olt main_v34 main_v35
  let main_c_13 : IVec S_ 1 := constantI S_ 1 1#1
  let main_v37 : IVec S_ 1 := (fun x v => Host.reduce IntOp.andi x v reducesTo_S128x200_S_d0_1 h_S_) main_v36 main_c_13
  let main_v38 : IVec S_ 1 := andi main_v33 main_v37
  let main_v39 : FVec F S128x264 .f32 := Host.absf main_arg8
  let main_cst_14 : FVec F S_ .f32 := constant S_ .f32 0x7F800000#32
  let main_v40 : FVec F S128x264 .f32 := broadcastInDim S128x264 ![] bcast_S_S128x264 main_cst_14
  let main_v41 : IVec S128x264 1 := cmpf .olt main_v39 main_v40
  let main_c_15 : IVec S_ 1 := constantI S_ 1 1#1
  let main_v42 : IVec S_ 1 := (fun x v => Host.reduce IntOp.andi x v reducesTo_S128x264_S_d0_1 h_S_) main_v41 main_c_15
  let main_v43 : IVec S_ 1 := andi main_v38 main_v42
  let main_v44 : FVec F S264x128 .f32 := Host.absf main_arg9
  let main_cst_16 : FVec F S_ .f32 := constant S_ .f32 0x7F800000#32
  let main_v45 : FVec F S264x128 .f32 := broadcastInDim S264x128 ![] bcast_S_S264x128 main_cst_16
  let main_v46 : IVec S264x128 1 := cmpf .olt main_v44 main_v45
  let main_c_17 : IVec S_ 1 := constantI S_ 1 1#1
  let main_v47 : IVec S_ 1 := (fun x v => Host.reduce IntOp.andi x v reducesTo_S264x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_v48 main_v49 main_v50

def fn_part1 {F : FTy → Type} [FloatOps F] (main_arg4 : FVec F S128 .f32) (main_arg5 : FVec F S128x128 .f32) (main_arg6 : FVec F S128 .f32) (main_arg7 : FVec F S128x200 .f32) (main_arg8 : FVec F S128x264 .f32) (main_arg9 : FVec F S264x128 .f32) (main_arg10 : FVec F S128 .f32) (main_arg11 : FVec F S128x128 .f32) (main_arg12 : FVec F S128 .f32) (main_arg13 : FVec F S264x128 .f32) (main_arg14 : FVec F S128 .f32) (main_arg15 : FVec F S128x128 .f32) (main_arg16 : FVec F S128 .f32) (main_v13 : IVec S_ 1) (main_v16 : IVec S152x128 1) : IVec S_ 1 :=
  let main_c_5 : IVec S_ 1 := constantI S_ 1 1#1
  let main_v17 : IVec S_ 1 := (fun x v => Host.reduce IntOp.andi x v reducesTo_S152x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S20000x64 .f32) (main_arg1 : FVec F S320000x16 .f32) (main_arg2 : FVec F S64x8 .f32) (main_arg3 : FVec F S152x128 .f32) (main_arg4 : FVec F S128 .f32) (main_arg5 : FVec F S128x128 .f32) (main_arg6 : FVec F S128 .f32) (main_arg7 : FVec F S128x200 .f32) (main_arg8 : FVec F S128x264 .f32) (main_arg9 : FVec F S264x128 .f32) (main_arg10 : FVec F S128 .f32) (main_arg11 : FVec F S128x128 .f32) (main_arg12 : FVec F S128 .f32) (main_arg13 : FVec F S264x128 .f32) (main_arg14 : FVec F S128 .f32) (main_arg15 : FVec F S128x128 .f32) (main_arg16 : FVec F S128 .f32) (main_arg17 : IVec S2x320000 32) (main_arg18 : IVec S20000 32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S320000x16 .f32 := Host.absf main_arg1
  let main_cst_0 : FVec F S_ .f32 := constant S_ .f32 0x7F800000#32
  let main_v5 : FVec F S320000x16 .f32 := broadcastInDim S320000x16 ![] bcast_S_S320000x16 main_cst_0
  let main_v6 : IVec S320000x16 1 := cmpf .olt main_v4 main_v5
  let main_c_1 : IVec S_ 1 := constantI S_ 1 1#1
  let main_v7 : IVec S_ 1 := (fun x v => Host.reduce IntOp.andi x v reducesTo_S320000x16_S_d0_1 h_S_) main_v6 main_c_1
  let main_v8 : IVec S_ 1 := andi main_v3 main_v7
  let main_v9 : FVec F S64x8 .f32 := Host.absf main_arg2
  let main_cst_2 : FVec F S_ .f32 := constant S_ .f32 0x7F800000#32
  let main_v10 : FVec F S64x8 .f32 := broadcastInDim S64x8 ![] bcast_S_S64x8 main_cst_2
  let main_v11 : IVec S64x8 1 := cmpf .olt main_v9 main_v10
  let main_c_3 : IVec S_ 1 := constantI S_ 1 1#1
  let main_v12 : IVec S_ 1 := (fun x v => Host.reduce IntOp.andi x v reducesTo_S64x8_S_d0_1 h_S_) main_v11 main_c_3
  let main_v13 : IVec S_ 1 := andi main_v8 main_v12
  let main_v14 : FVec F S152x128 .f32 := Host.absf main_arg3
  let main_cst_4 : FVec F S_ .f32 := constant S_ .f32 0x7F800000#32
  let main_v15 : FVec F S152x128 .f32 := broadcastInDim S152x128 ![] bcast_S_S152x128 main_cst_4
  let main_v16 : IVec S152x128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S20000x64 : Shape := ⟨2, ![20000, 64]⟩
abbrev S320000x16 : Shape := ⟨2, ![320000, 16]⟩
abbrev S64x8 : Shape := ⟨2, ![64, 8]⟩
abbrev S152x128 : Shape := ⟨2, ![152, 128]⟩
abbrev S128 : Shape := ⟨1, ![128]⟩
abbrev S128x128 : Shape := ⟨2, ![128, 128]⟩
abbrev S128x200 : Shape := ⟨2, ![128, 200]⟩
abbrev S128x264 : Shape := ⟨2, ![128, 264]⟩
abbrev S264x128 : Shape := ⟨2, ![264, 128]⟩
abbrev S2x320000 : Shape := ⟨2, ![2, 320000]⟩
abbrev S20000 : Shape := ⟨1, ![20000]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x64 : Shape := ⟨2, ![320000, 64]⟩
abbrev S320000x8 : Shape := ⟨2, ![320000, 8]⟩
abbrev S20000x1 : Shape := ⟨2, ![20000, 1]⟩
abbrev S20000x8 : Shape := ⟨2, ![20000, 8]⟩
abbrev S64x128 : Shape := ⟨2, ![64, 128]⟩
abbrev S16x128 : Shape := ⟨2, ![16, 128]⟩
abbrev S8x128 : Shape := ⟨2, ![8, 128]⟩
abbrev S1x128 : Shape := ⟨2, ![1, 128]⟩
abbrev S320000x128 : Shape := ⟨2, ![320000, 128]⟩
abbrev S80x64x128 : Shape := ⟨3, ![80, 64, 128]⟩
abbrev S4000x64 : Shape := ⟨2, ![4000, 64]⟩
abbrev S4000x16 : Shape := ⟨2, ![4000, 16]⟩
abbrev S4000x8 : Shape := ⟨2, ![4000, 8]⟩
abbrev S4000x1 : Shape := ⟨2, ![4000, 1]⟩
abbrev S4000x128 : Shape := ⟨2, ![4000, 128]⟩
abbrev S1x64x128 : Shape := ⟨3, ![1, 64, 128]⟩
abbrev S20000x128 : Shape := ⟨2, ![20000, 128]⟩
abbrev S128x64 : Shape := ⟨2, ![128, 64]⟩
abbrev S128x8 : Shape := ⟨2, ![128, 8]⟩
abbrev S5x64x128 : Shape := ⟨3, ![5, 64, 128]⟩
abbrev S4000 : Shape := ⟨1, ![4000]⟩
abbrev S4000x264 : Shape := ⟨2, ![4000, 264]⟩
abbrev S64 : Shape := ⟨1, ![64]⟩
abbrev S64x1 : Shape := ⟨2, ![64, 1]⟩

abbrev nBuf : Space → Nat
  | .hbm => 141
  | .vmem => 66
  | .smem => 0
  | _ => 0

abbrev hbmTy0_0 (i : Nat) : BufTy := match i % 128 with
  | 0 => ⟨S20000x64, .f32⟩
  | 1 => ⟨S320000x16, .f32⟩
  | 2 => ⟨S64x8, .f32⟩
  | 3 => ⟨S152x128, .f32⟩
  | 4 => ⟨S128, .f32⟩
  | 5 => ⟨S128x128, .f32⟩
  | 6 => ⟨S128, .f32⟩
  | 7 => ⟨S128x200, .f32⟩
  | 8 => ⟨S128x264, .f32⟩
  | 9 => ⟨S264x128, .f32⟩
  | 10 => ⟨S128, .f32⟩
  | 11 => ⟨S128x128, .f32⟩
  | 12 => ⟨S128, .f32⟩
  | 13 => ⟨S264x128, .f32⟩
  | 14 => ⟨S128, .f32⟩
  | 15 => ⟨S128x128, .f32⟩
  | 16 => ⟨S128, .f32⟩
  | 17 => ⟨S2x320000, .i32⟩
  | 18 => ⟨S20000, .i32⟩
  | 19 => ⟨S1x320000, .i32⟩
  | 20 => ⟨S320000, .i32⟩
  | 21 => ⟨S1x320000, .i32⟩
  | 22 => ⟨S320000, .i32⟩
  | 23 => ⟨S20000x64, .bf16⟩
  | 24 => ⟨S_, .i32⟩
  | 25 => ⟨S320000, .i32⟩
  | 26 => ⟨S320000, .i1⟩
  | 27 => ⟨S_, .i32⟩
  | 28 => ⟨S320000, .i32⟩
  | 29 => ⟨S320000, .i32⟩
  | 30 => ⟨S320000, .i32⟩
  | 31 => ⟨S320000x1, .i32⟩
  | 32 => ⟨S320000x64, .bf16⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x64, .bf16⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S320000, .i32⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S320000x8, .f32⟩
  | 60 => ⟨S_, .i32⟩
  | 61 => ⟨S20000, .i32⟩
  | 62 => ⟨S20000, .i1⟩
  | 63 => ⟨S_, .i32⟩
  | 64 => ⟨S20000, .i32⟩
  | 65 => ⟨S20000, .i32⟩
  | 66 => ⟨S20000, .i32⟩
  | 67 => ⟨S20000x1, .i32⟩
  | 68 => ⟨S20000x8, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S320000, .i32⟩
  | 78 => ⟨S64x128, .f32⟩
  | 79 => ⟨S64x128, .f32⟩
  | 80 => ⟨S16x128, .f32⟩
  | 81 => ⟨S8x128, .f32⟩
  | 82 => ⟨S1x128, .f32⟩
  | 83 => ⟨S1x128, .f32⟩
  | 84 => ⟨S320000x1, .i32⟩
  | 85 => ⟨S320000x128, .f32⟩
  | 86 => ⟨S80x64x128, .f32⟩
  | 87 => ⟨S_, .f32⟩
  | 88 => ⟨S20000x128, .f32⟩
  | 89 => ⟨S320000x1, .i32⟩
  | 90 => ⟨S20000x128, .f32⟩
  | 91 => ⟨S128x64, .f32⟩
  | 92 => ⟨S128x128, .f32⟩
  | 93 => ⟨S128x8, .f32⟩
  | 94 => ⟨S64x128, .f32⟩
  | 95 => ⟨S128x128, .f32⟩
  | 96 => ⟨S8x128, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S1x128, .f32⟩
  | 103 => ⟨S1x128, .f32⟩
  | 104 => ⟨S20000x1, .i32⟩
  | 105 => ⟨S20000x128, .f32⟩
  | 106 => ⟨S5x64x128, .f32⟩
  | 107 => ⟨S_, .f32⟩
  | 108 => ⟨S64x128, .f32⟩
  | 109 => ⟨S_, .f32⟩
  | 110 => ⟨S320000, .f32⟩
  | 111 => ⟨S_, .f32⟩
  | 112 => ⟨S64, .f32⟩
  | 113 => ⟨S320000x1, .i32⟩
  | 114 => ⟨S64, .f32⟩
  | 115 => ⟨S_, .f32⟩
  | 116 => ⟨S64, .f32⟩
  | 117 => ⟨S64, .f32⟩
  | 118 => ⟨S64x1, .f32⟩
  | 119 => ⟨S64x128, .f32⟩
  | 120 => ⟨S64x128, .f32⟩
  | 121 => ⟨S_, .f32⟩
  | 122 => ⟨S64x128, .f32⟩
  | 123 => ⟨S_, .f32⟩
  | 124 => ⟨S20000, .f32⟩
  | 125 => ⟨S_, .f32⟩
  | 126 => ⟨S64, .f32⟩
  | 127 => ⟨S20000x1, .i32⟩
  | _ => ⟨S20000x64, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S64x1, .f32⟩
  | 5 => ⟨S64x128, .f32⟩
  | 6 => ⟨S64x128, .f32⟩
  | 7 => ⟨S8x128, .f32⟩
  | 8 => ⟨S128x128, .f32⟩
  | 9 => ⟨S128x128, .f32⟩
  | 10 => ⟨S1x128, .f32⟩
  | 11 => ⟨S1x128, .f32⟩
  | 12 => ⟨S64x128, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | .local _ .vmem, ⟨0, _⟩ => ⟨S4000x64, .bf16⟩
  | .local _ .vmem, ⟨1, _⟩ => ⟨S4000x64, .bf16⟩
  | .local _ .vmem, ⟨2, _⟩ => ⟨S4000x64, .bf16⟩
  | .local _ .vmem, ⟨3, _⟩ => ⟨S4000x64, .bf16⟩
  | .local _ .vmem, ⟨4, _⟩ => ⟨S4000x16, .f32⟩
  | .local _ .vmem, ⟨5, _⟩ => ⟨S4000x16, .f32⟩
  | .local _ .vmem, ⟨6, _⟩ => ⟨S4000x8, .f32⟩
  | .local _ .vmem, ⟨7, _⟩ => ⟨S4000x8, .f32⟩
  | .local _ .vmem, ⟨8, _⟩ => ⟨S4000x1, .i32⟩
  | .local _ .vmem, ⟨9, _⟩ => ⟨S4000x1, .i32⟩
  | .local _ .vmem, ⟨10, _⟩ => ⟨S64x128, .f32⟩
  | .local _ .vmem, ⟨11, _⟩ => ⟨S64x128, .f32⟩
  | .local _ .vmem, ⟨12, _⟩ => ⟨S16x128, .f32⟩
  | .local _ .vmem, ⟨13, _⟩ => ⟨S8x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S4000x128, .f32⟩
  | .local _ .vmem, ⟨18, _⟩ => ⟨S4000x128, .f32⟩
  | .local _ .vmem, ⟨19, _⟩ => ⟨S1x64x128, .f32⟩
  | .local _ .vmem, ⟨20, _⟩ => ⟨S1x64x128, .f32⟩
  | .local _ .vmem, ⟨21, _⟩ => ⟨S4000x64, .f32⟩
  | .local _ .vmem, ⟨22, _⟩ => ⟨S4000x64, .f32⟩
  | .local _ .vmem, ⟨23, _⟩ => ⟨S4000x128, .f32⟩
  | .local _ .vmem, ⟨24, _⟩ => ⟨S4000x128, .f32⟩
  | .local _ .vmem, ⟨25, _⟩ => ⟨S4000x8, .f32⟩
  | .local _ .vmem, ⟨26, _⟩ => ⟨S4000x8, .f32⟩
  | .local _ .vmem, ⟨27, _⟩ => ⟨S64x128, .f32⟩
  | .local _ .vmem, ⟨28, _⟩ => ⟨S128x128, .f32⟩
  | .local _ .vmem, ⟨29, _⟩ => ⟨S8x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S4000x64, .f32⟩
  | .local _ .vmem, ⟨35, _⟩ => ⟨S4000x64, .f32⟩
  | .local _ .vmem, ⟨36, _⟩ => ⟨S4000x128, .f32⟩
  | .local _ .vmem, ⟨37, _⟩ => ⟨S4000x128, .f32⟩
  | .local _ .vmem, ⟨38, _⟩ => ⟨S4000x8, .f32⟩
  | .local _ .vmem, ⟨39, _⟩ => ⟨S4000x8, .f32⟩
  | .local _ .vmem, ⟨40, _⟩ => ⟨S64x128, .f32⟩
  | .local _ .vmem, ⟨41, _⟩ => ⟨S128x128, .f32⟩
  | .local _ .vmem, ⟨42, _⟩ => ⟨S8x128, .f32⟩
  | .local _ .vmem, ⟨43, _⟩ => ⟨S1x128, .f32⟩
  | .local _ .vmem, ⟨44, _⟩ => ⟨S1x128, .f32⟩
  | .local _ .vmem, ⟨45, _⟩ => ⟨S128x264, .f32⟩
  | .local _ .vmem, ⟨46, _⟩ => ⟨S264x128, .f32⟩
  | .local _ .vmem, ⟨47, _⟩ => ⟨S1x128, .f32⟩
  | .local _ .vmem, ⟨48, _⟩ => ⟨S128x128, .f32⟩
  | .local _ .vmem, ⟨49, _⟩ => ⟨S1x128, .f32⟩
  | .local _ .vmem, ⟨50, _⟩ => ⟨S4000x1, .i32⟩
  | .local _ .vmem, ⟨51, _⟩ => ⟨S4000x1, .i32⟩
  | .local _ .vmem, ⟨52, _⟩ => ⟨S4000x128, .f32⟩
  | .local _ .vmem, ⟨53, _⟩ => ⟨S4000x128, .f32⟩
  | .local _ .vmem, ⟨54, _⟩ => ⟨S1x64x128, .f32⟩
  | .local _ .vmem, ⟨55, _⟩ => ⟨S1x64x128, .f32⟩
  | .local _ .vmem, ⟨56, _⟩ => ⟨S64x8, .f32⟩
  | .local _ .vmem, ⟨57, _⟩ => ⟨S64x128, .f32⟩
  | .local _ .vmem, ⟨58, _⟩ => ⟨S64x128, .f32⟩
  | .local _ .vmem, ⟨59, _⟩ => ⟨S8x128, .f32⟩
  | .local _ .vmem, ⟨60, _⟩ => ⟨S128x128, .f32⟩
  | .local _ .vmem, ⟨61, _⟩ => ⟨S128x128, .f32⟩
  | .local _ .vmem, ⟨62, _⟩ => ⟨S1x128, .f32⟩
  | .local _ .vmem, ⟨63, _⟩ => ⟨S128x128, .f32⟩
  | .local _ .vmem, ⟨64, _⟩ => ⟨S1x128, .f32⟩
  | .local _ .vmem, ⟨65, _⟩ => ⟨S64x128, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_9 : Ref sig .tc := ⟨.hbm, 69, rfl⟩
abbrev main_v40 : Ref sig .tc := ⟨.hbm, 70, rfl⟩
abbrev main_v41 : Ref sig .tc := ⟨.hbm, 71, rfl⟩
abbrev main_c_10 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54_0 : Ref sig .tc := ⟨.hbm, 85, rfl⟩
abbrev main_v54_1 : Ref sig .tc := ⟨.hbm, 86, rfl⟩
abbrev main_cst : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64_0 : Ref sig .tc := ⟨.hbm, 97, rfl⟩
abbrev main_v64_1 : Ref sig .tc := ⟨.hbm, 98, rfl⟩
abbrev main_cst_11 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70_0 : Ref sig .tc := ⟨.hbm, 105, rfl⟩
abbrev main_v70_1 : Ref sig .tc := ⟨.hbm, 106, rfl⟩
abbrev main_cst_12 : Ref sig .tc := ⟨.hbm, 107, rfl⟩
abbrev main_v71 : Ref sig .tc := ⟨.hbm, 108, rfl⟩
abbrev main_cst_13 : Ref sig .tc := ⟨.hbm, 109, rfl⟩
abbrev main_v72 : Ref sig .tc := ⟨.hbm, 110, rfl⟩
abbrev main_cst_14 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_15 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_16 : Ref sig .tc := ⟨.hbm, 121, rfl⟩
abbrev main_v81 : Ref sig .tc := ⟨.hbm, 122, rfl⟩
abbrev main_cst_17 : Ref sig .tc := ⟨.hbm, 123, rfl⟩
abbrev main_v82 : Ref sig .tc := ⟨.hbm, 124, rfl⟩
abbrev main_cst_18 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_19 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_scratch0 : Ref sig .tc := ⟨.vmem, 32, rfl⟩
abbrev cc1_scratch1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg4_0 : Ref sig .tc := ⟨.vmem, 41, rfl⟩
abbrev cc2_stg5_0 : Ref sig .tc := ⟨.vmem, 42, rfl⟩
abbrev cc2_stg6_0 : Ref sig .tc := ⟨.vmem, 43, rfl⟩
abbrev cc2_stg7_0 : Ref sig .tc := ⟨.vmem, 44, rfl⟩
abbrev cc2_stg8_0 : Ref sig .tc := ⟨.vmem, 45, rfl⟩
abbrev cc2_stg9_0 : Ref sig .tc := ⟨.vmem, 46, rfl⟩
abbrev cc2_stg10_0 : Ref sig .tc := ⟨.vmem, 47, rfl⟩
abbrev cc2_stg11_0 : Ref sig .tc := ⟨.vmem, 48, rfl⟩
abbrev cc2_stg12_0 : Ref sig .tc := ⟨.vmem, 49, rfl⟩
abbrev cc2_stg13_0 : Ref sig .tc := ⟨.vmem, 50, rfl⟩
abbrev cc2_stg13_1 : Ref sig .tc := ⟨.vmem, 51, rfl⟩
abbrev cc2_stg14_0 : Ref sig .tc := ⟨.vmem, 52, rfl⟩
abbrev cc2_stg14_1 : Ref sig .tc := ⟨.vmem, 53, rfl⟩
abbrev cc2_stg15_0 : Ref sig .tc := ⟨.vmem, 54, rfl⟩
abbrev cc2_stg15_1 : Ref sig .tc := ⟨.vmem, 55, rfl⟩
abbrev cc3_stg0_0 : Ref sig .tc := ⟨.vmem, 56, rfl⟩
abbrev cc3_stg1_0 : Ref sig .tc := ⟨.vmem, 57, rfl⟩
abbrev cc3_stg2_0 : Ref sig .tc := ⟨.vmem, 58, rfl⟩
abbrev cc3_stg3_0 : Ref sig .tc := ⟨.vmem, 59, rfl⟩
abbrev cc3_stg4_0 : Ref sig .tc := ⟨.vmem, 60, rfl⟩
abbrev cc3_stg5_0 : Ref sig .tc := ⟨.vmem, 61, rfl⟩
abbrev cc3_stg6_0 : Ref sig .tc := ⟨.vmem, 62, rfl⟩
abbrev cc3_stg7_0 : Ref sig .tc := ⟨.vmem, 63, rfl⟩
abbrev cc3_stg8_0 : Ref sig .tc := ⟨.vmem, 64, rfl⟩
abbrev cc3_stg9_0 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem4_0 : DmaSem sig := 39
abbrev cc2_sem5_0 : DmaSem sig := 40
abbrev cc2_sem6_0 : DmaSem sig := 41
abbrev cc2_sem7_0 : DmaSem sig := 42
abbrev cc2_sem8_0 : DmaSem sig := 43
abbrev cc2_sem9_0 : DmaSem sig := 44
abbrev cc2_sem10_0 : DmaSem sig := 45
abbrev cc2_sem11_0 : DmaSem sig := 46
abbrev cc2_sem12_0 : DmaSem sig := 47
abbrev cc2_sem13_0 : DmaSem sig := 48
abbrev cc2_sem13_1 : DmaSem sig := 49
abbrev cc2_sem14_0 : DmaSem sig := 50
abbrev cc2_sem14_1 : DmaSem sig := 51
abbrev cc2_sem15_0 : DmaSem sig := 52
abbrev cc2_sem15_1 : DmaSem sig := 53
abbrev cc3_sem0_0 : DmaSem sig := 54
abbrev cc3_sem1_0 : DmaSem sig := 55
abbrev cc3_sem2_0 : DmaSem sig := 56
abbrev cc3_sem3_0 : DmaSem sig := 57
abbrev cc3_sem4_0 : DmaSem sig := 58
abbrev cc3_sem5_0 : DmaSem sig := 59
abbrev cc3_sem6_0 : DmaSem sig := 60
abbrev cc3_sem7_0 : DmaSem sig := 61
abbrev cc3_sem8_0 : DmaSem sig := 62
abbrev cc3_sem9_0 : DmaSem sig := 63

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![5], ![false]⟩

def k1_cond2 (i : grid1.Coords) : BitVec 1 :=
  let arg0 : BitVec 32 := BitVec.ofNat 32 (i 0).val
  let c4_i32 : BitVec 32 := 4#32
  let v46 : BitVec 1 := Scalar.cmpi .eq arg0 c4_i32
  let v47 : BitVec 32 := Scalar.extui v46
  let c0_i32_26 : BitVec 32 := 0#32
  let v48 : BitVec 1 := Scalar.cmpi .ne v47 c0_i32_26
  v48

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x264 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S264x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S4000x1 .i32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S4000x128 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S1x64x128 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x8 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bitsLt_bf16_f32 : FTy.bits .bf16 < FTy.bits .f32
  bcast_S_S320000 : S_.BroadcastsInDim S320000 (![] : Fin 0 → Fin S320000.rank)
  bcast_S320000_S320000x1_0 : S320000.BroadcastsInDim S320000x1 (![0] : Fin 1 → Fin S320000x1.rank)
  bcast_S_S20000 : S_.BroadcastsInDim S20000 (![] : Fin 0 → Fin S20000.rank)
  bcast_S20000_S20000x1_0 : S20000.BroadcastsInDim S20000x1 (![0] : Fin 1 → Fin S20000x1.rank)
  slices_S152x128_S64x128_0_0 : S152x128.Slices ![0, 0] S64x128
  slices_S152x128_S64x128_64_0 : S152x128.Slices ![64, 0] S64x128
  slices_S152x128_S16x128_128_0 : S152x128.Slices ![128, 0] S16x128
  slices_S152x128_S8x128_144_0 : S152x128.Slices ![144, 0] S8x128
  shapeCasts_S128_S1x128 : S128.ShapeCasts S1x128
  shapeCasts_S320000_S320000x1 : S320000.ShapeCasts S320000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x16_S4000x16_0_0 : ∀ a, (![0, 0] : Fin 2 → Nat) a + S4000x16.size a ≤ S4000x16.size a
  h_S4000x16 : 0 < S4000x16.numel
  inb_S4000x8_S4000x8_0_0 : ∀ a, (![0, 0] : Fin 2 → Nat) a + S4000x8.size a ≤ S4000x8.size a
  h_S4000x8 : 0 < S4000x8.numel
  shapeCasts_S4000x8_S4000x8 : S4000x8.ShapeCasts S4000x8
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  iota_S4000x64_d1_w32 : S4000x64.Iotas .tc 32 [1]
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  natLt_1_32 : 1 < 32
  shapeCasts_S64x128_S1x64x128 : S64x128.ShapeCasts S1x64x128
  inb_S1x64x128_S1x64x128_0_0_0 : ∀ a, (![0, 0, 0] : Fin 3 → Nat) a + S1x64x128.size a ≤ S1x64x128.size a
  h_S1x64x128 : 0 < S1x64x128.numel
  bcast_S_S20000x128 : S_.BroadcastsInDim S20000x128 (![] : Fin 0 → Fin S20000x128.rank)
  slices_S128x200_S128x64_0_0 : S128x200.Slices ![0, 0] S128x64
  slices_S128x200_S128x128_0_64 : S128x200.Slices ![0, 64] S128x128
  slices_S128x200_S128x8_0_192 : S128x200.Slices ![0, 192] S128x8
  transposes_S128x64_S64x128_1_0 : S128x64.Transposes [1, 0] S64x128
  transposes_S128x128_S128x128_1_0 : S128x128.Transposes [1, 0] S128x128
  transposes_S128x8_S8x128_1_0 : S128x8.Transposes [1, 0] S8x128
  shapeCasts_S4000x128_S4000x128 : S4000x128.ShapeCasts S4000x128
  shapeCasts_S128x128_S128x128 : S128x128.ShapeCasts S128x128
  reduces_S4000x128_S128 : S4000x128.Reduces [0] S128
  bcast_S_S1x128 : S_.BroadcastsInDim S1x128 (![] : Fin 0 → Fin S1x128.rank)
  shapeCasts_S20000_S20000x1 : S20000.ShapeCasts S20000x1
  reduces_S4000x128_S4000 : S4000x128.Reduces [1] S4000
  shapeCasts_S4000_S4000x1 : S4000.ShapeCasts S4000x1
  broadcasts_S4000x1_S4000x128 : S4000x1.Broadcasts S4000x128
  inb_S128x264_S128x264_0_0 : ∀ a, (![0, 0] : Fin 2 → Nat) a + S128x264.size a ≤ S128x264.size a
  h_S128x264 : 0 < S128x264.numel
  inb_S264x128_S264x128_0_0 : ∀ a, (![0, 0] : Fin 2 → Nat) a + S264x128.size a ≤ S264x128.size a
  h_S264x128 : 0 < S264x128.numel
  reducesTo_S80x64x128_S64x128_d0 : S80x64x128.ReducesTo [0] S64x128
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  reducesTo_S5x64x128_S64x128_d0 : S5x64x128.ReducesTo [0] S64x128
  slices_S264x128_S8x128_0_0 : S264x128.Slices ![0, 0] S8x128
  slices_S264x128_S128x128_8_0 : S264x128.Slices ![8, 0] S128x128
  slices_S264x128_S128x128_136_0 : S264x128.Slices ![136, 0] S128x128
  inb_S64x8_S64x8_0_0 : ∀ a, (![0, 0] : Fin 2 → Nat) a + S64x8.size a ≤ S64x8.size a
  h_S64x8 : 0 < S64x8.numel
  broadcasts_S1x128_S64x128 : S1x128.Broadcasts S64x128
  gather_S20000x64_S320000x1_S320000x64_1_0_n_n_0_1_164_wf : GatherDims.WF S20000x64 S320000x1 S320000x64 [1] [0] [] [0] [] 1 ![1, 64]
  gather_S20000_S320000x1_S320000_n_0_n_n_0_1_1_wf : GatherDims.WF S20000 S320000x1 S320000 [] [0] [] [0] [] 1 ![1]
  gather_S64x8_S320000x1_S320000x8_1_0_n_n_0_1_18_wf : GatherDims.WF S64x8 S320000x1 S320000x8 [1] [0] [] [0] [] 1 ![1, 8]
  gather_S64x8_S20000x1_S20000x8_1_0_n_n_0_1_18_wf : GatherDims.WF S64x8 S20000x1 S20000x8 [1] [0] [] [0] [] 1 ![1, 8]
  dot_S4000x64_S64x128_S4000x128_1_0_0_1_n_n_wf : DotDims.WF S4000x64 S64x128 S4000x128 [1] [0] [0] [1] [] []
  dot_S4000x16_S16x128_S4000x128_1_0_0_1_n_n_wf : DotDims.WF S4000x16 S16x128 S4000x128 [1] [0] [0] [1] [] []
  dot_S4000x8_S8x128_S4000x128_1_0_0_1_n_n_wf : DotDims.WF S4000x8 S8x128 S4000x128 [1] [0] [0] [1] [] []
  dot_S4000x128_S128x128_S4000x128_1_0_0_1_n_n_wf : DotDims.WF S4000x128 S128x128 S4000x128 [1] [0] [0] [1] [] []
  dot_S4000x64_S4000x128_S64x128_0_0_1_1_n_n_wf : DotDims.WF S4000x64 S4000x128 S64x128 [0] [0] [1] [1] [] []
  scatter_S20000x128_S320000x1_S320000x128_1_0_0_1_wf : ScatterDims.WF S20000x128 S320000x1 S320000x128 [1] [0] [0] 1
  dot_S4000x128_S128x264_S4000x264_1_0_0_1_n_n_wf : DotDims.WF S4000x128 S128x264 S4000x264 [1] [0] [0] [1] [] []
  dot_S4000x264_S264x128_S4000x128_1_0_0_1_n_n_wf : DotDims.WF S4000x264 S264x128 S4000x128 [1] [0] [0] [1] [] []
  scatter_S64_S320000x1_S320000_n_0_0_1_wf : ScatterDims.WF S64 S320000x1 S320000 [] [0] [0] 1
  scatter_S64_S20000x1_S20000_n_0_0_1_wf : ScatterDims.WF S64 S20000x1 S20000 [] [0] [0] 1
  dot_S64x8_S8x128_S64x128_1_0_0_1_n_n_wf : DotDims.WF S64x8 S8x128 S64x128 [1] [0] [0] [1] [] []
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S320000x64.size a
  hwx0_0 : ∀ i : grid0.Coords, EltTy.bits .bf16 = 32 ∨ (Rect.block (s := S320000x64) S4000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S320000x64.size a
  hwx0_1 : ∀ i : grid0.Coords, EltTy.bits .bf16 = 32 ∨ (Rect.block (s := S320000x64) S4000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S320000x16.size a
  hwx0_2 : ∀ i : grid0.Coords, EltTy.bits .f32 = 32 ∨ (Rect.block (s := S320000x16) S4000x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x8.size a ≤ S320000x8.size a
  hwx0_3 : ∀ i : grid0.Coords, EltTy.bits .f32 = 32 ∨ (Rect.block (s := S320000x8) S4000x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S320000x1.size a
  hwx0_4 : ∀ i : grid0.Coords, EltTy.bits .i32 = 32 ∨ (Rect.block (s := S320000x1) S4000x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x128.size a ≤ S16x128.size a
  hwx0_7 : ∀ i : grid0.Coords, EltTy.bits .f32 = 32 ∨ (Rect.block (s := S16x128) S16x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S8x128.size a
  hwx0_8 : ∀ i : grid0.Coords, EltTy.bits .f32 = 32 ∨ (Rect.block (s := S8x128) S8x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x128.size a ≤ S320000x128.size a
  hwx0_12 : ∀ i : grid0.Coords, EltTy.bits .f32 = 32 ∨ (Rect.block (s := S320000x128) S4000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x64x128.size a ≤ S80x64x128.size a
  hwx0_13 : ∀ i : grid0.Coords, EltTy.bits .f32 = 32 ∨ (Rect.block (s := S80x64x128) S1x64x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S20000x64.size a
  hwx1_0 : ∀ i : grid1.Coords, EltTy.bits .f32 = 32 ∨ (Rect.block (s := S20000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S20000x128.size a
  hwx1_1 : ∀ i : grid1.Coords, EltTy.bits .f32 = 32 ∨ (Rect.block (s := S20000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x8.size a ≤ S20000x8.size a
  hwx1_2 : ∀ i : grid1.Coords, EltTy.bits .f32 = 32 ∨ (Rect.block (s := S20000x8) S4000x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S8x128.size a
  hwx1_5 : ∀ i : grid1.Coords, EltTy.bits .f32 = 32 ∨ (Rect.block (s := S8x128) S8x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S20000x64.size a
  hwx2_0 : ∀ i : grid2.Coords, EltTy.bits .f32 = 32 ∨ (Rect.block (s := S20000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S20000x128.size a
  hwx2_1 : ∀ i : grid2.Coords, EltTy.bits .f32 = 32 ∨ (Rect.block (s := S20000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x8.size a ≤ S20000x8.size a
  hwx2_2 : ∀ i : grid2.Coords, EltTy.bits .f32 = 32 ∨ (Rect.block (s := S20000x8) S4000x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S8x128.size a
  hwx2_5 : ∀ i : grid2.Coords, EltTy.bits .f32 = 32 ∨ (Rect.block (s := S8x128) S8x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x264.size a ≤ S128x264.size a
  hwx2_8 : ∀ i : grid2.Coords, EltTy.bits .f32 = 32 ∨ (Rect.block (s := S128x264) S128x264.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S264x128.size a ≤ S264x128.size a
  hwx2_9 : ∀ i : grid2.Coords, EltTy.bits .f32 = 32 ∨ (Rect.block (s := S264x128) S264x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S4000x1.size a ≤ S20000x1.size a
  hwx2_13 : ∀ i : grid2.Coords, EltTy.bits .i32 = 32 ∨ (Rect.block (s := S20000x1) S4000x1.size (cc2_transform_13 i) (hinb2_13 i)).WholeWords (EltTy.packing .i32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S4000x128.size a ≤ S20000x128.size a
  hwx2_14 : ∀ i : grid2.Coords, EltTy.bits .f32 = 32 ∨ (Rect.block (s := S20000x128) S4000x128.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S1x64x128.size a ≤ S5x64x128.size a
  hwx2_15 : ∀ i : grid2.Coords, EltTy.bits .f32 = 32 ∨ (Rect.block (s := S5x64x128) S1x64x128.size (cc2_transform_15 i) (hinb2_15 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x8.size a ≤ S64x8.size a
  hwx3_0 : ∀ i : grid3.Coords, EltTy.bits .f32 = 32 ∨ (Rect.block (s := S64x8) S64x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S8x128.size a ≤ S8x128.size a
  hwx3_3 : ∀ i : grid3.Coords, EltTy.bits .f32 = 32 ∨ (Rect.block (s := S8x128) S8x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x128.size a ≤ S64x128.size a
  hwx3_9 : ∀ i : grid3.Coords, EltTy.bits .f32 = 32 ∨ (Rect.block (s := S64x128) S64x128.size (cc3_transform_9 i) (hinb3_9 i)).WholeWords (EltTy.packing .f32)

variable [Facts₀]

def gather_S20000x64_S320000x1_S320000x64_1_0_n_n_0_1_164 : GatherDims S20000x64 S320000x1 S320000x64 where
  offsetDims := [1]
  collapsedSliceDims := [0]
  operandBatchingDims := []
  startIndicesBatchingDims := []
  startIndexMap := [0]
  indexVectorDim := 1
  sliceSizes := ![1, 64]
  wf := gather_S20000x64_S320000x1_S320000x64_1_0_n_n_0_1_164_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S64x8_S320000x1_S320000x8_1_0_n_n_0_1_18 : GatherDims S64x8 S320000x1 S320000x8 where
  offsetDims := [1]
  collapsedSliceDims := [0]
  operandBatchingDims := []
  startIndicesBatchingDims := []
  startIndexMap := [0]
  indexVectorDim := 1
  sliceSizes := ![1, 8]
  wf := gather_S64x8_S320000x1_S320000x8_1_0_n_n_0_1_18_wf
def gather_S64x8_S20000x1_S20000x8_1_0_n_n_0_1_18 : GatherDims S64x8 S20000x1 S20000x8 where
  offsetDims := [1]
  collapsedSliceDims := [0]
  operandBatchingDims := []
  startIndicesBatchingDims := []
  startIndexMap := [0]
  indexVectorDim := 1
  sliceSizes := ![1, 8]
  wf := gather_S64x8_S20000x1_S20000x8_1_0_n_n_0_1_18_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x64_S4000x128_S64x128_0_0_1_1_n_n : DotDims S4000x64 S4000x128 S64x128 where
  lhsContracting := [0]
  rhsContracting := [0]
  lhsNonContracting := [1]
  rhsNonContracting := [1]
  lhsBatch := []
  rhsBatch := []
  wf := dot_S4000x64_S4000x128_S64x128_0_0_1_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S4000x128_S128x264_S4000x264_1_0_0_1_n_n : DotDims S4000x128 S128x264 S4000x264 where
  lhsContracting := [1]
  rhsContracting := [0]
  lhsNonContracting := [0]
  rhsNonContracting := [1]
  lhsBatch := []
  rhsBatch := []
  wf := dot_S4000x128_S128x264_S4000x264_1_0_0_1_n_n_wf
def dot_S4000x264_S264x128_S4000x128_1_0_0_1_n_n : DotDims S4000x264 S264x128 S4000x128 where
  lhsContracting := [1]
  rhsContracting := [0]
  lhsNonContracting := [0]
  rhsNonContracting := [1]
  lhsBatch := []
  rhsBatch := []
  wf := dot_S4000x264_S264x128_S4000x128_1_0_0_1_n_n_wf
def scatter_S64_S320000x1_S320000_n_0_0_1 : ScatterDims S64 S320000x1 S320000 where
  updateWindowDims := []
  insertedWindowDims := [0]
  scatterDimsToOperandDims := [0]
  indexVectorDim := 1
  wf := scatter_S64_S320000x1_S320000_n_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def dot_S64x8_S8x128_S64x128_1_0_0_1_n_n : DotDims S64x8 S8x128 S64x128 where
  lhsContracting := [1]
  rhsContracting := [0]
  lhsNonContracting := [0]
  rhsNonContracting := [1]
  lhsBatch := []
  rhsBatch := []
  wf := dot_S64x8_S8x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_v11) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S4000x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v53) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v47) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v48) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v49) S16x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v50) S8x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v51) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg5) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v52) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v54_0) S4000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v54_1) S1x64x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S4000x8.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v61) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v62) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S8x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v64_0) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v64_1) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

abbrev win2_0 : Pipeline.Window sig grid2 :=
  Pipeline.Window.ofSpec (Memref.whole main_arg0) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S4000x8.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v61) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S8x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v64_0) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v66) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg8) S128x264.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg9) S264x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v67) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg11) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v68) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v69) S4000x1.size cc2_transform_13 reads2_13 false false 2 stage2_13 sem2_13
    hrank2 hreads2_13 hinb2_13 nbuf2_13 (Memref.isWhole_whole _) hwx2_13 hstage2_13

abbrev win2_14 : Pipeline.Window sig grid2 :=
  Pipeline.Window.ofSpec (Memref.whole main_v70_0) S4000x128.size cc2_transform_14 reads2_14 true false 2 stage2_14 sem2_14
    hrank2 hreads2_14 hinb2_14 nbuf2_14 (Memref.isWhole_whole _) hwx2_14 hstage2_14

abbrev win2_15 : Pipeline.Window sig grid2 :=
  Pipeline.Window.ofSpec (Memref.whole main_v70_1) S1x64x128.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

abbrev win3_0 : Pipeline.Window sig grid3 :=
  Pipeline.Window.ofSpec (Memref.whole main_arg2) S64x8.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v90) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91) S8x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v92) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v93) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v94) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg15) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v95) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v96) S64x128.size cc3_transform_9 reads3_9 true true 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S20000x64 : Shape := ⟨2, ![20000, 64]⟩
abbrev S320000x16 : Shape := ⟨2, ![320000, 16]⟩
abbrev S64x8 : Shape := ⟨2, ![64, 8]⟩
abbrev S152x128 : Shape := ⟨2, ![152, 128]⟩
abbrev S128 : Shape := ⟨1, ![128]⟩
abbrev S128x128 : Shape := ⟨2, ![128, 128]⟩
abbrev S128x200 : Shape := ⟨2, ![128, 200]⟩
abbrev S128x264 : Shape := ⟨2, ![128, 264]⟩
abbrev S264x128 : Shape := ⟨2, ![264, 128]⟩
abbrev S2x320000 : Shape := ⟨2, ![2, 320000]⟩
abbrev S20000 : Shape := ⟨1, ![20000]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x64 : Shape := ⟨2, ![320000, 64]⟩
abbrev S320000x8 : Shape := ⟨2, ![320000, 8]⟩
abbrev S320000x152 : Shape := ⟨2, ![320000, 152]⟩
abbrev S320000x128 : Shape := ⟨2, ![320000, 128]⟩
abbrev S1x128 : Shape := ⟨2, ![1, 128]⟩
abbrev S20000x128 : Shape := ⟨2, ![20000, 128]⟩
abbrev S20000x1 : Shape := ⟨2, ![20000, 1]⟩
abbrev S20000x8 : Shape := ⟨2, ![20000, 8]⟩
abbrev S20000x200 : Shape := ⟨2, ![20000, 200]⟩
abbrev S200x128 : Shape := ⟨2, ![200, 128]⟩
abbrev S20000x264 : Shape := ⟨2, ![20000, 264]⟩
abbrev S64x128 : Shape := ⟨2, ![64, 128]⟩
abbrev S64 : Shape := ⟨1, ![64]⟩
abbrev S64x1 : Shape := ⟨2, ![64, 1]⟩
abbrev S64x264 : Shape := ⟨2, ![64, 264]⟩

abbrev nBuf : Space → Nat
  | .hbm => 171
  | .vmem => 0
  | .smem => 0
  | _ => 0

abbrev hbmTy0_0 (i : Nat) : BufTy := match i % 128 with
  | 0 => ⟨S20000x64, .f32⟩
  | 1 => ⟨S320000x16, .f32⟩
  | 2 => ⟨S64x8, .f32⟩
  | 3 => ⟨S152x128, .f32⟩
  | 4 => ⟨S128, .f32⟩
  | 5 => ⟨S128x128, .f32⟩
  | 6 => ⟨S128, .f32⟩
  | 7 => ⟨S128x200, .f32⟩
  | 8 => ⟨S128x264, .f32⟩
  | 9 => ⟨S264x128, .f32⟩
  | 10 => ⟨S128, .f32⟩
  | 11 => ⟨S128x128, .f32⟩
  | 12 => ⟨S128, .f32⟩
  | 13 => ⟨S264x128, .f32⟩
  | 14 => ⟨S128, .f32⟩
  | 15 => ⟨S128x128, .f32⟩
  | 16 => ⟨S128, .f32⟩
  | 17 => ⟨S2x320000, .i32⟩
  | 18 => ⟨S20000, .i32⟩
  | 19 => ⟨S1x320000, .i32⟩
  | 20 => ⟨S320000, .i32⟩
  | 21 => ⟨S1x320000, .i32⟩
  | 22 => ⟨S320000, .i32⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S320000x64, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000x64, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000, .i32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S320000x8, .f32⟩
  | 59 => ⟨S320000x152, .f32⟩
  | 60 => ⟨S320000x128, .f32⟩
  | 61 => ⟨S1x128, .f32⟩
  | 62 => ⟨S320000x128, .f32⟩
  | 63 => ⟨S320000x128, .f32⟩
  | 64 => ⟨S_, .f32⟩
  | 65 => ⟨S320000x128, .f32⟩
  | 66 => ⟨S320000x128, .f32⟩
  | 67 => ⟨S320000x128, .f32⟩
  | 68 => ⟨S1x128, .f32⟩
  | 69 => ⟨S320000x128, .f32⟩
  | 70 => ⟨S320000x128, .f32⟩
  | 71 => ⟨S_, .f32⟩
  | 72 => ⟨S20000x128, .f32⟩
  | 73 => ⟨S320000x1, .i32⟩
  | 74 => ⟨S20000x128, .f32⟩
  | 75 => ⟨S_, .i32⟩
  | 76 => ⟨S20000, .i32⟩
  | 77 => ⟨S20000, .i1⟩
  | 78 => ⟨S_, .i32⟩
  | 79 => ⟨S20000, .i32⟩
  | 80 => ⟨S20000, .i32⟩
  | 81 => ⟨S20000, .i32⟩
  | 82 => ⟨S20000x1, .i32⟩
  | 83 => ⟨S20000x8, .f32⟩
  | 84 => ⟨S20000x200, .f32⟩
  | 85 => ⟨S200x128, .f32⟩
  | 86 => ⟨S20000x128, .f32⟩
  | 87 => ⟨S_, .f32⟩
  | 88 => ⟨S128, .f32⟩
  | 89 => ⟨S_, .f32⟩
  | 90 => ⟨S128, .f32⟩
  | 91 => ⟨S128, .f32⟩
  | 92 => ⟨S1x128, .f32⟩
  | 93 => ⟨S20000x128, .f32⟩
  | 94 => ⟨S20000x128, .f32⟩
  | 95 => ⟨S20000x128, .f32⟩
  | 96 => ⟨S_, .f32⟩
  | 97 => ⟨S128, .f32⟩
  | 98 => ⟨S1x128, .f32⟩
  | 99 => ⟨S20000x128, .f32⟩
  | 100 => ⟨S20000x128, .f32⟩
  | 101 => ⟨S_, .f32⟩
  | 102 => ⟨S20000, .f32⟩
  | 103 => ⟨S20000x1, .f32⟩
  | 104 => ⟨S20000x128, .f32⟩
  | 105 => ⟨S20000x128, .f32⟩
  | 106 => ⟨S20000x264, .f32⟩
  | 107 => ⟨S20000x128, .f32⟩
  | 108 => ⟨S1x128, .f32⟩
  | 109 => ⟨S20000x128, .f32⟩
  | 110 => ⟨S20000x128, .f32⟩
  | 111 => ⟨S_, .f32⟩
  | 112 => ⟨S20000x128, .f32⟩
  | 113 => ⟨S20000x128, .f32⟩
  | 114 => ⟨S20000x128, .f32⟩
  | 115 => ⟨S1x128, .f32⟩
  | 116 => ⟨S20000x128, .f32⟩
  | 117 => ⟨S20000x128, .f32⟩
  | 118 => ⟨S_, .f32⟩
  | 119 => ⟨S64x128, .f32⟩
  | 120 => ⟨S20000x1, .i32⟩
  | 121 => ⟨S64x128, .f32⟩
  | 122 => ⟨S_, .f32⟩
  | 123 => ⟨S20000, .f32⟩
  | 124 => ⟨S_, .f32⟩
  | 125 => ⟨S64, .f32⟩
  | 126 => ⟨S20000x1, .i32⟩
  | 127 => ⟨S64, .f32⟩
  | _ => ⟨S20000x64, .f32⟩

abbrev hbmTy0_1 (i : Nat) : BufTy := match i % 128 with
  | 0 => ⟨S_, .f32⟩
  | 1 => ⟨S64, .f32⟩
  | 2 => ⟨S64, .f32⟩
  | 3 => ⟨S64x1, .f32⟩
  | 4 => ⟨S64x128, .f32⟩
  | 5 => ⟨S64x128, .f32⟩
  | 6 => ⟨S_, .i32⟩
  | 7 => ⟨S320000, .i32⟩
  | 8 => ⟨S320000, .i1⟩
  | 9 => ⟨S_, .i32⟩
  | 10 => ⟨S320000, .i32⟩
  | 11 => ⟨S320000, .i32⟩
  | 12 => ⟨S320000, .i32⟩
  | 13 => ⟨S320000x1, .i32⟩
  | 14 => ⟨S320000, .i32⟩
  | 15 => ⟨S_, .f32⟩
  | 16 => ⟨S64x128, .f32⟩
  | 17 => ⟨S320000x1, .i32⟩
  | 18 => ⟨S64x128, .f32⟩
  | 19 => ⟨S_, .f32⟩
  | 20 => ⟨S320000, .f32⟩
  | 21 => ⟨S_, .f32⟩
  | 22 => ⟨S64, .f32⟩
  | 23 => ⟨S320000x1, .i32⟩
  | 24 => ⟨S64, .f32⟩
  | 25 => ⟨S_, .f32⟩
  | 26 => ⟨S64, .f32⟩
  | 27 => ⟨S64, .f32⟩
  | 28 => ⟨S64x1, .f32⟩
  | 29 => ⟨S64x128, .f32⟩
  | 30 => ⟨S64x128, .f32⟩
  | 31 => ⟨S64x264, .f32⟩
  | 32 => ⟨S64x128, .f32⟩
  | 33 => ⟨S1x128, .f32⟩
  | 34 => ⟨S64x128, .f32⟩
  | 35 => ⟨S64x128, .f32⟩
  | 36 => ⟨S_, .f32⟩
  | 37 => ⟨S64x128, .f32⟩
  | 38 => ⟨S64x128, .f32⟩
  | 39 => ⟨S64x128, .f32⟩
  | 40 => ⟨S1x128, .f32⟩
  | 41 => ⟨S64x128, .f32⟩
  | 42 => ⟨S64x128, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call0_cst : Ref sig .tc := ⟨.hbm, 64, rfl⟩
abbrev main_call0_v0 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_7 : Ref sig .tc := ⟨.hbm, 75, rfl⟩
abbrev main_v45 : Ref sig .tc := ⟨.hbm, 76, rfl⟩
abbrev main_v46 : Ref sig .tc := ⟨.hbm, 77, rfl⟩
abbrev main_c_8 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_9 : Ref sig .tc := ⟨.hbm, 87, rfl⟩
abbrev main_v55 : Ref sig .tc := ⟨.hbm, 88, rfl⟩
abbrev main_cst_10 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_11 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_12 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_call1_cst : Ref sig .tc := ⟨.hbm, 111, rfl⟩
abbrev main_call1_v0 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_13 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_14 : Ref sig .tc := ⟨.hbm, 122, rfl⟩
abbrev main_v83 : Ref sig .tc := ⟨.hbm, 123, rfl⟩
abbrev main_cst_15 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_16 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_c_17 : Ref sig .tc := ⟨.hbm, 134, rfl⟩
abbrev main_v92 : Ref sig .tc := ⟨.hbm, 135, rfl⟩
abbrev main_v93 : Ref sig .tc := ⟨.hbm, 136, rfl⟩
abbrev main_c_18 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_19 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_20 : Ref sig .tc := ⟨.hbm, 147, rfl⟩
abbrev main_v102 : Ref sig .tc := ⟨.hbm, 148, rfl⟩
abbrev main_cst_21 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_cst_22 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_call2_cst : Ref sig .tc := ⟨.hbm, 164, rfl⟩
abbrev main_call2_v0 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x64_S320000x64_S320000x16_S320000x8_S320000x152_d1 : Shape.Concatenates [S320000x64, S320000x64, S320000x16, S320000x8] S320000x152 1
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  concatenates_S20000x64_S20000x128_S20000x8_S20000x200_d1 : Shape.Concatenates [S20000x64, S20000x128, S20000x8] S20000x200 1
  transposes_S128x200_S200x128_1_0 : S128x200.Transposes [1, 0] S200x128
  reducesTo_S20000x128_S128_d0 : S20000x128.ReducesTo [0] S128
  h_S_ : 0 < S_.numel
  bcast_S_S128 : S_.BroadcastsInDim S128 (![] : Fin 0 → Fin S128.rank)
  bcast_S1x128_S20000x128_0_1 : S1x128.BroadcastsInDim S20000x128 (![0, 1] : Fin 2 → Fin S20000x128.rank)
  reducesTo_S20000x128_S20000_d1 : S20000x128.ReducesTo [1] S20000
  bcast_S20000x1_S20000x128_0_1 : S20000x1.BroadcastsInDim S20000x128 (![0, 1] : Fin 2 → Fin S20000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  concatenates_S64x8_S64x128_S64x128_S64x264_d1 : Shape.Concatenates [S64x8, S64x128, S64x128] S64x264 1
  bcast_S1x128_S64x128_0_1 : S1x128.BroadcastsInDim S64x128 (![0, 1] : Fin 2 → Fin S64x128.rank)
  gather_S20000x64_S320000x1_S320000x64_1_0_n_n_0_1_164_wf : GatherDims.WF S20000x64 S320000x1 S320000x64 [1] [0] [] [0] [] 1 ![1, 64]
  gather_S20000_S320000x1_S320000_n_0_n_n_0_1_1_wf : GatherDims.WF S20000 S320000x1 S320000 [] [0] [] [0] [] 1 ![1]
  gather_S64x8_S320000x1_S320000x8_1_0_n_n_0_1_18_wf : GatherDims.WF S64x8 S320000x1 S320000x8 [1] [0] [] [0] [] 1 ![1, 8]
  dot_S320000x152_S152x128_S320000x128_1_0_0_1_n_n_wf : DotDims.WF S320000x152 S152x128 S320000x128 [1] [0] [0] [1] [] []
  dot_S320000x128_S128x128_S320000x128_1_0_0_1_n_n_wf : DotDims.WF S320000x128 S128x128 S320000x128 [1] [0] [0] [1] [] []
  scatter_S20000x128_S320000x1_S320000x128_1_0_0_1_wf : ScatterDims.WF S20000x128 S320000x1 S320000x128 [1] [0] [0] 1
  gather_S64x8_S20000x1_S20000x8_1_0_n_n_0_1_18_wf : GatherDims.WF S64x8 S20000x1 S20000x8 [1] [0] [] [0] [] 1 ![1, 8]
  dot_S20000x200_S200x128_S20000x128_1_0_0_1_n_n_wf : DotDims.WF S20000x200 S200x128 S20000x128 [1] [0] [0] [1] [] []
  dot_S20000x128_S128x264_S20000x264_1_0_0_1_n_n_wf : DotDims.WF S20000x128 S128x264 S20000x264 [1] [0] [0] [1] [] []
  dot_S20000x264_S264x128_S20000x128_1_0_0_1_n_n_wf : DotDims.WF S20000x264 S264x128 S20000x128 [1] [0] [0] [1] [] []
  dot_S20000x128_S128x128_S20000x128_1_0_0_1_n_n_wf : DotDims.WF S20000x128 S128x128 S20000x128 [1] [0] [0] [1] [] []
  scatter_S64x128_S20000x1_S20000x128_1_0_0_1_wf : ScatterDims.WF S64x128 S20000x1 S20000x128 [1] [0] [0] 1
  scatter_S64_S20000x1_S20000_n_0_0_1_wf : ScatterDims.WF S64 S20000x1 S20000 [] [0] [0] 1
  scatter_S64x128_S320000x1_S320000x128_1_0_0_1_wf : ScatterDims.WF S64x128 S320000x1 S320000x128 [1] [0] [0] 1
  scatter_S64_S320000x1_S320000_n_0_0_1_wf : ScatterDims.WF S64 S320000x1 S320000 [] [0] [0] 1
  dot_S64x264_S264x128_S64x128_1_0_0_1_n_n_wf : DotDims.WF S64x264 S264x128 S64x128 [1] [0] [0] [1] [] []
  dot_S64x128_S128x128_S64x128_1_0_0_1_n_n_wf : DotDims.WF S64x128 S128x128 S64x128 [1] [0] [0] [1] [] []

variable [Facts₀]

def gather_S20000x64_S320000x1_S320000x64_1_0_n_n_0_1_164 : GatherDims S20000x64 S320000x1 S320000x64 where
  offsetDims := [1]
  collapsedSliceDims := [0]
  operandBatchingDims := []
  startIndicesBatchingDims := []
  startIndexMap := [0]
  indexVectorDim := 1
  sliceSizes := ![1, 64]
  wf := gather_S20000x64_S320000x1_S320000x64_1_0_n_n_0_1_164_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S64x8_S320000x1_S320000x8_1_0_n_n_0_1_18 : GatherDims S64x8 S320000x1 S320000x8 where
  offsetDims := [1]
  collapsedSliceDims := [0]
  operandBatchingDims := []
  startIndicesBatchingDims := []
  startIndexMap := [0]
  indexVectorDim := 1
  sliceSizes := ![1, 8]
  wf := gather_S64x8_S320000x1_S320000x8_1_0_n_n_0_1_18_wf
def dot_S320000x152_S152x128_S320000x128_1_0_0_1_n_n : DotDims S320000x152 S152x128 S320000x128 where
  lhsContracting := [1]
  rhsContracting := [0]
  lhsNonContracting := [0]
  rhsNonContracting := [1]
  lhsBatch := []
  rhsBatch := []
  wf := dot_S320000x152_S152x128_S320000x128_1_0_0_1_n_n_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def gather_S64x8_S20000x1_S20000x8_1_0_n_n_0_1_18 : GatherDims S64x8 S20000x1 S20000x8 where
  offsetDims := [1]
  collapsedSliceDims := [0]
  operandBatchingDims := []
  startIndicesBatchingDims := []
  startIndexMap := [0]
  indexVectorDim := 1
  sliceSizes := ![1, 8]
  wf := gather_S64x8_S20000x1_S20000x8_1_0_n_n_0_1_18_wf
def dot_S20000x200_S200x128_S20000x128_1_0_0_1_n_n : DotDims S20000x200 S200x128 S20000x128 where
  lhsContracting := [1]
  rhsContracting := [0]
  lhsNonContracting := [0]
  rhsNonContracting := [1]
  lhsBatch := []
  rhsBatch := []
  wf := dot_S20000x200_S200x128_S20000x128_1_0_0_1_n_n_wf
def dot_S20000x128_S128x264_S20000x264_1_0_0_1_n_n : DotDims S20000x128 S128x264 S20000x264 where
  lhsContracting := [1]
  rhsContracting := [0]
  lhsNonContracting := [0]
  rhsNonContracting := [1]
  lhsBatch := []
  rhsBatch := []
  wf := dot_S20000x128_S128x264_S20000x264_1_0_0_1_n_n_wf
def dot_S20000x264_S264x128_S20000x128_1_0_0_1_n_n : DotDims S20000x264 S264x128 S20000x128 where
  lhsContracting := [1]
  rhsContracting := [0]
  lhsNonContracting := [0]
  rhsNonContracting := [1]
  lhsBatch := []
  rhsBatch := []
  wf := dot_S20000x264_S264x128_S20000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def scatter_S64x128_S20000x1_S20000x128_1_0_0_1 : ScatterDims S64x128 S20000x1 S20000x128 where
  updateWindowDims := [1]
  insertedWindowDims := [0]
  scatterDimsToOperandDims := [0]
  indexVectorDim := 1
  wf := scatter_S64x128_S20000x1_S20000x128_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def scatter_S64x128_S320000x1_S320000x128_1_0_0_1 : ScatterDims S64x128 S320000x1 S320000x128 where
  updateWindowDims := [1]
  insertedWindowDims := [0]
  scatterDimsToOperandDims := [0]
  indexVectorDim := 1
  wf := scatter_S64x128_S320000x1_S320000x128_1_0_0_1_wf
def scatter_S64_S320000x1_S320000_n_0_0_1 : ScatterDims S64 S320000x1 S320000 where
  updateWindowDims := []
  insertedWindowDims := [0]
  scatterDimsToOperandDims := [0]
  indexVectorDim := 1
  wf := scatter_S64_S320000x1_S320000_n_0_0_1_wf
def dot_S64x264_S264x128_S64x128_1_0_0_1_n_n : DotDims S64x264 S264x128 S64x128 where
  lhsContracting := [1]
  rhsContracting := [0]
  lhsNonContracting := [0]
  rhsNonContracting := [1]
  lhsBatch := []
  rhsBatch := []
  wf := dot_S64x264_S264x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

class Facts : Prop extends Facts₀ where

variable [Facts]
-- ==== Proof.FrameK.R0.lean ====
import proofs.«429701_j48541720379569_3_alg».proof.Proof.Gen.Kernel.Launch
import proofs.«429701_j48541720379569_3_alg».proof.Proof.Gen.Kernel.Skeleton
import proofs.«429701_j48541720379569_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rc4000x64 : Rect S4000x64 := Rect.unit (s := S4000x64) ![0, 0] S4000x64.size inb_S4000x64_S4000x64_0_0
abbrev rc4000x16 : Rect S4000x16 := Rect.unit (s := S4000x16) ![0, 0] S4000x16.size inb_S4000x16_S4000x16_0_0
abbrev rc4000x8 : Rect S4000x8 := Rect.unit (s := S4000x8) ![0, 0] S4000x8.size inb_S4000x8_S4000x8_0_0
abbrev rc4000x1 : Rect S4000x1 := Rect.unit (s := S4000x1) ![0, 0] S4000x1.size inb_S4000x1_S4000x1_0_0
abbrev rc64x128 : Rect S64x128 := Rect.unit (s := S64x128) ![0, 0] S64x128.size inb_S64x128_S64x128_0_0
abbrev rc16x128 : Rect S16x128 := Rect.unit (s := S16x128) ![0, 0] S16x128.size inb_S16x128_S16x128_0_0
abbrev rc8x128 : Rect S8x128 := Rect.unit (s := S8x128) ![0, 0] S8x128.size inb_S8x128_S8x128_0_0
abbrev rc1x128 : Rect S1x128 := Rect.unit (s := S1x128) ![0, 0] S1x128.size inb_S1x128_S1x128_0_0
abbrev rc128x128 : Rect S128x128 := Rect.unit (s := S128x128) ![0, 0] S128x128.size inb_S128x128_S128x128_0_0
abbrev rc4000x128 : Rect S4000x128 := Rect.unit (s := S4000x128) ![0, 0] S4000x128.size inb_S4000x128_S4000x128_0_0
abbrev rc1x64x128 : Rect S1x64x128 := Rect.unit (s := S1x64x128) ![0, 0, 0] S1x64x128.size inb_S1x64x128_S1x64x128_0_0_0

def out0_12 (x0 : Vec F S4000x64 .bf16) (x1 : Vec F S4000x64 .bf16) (x2 : Vec F S4000x16 .f32) (x3 : Vec F S4000x8 .f32)
    (x4 : Vec F S4000x1 .i32) (x5 : Vec F S64x128 .f32) (x6 : Vec F S64x128 .f32) (x7 : Vec F S16x128 .f32)
    (x8 : Vec F S8x128 .f32) (x9 : Vec F S1x128 .f32) (x10 : Vec F S128x128 .f32) (x11 : Vec F S1x128 .f32) :
    Vec F S4000x128 .f32 :=
  View.canon [⟨rc4000x128, k0_pay1
    (k0_pay3 (View.ld x0 rc4000x64) (View.ld x1 rc4000x64) (View.ld x2 rc4000x16) (View.ld x3 rc4000x8)
      (View.ld x5 rc64x128) (View.ld x6 rc64x128) (View.ld x7 rc16x128) (View.ld x8 rc8x128) (View.ld x9 rc1x128))
    (View.ld x10 rc128x128) (View.ld x11 rc1x128)⟩]

def out0_13 (x0 : Vec F S4000x64 .bf16) (x1 : Vec F S4000x64 .bf16) (x2 : Vec F S4000x16 .f32) (x3 : Vec F S4000x8 .f32)
    (x4 : Vec F S4000x1 .i32) (x5 : Vec F S64x128 .f32) (x6 : Vec F S64x128 .f32) (x7 : Vec F S16x128 .f32)
    (x8 : Vec F S8x128 .f32) (x9 : Vec F S1x128 .f32) (x10 : Vec F S128x128 .f32) (x11 : Vec F S1x128 .f32) :
    Vec F S1x64x128 .f32 :=
  View.canon [⟨rc1x64x128, k0_pay2
    (k0_pay3 (View.ld x0 rc4000x64) (View.ld x1 rc4000x64) (View.ld x2 rc4000x16) (View.ld x3 rc4000x8)
      (View.ld x5 rc64x128) (View.ld x6 rc64x128) (View.ld x7 rc16x128) (View.ld x8 rc8x128) (View.ld x9 rc1x128))
    (View.ld x10 rc128x128) (View.ld x11 rc1x128) (View.ld x4 rc4000x1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) (iblk0 V c 11 t)
    | ⟨13, _⟩ => out0_13 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) (iblk0 V c 11 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_12 (c : Dev nD) (t : Fin cfg0.N) : (dat0 V c).after 12 t
    = out0_12 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) (iblk0 V c 11 t) := by dsimp only [dat0]
theorem after0_13 (c : Dev nD) (t : Fin cfg0.N) : (dat0 V c).after 13 t
    = out0_13 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) (iblk0 V c 11 t) := by dsimp only [dat0]

theorem before0 (c : Dev nD) {w : Fin cfg0.W} (hw : (cfg0.win w).isOut = false) (t : Fin cfg0.N) (d) :
    (dat0 V c).before w t d = (dat0 V c).after w t := by
  fin_cases w <;> first
    | exact absurd hw (by decide)
    | exact (dat0 V c).before_in_eq_fetched _ hw (fun _ => rfl) (fun _ _ _ => rfl) (fun _ => rfl) t d
set_option maxHeartbeats 1000000 in
theorem sound_kernel0 (c : Dev nD) (E : Set ℕ) (i : grid0.Coords) (arg1 : Memref sig .tc .vmem S4000x64 .bf16) (harg1 : arg1.IsWhole) (arg2 : Memref sig .tc .vmem S4000x64 .bf16) (harg2 : arg2.IsWhole) (arg3 : Memref sig .tc .vmem S4000x16 .f32) (harg3 : arg3.IsWhole) (arg4 : Memref sig .tc .vmem S4000x8 .f32) (harg4 : arg4.IsWhole) (arg5 : Memref sig .tc .vmem S4000x1 .i32) (harg5 : arg5.IsWhole) (arg6 : Memref sig .tc .vmem S64x128 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S4000x128 .f32) (harg13 : arg13.IsWhole) (arg14 : Memref sig .tc .vmem S1x64x128 .f32) (harg14 : arg14.IsWhole)
    (x0 : Vec F S4000x64 .bf16) (x1 : Vec F S4000x64 .bf16) (x2 : Vec F S4000x16 .f32) (x3 : Vec F S4000x8 .f32) (x4 : Vec F S4000x1 .i32) (x5 : Vec F S64x128 .f32) (x6 : Vec F S64x128 .f32) (x7 : Vec F S16x128 .f32) (x8 : Vec F S8x128 .f32) (x9 : Vec F S1x128 .f32) (x10 : Vec F S128x128 .f32) (x11 : Vec F S1x128 .f32) (K : PUnit → sProp 𝕄) :
    let I : sProp 𝕄 := iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11)
    iprop(I ∗ (∃ d, owns (c : Thread nD τ) arg13 fullShare d) ∗ (∃ d, owns (c : Thread nD τ) arg14 fullShare d)
        ∗ (iprop(I ∗ owns (c : Thread nD τ) arg13 fullShare (out0_12 x0 x1 x2 x3 x4 x5 x6 x7 x8 x9 x10 x11)
          ∗ owns (c : Thread nD τ) arg14 fullShare (out0_13 x0 x1 x2 x3 x4 x5 x6 x7 x8 x9 x10 x11)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__edge_mlp_kernel_eq_skeleton]; unfold cc0__edge_mlp_kernel_skel
  simp only [k0_part1_eq_skeleton]; unfold k0_part1_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0 H1 H2 H3 H4 H5 H6 H7 H8 H9 H10 H11]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    iexists f11; isplitr; · ipureintro; rfl
    iexact H11
  isplitl [H12]
  · iexists _; isplitr
    swap; · iexact H12
    ipureintro
    try dsimp only
    exact View.read_writes_eq_canon _ _ _ (View.cover_of_wholeMem _ (View.Piece.wholeMem_here rfl))
  iexists _; isplitr
  swap; · iexact H13
  ipureintro
  try dsimp only
  exact View.read_writes_eq_canon _ _ _ (View.cover_of_wholeMem _ (View.Piece.wholeMem_here rfl))

theorem sound_body0 (c : Dev nD) (t : Fin cfg0.N) :
    iprop((dat0 V c).Φ t.castSucc ∗ (dat0 V c).owesAt () t.castSucc
        ∗ bigSep Finset.univ fun w => iprop(∃ d, owns (c : Thread nD τ) ((cfg0.win w).stage (cfg0.slots t w)) fullShare ((dat0 V c).before w t d)))
      ⊢ wp frame (wpE (defs₀ (F := F)) Variants.none c none) Set.univ (bodyAt0 t) fun _ =>
        iprop((dat0 V c).Φ t.succ ∗ (dat0 V c).owesAt () t.succ
          ∗ bigSep Finset.univ fun w => owns (c : Thread nD τ) ((cfg0.win w).stage (cfg0.slots t w)) fullShare ((dat0 V c).after w t)) := by
  rw [bigSep_W0, bigSep_W0]
  simp (disch := decide) only [before0 V c]
  dsimp only [dat0]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, H12, H13⟩
  iapply (sound_kernel0 c Set.univ _ _ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  iframe H0 H1 H2 H3 H4 H5 H6 H7 H8 H9 H10 H11
  isplitl [H12]; · icases H12 with ⟨%_, H12⟩; iexists _; iexact H12
  isplitl [H13]; · icases H13 with ⟨%_, H13⟩; iexists _; iexact H13
  iintro ⟨⟨H0, H1, H2, H3, H4, H5, H6, H7, H8, H9, H10, H11⟩, H12, H13⟩
  iframe H0 H1 H2 H3 H4 H5 H6 H7 H8 H9 H10 H11 H12 H13
  isplitl [HΦ]; · iexact HΦ
  iexact Ho

theorem body_obligation0 (c : Dev nD) : BodyObligation (dat0 (F := F) V c) (defs₀ (F := F)) Variants.none () Set.univ :=
  fun t => sound_body0 V c t

end Cert.Kernel.Hand

end
-- ==== Proof.FrameK.R1.lean ====
import proofs.«429701_j48541720379569_3_alg».proof.Proof.Gen.Kernel.Launch
import proofs.«429701_j48541720379569_3_alg».proof.Proof.Gen.Kernel.Skeleton
import proofs.«429701_j48541720379569_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def stepM (c : Dev nD) (t : Fin cfg1.N) (m0 : Vec F S1x128 .f32) : Vec F S1x128 .f32 :=
  k1_pay2 (k1_pay6 (iblk1 V c 0 t) (iblk1 V c 3 t) (iblk1 V c 1 t) (iblk1 V c 4 t) (iblk1 V c 2 t) (iblk1 V c 5 t) m0)

def stepL (c : Dev nD) (t : Fin cfg1.N) (m0 l0 : Vec F S1x128 .f32) : Vec F S1x128 .f32 :=
  k1_pay1 (k1_pay7 (iblk1 V c 0 t) (iblk1 V c 3 t) (iblk1 V c 1 t) (iblk1 V c 4 t) (iblk1 V c 2 t) (iblk1 V c 5 t) m0 m0)
    (k1_pay8 (iblk1 V c 0 t) (iblk1 V c 3 t) (iblk1 V c 1 t) (iblk1 V c 4 t) (iblk1 V c 2 t) (iblk1 V c 5 t) m0) l0

def mAt (c : Dev nD) : ℕ → Vec F S1x128 .f32
  | 0 => k1_pay3
  | n + 1 => if h : n < cfg1.N then stepM V c ⟨n, h⟩ (mAt c n) else mAt c n

def lAt (c : Dev nD) : ℕ → Vec F S1x128 .f32
  | 0 => k1_pay4
  | n + 1 => if h : n < cfg1.N then stepL V c ⟨n, h⟩ (mAt V c n) (lAt c n) else lAt c n

theorem mAt_zero (c : Dev nD) : mAt V c 0 = k1_pay3 := rfl
theorem lAt_zero (c : Dev nD) : lAt V c 0 = k1_pay4 := rfl

theorem mAt_succ (c : Dev nD) (n : ℕ) (hn : n < cfg1.N) :
    mAt V c (n + 1) = k1_pay2 (k1_pay6 (iblk1 V c 0 ⟨n, hn⟩) (iblk1 V c 3 ⟨n, hn⟩) (iblk1 V c 1 ⟨n, hn⟩) (iblk1 V c 4 ⟨n, hn⟩) (iblk1 V c 2 ⟨n, hn⟩) (iblk1 V c 5 ⟨n, hn⟩) (mAt V c n)) := by
  show (if h : n < cfg1.N then stepM V c ⟨n, h⟩ (mAt V c n) else mAt V c n) = _
  rw [dif_pos hn]; rfl

theorem lAt_succ (c : Dev nD) (n : ℕ) (hn : n < cfg1.N) :
    lAt V c (n + 1) = k1_pay1
      (k1_pay7 (iblk1 V c 0 ⟨n, hn⟩) (iblk1 V c 3 ⟨n, hn⟩) (iblk1 V c 1 ⟨n, hn⟩) (iblk1 V c 4 ⟨n, hn⟩) (iblk1 V c 2 ⟨n, hn⟩) (iblk1 V c 5 ⟨n, hn⟩) (mAt V c n) (mAt V c n))
      (k1_pay8 (iblk1 V c 0 ⟨n, hn⟩) (iblk1 V c 3 ⟨n, hn⟩) (iblk1 V c 1 ⟨n, hn⟩) (iblk1 V c 4 ⟨n, hn⟩) (iblk1 V c 2 ⟨n, hn⟩) (iblk1 V c 5 ⟨n, hn⟩) (mAt V c n))
      (lAt V c n) := by
  show (if h : n < cfg1.N then stepL V c ⟨n, h⟩ (mAt V c n) (lAt V c n) else lAt V c n) = _
  rw [dif_pos hn]; rfl

abbrev scM : Memref sig .tc .vmem S1x128 .f32 := Memref.whole cc1_scratch0
abbrev scL : Memref sig .tc .vmem S1x128 .f32 := Memref.whole cc1_scratch1

-- after n tiles, m and l are the running column maximum and the running rescaled sum of exponentials
def Phi1 (c : Dev nD) (n : ℕ) : sProp 𝕄 :=
  iprop((∃ m l, ⌜n ≠ 0 → m = mAt V c n ∧ l = lAt V c n⌝ ∗ owns (c : Thread nD τ) scM fullShare m ∗ owns (c : Thread nD τ) scL fullShare l)
    ∗ Pipeline.scopedRestBut (Ix := Unit) (Name := ℕ) (U := UR sig nD τ) (Lvl := ℕ) (Val := Elt F) spec1 c [cc1_scratch0, cc1_scratch1]
    ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => mAt V c 5
    | ⟨7, _⟩ => lAt V c 5
  Φ t := Phi1 V c t.val
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = mAt V c 5 := by dsimp only [dat1]
theorem after1_7 (c : Dev nD) (t : Fin cfg1.N) : (dat1 V c).after 7 t = lAt V c 5 := by dsimp only [dat1]

abbrev cond1_0 (i : grid1.Coords) : Prop :=
  (Scalar.cmpi .ne (Scalar.extui (Scalar.cmpi .eq (BitVec.ofNat 32 (i 0).val) 0#32)) 0#32) = 1#1
abbrev cond1_1 (i : grid1.Coords) : Prop := k1_cond2 i = 1#1

theorem hcond1_0 : ∀ t : Fin cfg1.N, cond1_0 (grid1.coords t) ↔ t.val % 5 = 0 :=
  (by decide +kernel : ∀ t : Fin grid1.N, cond1_0 (grid1.coords t) ↔ t.val % 5 = 0)
theorem hcond1_1 : ∀ t : Fin cfg1.N, cond1_1 (grid1.coords t) ↔ t.val % 5 = 4 :=
  (by decide +kernel : ∀ t : Fin grid1.N, cond1_1 (grid1.coords t) ↔ t.val % 5 = 4)

theorem hz2 : (![0, 0] : Fin 2 → Nat) = fun _ => 0 := funext fun a => by fin_cases a <;> rfl

theorem ld_whole {S : Shape} {e : EltTy} {off : Fin S.rank → Nat} (h : off = fun _ => 0)
    (inb : ∀ a, off a + S.size a ≤ S.size a) (X : S.Idx → Elt F e) : View.ld X (Rect.unit off S.size inb) = X := by
  subst h
  funext x
  exact congrArg X (Rect.emb_whole_apply S x)

theorem read_store_whole {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h
  funext y
  have e := View.read_writes_cons_emb (v := v) (f := f) (Rect.whole S) w L y
  rwa [Rect.emb_whole_apply] at e

set_option maxHeartbeats 1000000 in
-- one step of the recursion from (m0, l0), which at the first tile are the reset values
theorem run1 (c : Dev nD) (E : Set ℕ) (i : grid1.Coords)
    (arg1 : Memref sig .tc .vmem S4000x64 .f32) (harg1 : arg1.IsWhole) (arg2 : Memref sig .tc .vmem S4000x128 .f32) (harg2 : arg2.IsWhole)
    (arg3 : Memref sig .tc .vmem S4000x8 .f32) (harg3 : arg3.IsWhole) (arg4 : Memref sig .tc .vmem S64x128 .f32) (harg4 : arg4.IsWhole)
    (arg5 : Memref sig .tc .vmem S128x128 .f32) (harg5 : arg5.IsWhole) (arg6 : Memref sig .tc .vmem S8x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (x0 : Vec F S4000x64 .f32) (x1 : Vec F S4000x128 .f32) (x2 : Vec F S4000x8 .f32) (x3 : Vec F S64x128 .f32)
    (x4 : Vec F S128x128 .f32) (x5 : Vec F S8x128 .f32) (d7 d8 d9 d10 m0 l0 : Vec F S1x128 .f32)
    (h : cond1_0 i ∧ ¬cond1_1 i ∧ m0 = k1_pay3 ∧ l0 = k1_pay4 ∨ ¬cond1_0 i ∧ d9 = m0 ∧ d10 = l0) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare d7 ∗ owns (c : Thread nD τ) arg8 fullShare d8 ∗ owns (c : Thread nD τ) arg9 fullShare d9 ∗ owns (c : Thread nD τ) arg10 fullShare d10
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (if cond1_1 i then k1_pay2 (k1_pay6 x0 x3 x1 x4 x2 x5 m0) else d7)
            ∗ owns (c : Thread nD τ) arg8 fullShare (if cond1_1 i then k1_pay1 (k1_pay7 x0 x3 x1 x4 x2 x5 m0 m0) (k1_pay8 x0 x3 x1 x4 x2 x5 m0) l0 else d8)
            ∗ owns (c : Thread nD τ) arg9 fullShare (k1_pay2 (k1_pay6 x0 x3 x1 x4 x2 x5 m0))
            ∗ owns (c : Thread nD τ) arg10 fullShare (k1_pay1 (k1_pay7 x0 x3 x1 x4 x2 x5 m0 m0) (k1_pay8 x0 x3 x1 x4 x2 x5 m0) l0)) -∗ K ⟨⟩))
      ⊢ wp frame (wpE (defs₀ (F := F)) Variants.none c none) E
          (cc1__node_stats_kernel i arg1 harg1 arg2 harg2 arg3 harg3 arg4 harg4 arg5 harg5 arg6 harg6 arg7 harg7 arg8 harg8 arg9 harg9 arg10 harg10) K := by
  by_cases hc1 : cond1_1 i <;> rcases h with ⟨hc0, hn, rfl, rfl⟩ | ⟨hc0, rfl, rfl⟩ <;> try exact absurd hc1 hn
  all_goals
    first | rw [if_pos hc1, if_pos hc1] | rw [if_neg hc1, if_neg hc1]
    simp only [cc1__node_stats_kernel_eq_skeleton]; unfold cc1__node_stats_kernel_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    obtain rfl := harg9.eq_unread hf9; obtain rfl := harg10.eq_unread hf10
    sl_exec (disch := first | exact hc0 | exact hc1)
    sl_step
    iapply Hk
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    isplitl [H7]; iexists _; isplitr; swap; iexact H7; rotate_left
    isplitl [H8]; iexists _; isplitr; swap; iexact H8; rotate_left
    isplitl [H9]; iexists _; isplitr; swap; iexact H9; rotate_left
    iexists _; isplitr; swap; iexact H10
    all_goals
      ipureintro
      sl_unfold_run_names
      try rw [read_store_whole (S := S1x128) _ _ hz2]
      simp only [View.readAt_eq_ld, View.readCov_cons_toLoadRect, Memref.IsWhole.read_unread, ld_whole (S := S4000x64) hz2, ld_whole (S := S4000x128) hz2,
        ld_whole (S := S4000x8) hz2, ld_whole (S := S64x128) hz2, ld_whole (S := S128x128) hz2, ld_whole (S := S8x128) hz2, ld_whole (S := S1x128) hz2]

theorem before1 (c : Dev nD) {w : Fin cfg1.W} (hw : w.val < 6) (t : Fin cfg1.N) (d) : (dat1 V c).before w t d = (dat1 V c).after w t := by
  fin_cases w <;> first
    | exact absurd hw (by decide)
    | exact (dat1 V c).before_in_eq_fetched _ rfl (fun _ => rfl) (fun _ _ _ => rfl) (fun _ => rfl) t d

theorem lvIn (c : Dev nD) {w : Fin cfg1.W} (hw : w.val < 6) (t : Fin cfg1.N) :
    (dat1 V c).leavesExact w t = owns (c : Thread nD τ) ((cfg1.win w).stage (cfg1.slots t w)) fullShare ((dat1 V c).after w t) := by
  fin_cases w <;> first | exact absurd hw (by decide) | rfl

theorem out1 : ∀ (t : Fin cfg1.N) (w : Fin cfg1.W), (cfg1.win w).isOut = true →
    (cond1_1 (grid1.coords t) → cfg1.idle w (grid1.coords t) = false)
      ∧ (¬cond1_1 (grid1.coords t) → cfg1.idle w (grid1.coords t) = true ∧ (cfg1.win w).flush t = false) := by decide +kernel

theorem lv1 (c : Dev nD) (t : Fin cfg1.N) (w : Fin cfg1.W) (hw : (cfg1.win w).isOut = true)
    (X d : (cfg1.win w).block.Idx → Elt F (cfg1.win w).elt) (hX : cond1_1 (grid1.coords t) → X = (dat1 V c).after w t) :
    owns (c : Thread nD τ) ((cfg1.win w).stage (cfg1.slots t w)) fullShare (if cond1_1 (grid1.coords t) then X else (dat1 V c).before w t d)
      ⊢ (dat1 V c).leavesExact w t := by
  obtain ⟨hl, hi⟩ := out1 t w hw
  by_cases h : cond1_1 (grid1.coords t)
  · rw [if_pos h, hX h]; unfold Dat.leavesExact; rw [hl h]
  · rw [if_neg h, Dat.leavesExact_idle _ w t (hi h).1 (hi h).2]; iintro H; iexists d; iexact H

theorem body_obligation1 (c : Dev nD) : BodyObligation (dat1 (F := F) V c) (defs₀ (F := F)) Variants.none () Set.univ := fun t => by
  have hN : t.val < 5 := lt_of_lt_of_eq t.isLt N_1
  have hM : cond1_1 (grid1.coords t) → t.val + 1 = 5 := fun h => by have := (hcond1_1 t).mp h; omega
  show iprop(Phi1 V c t.val ∗ (dat1 V c).owesAt () t.castSucc
      ∗ bigSep Finset.univ fun w => iprop(∃ d, owns (c : Thread nD τ) ((cfg1.win w).stage (cfg1.slots t w)) fullShare ((dat1 V c).before w t d)))
    ⊢ wp frame (wpE (defs₀ (F := F)) Variants.none c none) Set.univ (bodyAt1 t) fun _ =>
      iprop(Phi1 V c (t.val + 1) ∗ (dat1 V c).owesAt () t.castSucc ∗ bigSep Finset.univ fun w => (dat1 V c).leavesExact w t)
  rw [bigSep_W1, bigSep_W1]
  simp (disch := decide) only [before1 V c, lvIn V c]
  unfold Phi1
  iintro ⟨⟨⟨%m, %l, %hml, HS0, HS1⟩, HR, Hg⟩, Ho, ⟨%_, H0⟩, ⟨%_, H1⟩, ⟨%_, H2⟩, ⟨%_, H3⟩, ⟨%_, H4⟩, ⟨%_, H5⟩, ⟨%d6, H6⟩, ⟨%d7, H7⟩⟩
  iapply (run1 c Set.univ (grid1.coords t) (st1_0 t) _ (st1_1 t) _ (st1_2 t) _ (st1_3 t) _ (st1_4 t) _ (st1_5 t) _ (st1_6 t) _ (st1_7 t) _ scM _ scL _
    ((dat1 V c).after 0 t) ((dat1 V c).after 1 t) ((dat1 V c).after 2 t) ((dat1 V c).after 3 t) ((dat1 V c).after 4 t) ((dat1 V c).after 5 t)
    ((dat1 V c).before 6 t d6) ((dat1 V c).before 7 t d7) m l (mAt V c t.val) (lAt V c t.val)
    (if hz : t.val = 0 then .inl ⟨(hcond1_0 t).mpr (by omega), fun h => by have := hM h; omega,
        (congrArg (mAt V c) hz).trans (mAt_zero V c), (congrArg (lAt V c) hz).trans (lAt_zero V c)⟩
      else .inr ⟨fun h => hz (by have := (hcond1_0 t).mp h; omega), hml hz⟩) _)
  iframe H0 H1 H2 H3 H4 H5 H6 H7 HS0 HS1
  iintro ⟨H0, H1, H2, H3, H4, H5, H6, H7, HS0, HS1⟩
  iframe HR Hg Ho H0 H1 H2 H3 H4 H5
  isplitl [HS0 HS1]
  · iexists _, _; iframe HS0 HS1; ipureintro
    exact fun _ => ⟨(mAt_succ V c _ t.isLt).symm, (lAt_succ V c _ t.isLt).symm⟩
  isplitl [H6]
  · iapply (lv1 V c t 6 rfl _ _ fun h => ((mAt_succ V c _ t.isLt).symm.trans (congrArg (mAt V c) (hM h))).trans (after1_6 V c t).symm)
    iexact H6
  iapply (lv1 V c t 7 rfl _ _ fun h => ((lAt_succ V c _ t.isLt).symm.trans (congrArg (lAt V c) (hM h))).trans (after1_7 V c t).symm)
  iexact H7

theorem scratch_some (c : Dev nD) (b : Ref sig .tc) :
    (iprop(∃ f : Buf (Elt F) ((c : Thread nD τ).loc b), ((c : Thread nD τ).loc b) ↦{fullShare} f) : sProp 𝕄)
      = iprop(∃ d, owns (c : Thread nD τ) (Memref.whole b) fullShare d) := by
  simp only [owns_whole]

theorem hin1 (c : Dev nD) (Pf : sProp 𝕄) :
    iprop((∃ r, prngReg c r) ∗ Pf ∗ Pipeline.scopedRest (Ix := Unit) (Name := ℕ) (U := UR sig nD τ) (Lvl := ℕ) (Val := Elt F) spec1 c) ⊢ (dat1 V c).Φ 0 := by
  rw [show (dat1 V c).Φ 0 = Phi1 V c 0 from rfl, scopedRest1_split, scratch_some c cc1_scratch0, scratch_some c cc1_scratch1]
  unfold Phi1
  iintro ⟨Hg, -, ⟨⟨%m, HS0⟩, ⟨%l, HS1⟩⟩, HR⟩
  iframe HR Hg
  iexists m, l
  iframe HS0 HS1
  ipureintro; exact fun h => absurd rfl h

theorem hout1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = Phi1 V c (Fin.last cfg1.N).val from rfl, scopedRest1_split,
    scratch_some c cc1_scratch0, scratch_some c cc1_scratch1]
  unfold Phi1
  iintro ⟨⟨%m, %l, -, HS0, HS1⟩, HR, Hg⟩
  iframe HR Hg
  isplitl [HS0]; · iexists _; iexact HS0
  iexists _; iexact HS1

end Cert.Kernel.Hand

end
-- ==== Proof.FrameK.R2.lean ====
import proofs.«429701_j48541720379569_3_alg».proof.Proof.Gen.Kernel.Launch
import proofs.«429701_j48541720379569_3_alg».proof.Proof.Gen.Kernel.Skeleton
import proofs.«429701_j48541720379569_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev full2_S4000x64 : Rect S4000x64 := Rect.unit (s := S4000x64) ![0, 0] S4000x64.size inb_S4000x64_S4000x64_0_0
abbrev full2_S4000x128 : Rect S4000x128 := Rect.unit (s := S4000x128) ![0, 0] S4000x128.size inb_S4000x128_S4000x128_0_0
abbrev full2_S4000x8 : Rect S4000x8 := Rect.unit (s := S4000x8) ![0, 0] S4000x8.size inb_S4000x8_S4000x8_0_0
abbrev full2_S64x128 : Rect S64x128 := Rect.unit (s := S64x128) ![0, 0] S64x128.size inb_S64x128_S64x128_0_0
abbrev full2_S128x128 : Rect S128x128 := Rect.unit (s := S128x128) ![0, 0] S128x128.size inb_S128x128_S128x128_0_0
abbrev full2_S8x128 : Rect S8x128 := Rect.unit (s := S8x128) ![0, 0] S8x128.size inb_S8x128_S8x128_0_0
abbrev full2_S1x128 : Rect S1x128 := Rect.unit (s := S1x128) ![0, 0] S1x128.size inb_S1x128_S1x128_0_0
abbrev full2_S128x264 : Rect S128x264 := Rect.unit (s := S128x264) ![0, 0] S128x264.size inb_S128x264_S128x264_0_0
abbrev full2_S264x128 : Rect S264x128 := Rect.unit (s := S264x128) ![0, 0] S264x128.size inb_S264x128_S264x128_0_0
abbrev full2_S4000x1 : Rect S4000x1 := Rect.unit (s := S4000x1) ![0, 0] S4000x1.size inb_S4000x1_S4000x1_0_0
abbrev full2_S1x64x128 : Rect S1x64x128 := Rect.unit (s := S1x64x128) ![0, 0, 0] S1x64x128.size inb_S1x64x128_S1x64x128_0_0_0

def out2_14 (x0 : Vec F S4000x64 .f32) (x1 : Vec F S4000x128 .f32) (x2 : Vec F S4000x8 .f32) (x3 : Vec F S64x128 .f32) (x4 : Vec F S128x128 .f32) (x5 : Vec F S8x128 .f32) (x6 : Vec F S1x128 .f32) (x7 : Vec F S1x128 .f32) (x8 : Vec F S128x264 .f32) (x9 : Vec F S264x128 .f32) (x10 : Vec F S1x128 .f32) (x11 : Vec F S128x128 .f32) (x12 : Vec F S1x128 .f32) (x13 : Vec F S4000x1 .i32) : Vec F S4000x128 .f32 :=
  View.canon [⟨full2_S4000x128, k2_pay1 (k2_pay3 (View.ld x0 full2_S4000x64) (View.ld x3 full2_S64x128) (View.ld x1 full2_S4000x128) (View.ld x4 full2_S128x128) (View.ld x2 full2_S4000x8) (View.ld x5 full2_S8x128) (View.ld x6 full2_S1x128) (View.ld x7 full2_S1x128)) (View.ld x8 full2_S128x264) (View.ld x9 full2_S264x128) (View.ld x10 full2_S1x128) (View.ld x11 full2_S128x128) (View.ld x12 full2_S1x128)⟩]

def out2_15 (x0 : Vec F S4000x64 .f32) (x1 : Vec F S4000x128 .f32) (x2 : Vec F S4000x8 .f32) (x3 : Vec F S64x128 .f32) (x4 : Vec F S128x128 .f32) (x5 : Vec F S8x128 .f32) (x6 : Vec F S1x128 .f32) (x7 : Vec F S1x128 .f32) (x8 : Vec F S128x264 .f32) (x9 : Vec F S264x128 .f32) (x10 : Vec F S1x128 .f32) (x11 : Vec F S128x128 .f32) (x12 : Vec F S1x128 .f32) (x13 : Vec F S4000x1 .i32) : Vec F S1x64x128 .f32 :=
  View.canon [⟨full2_S1x64x128, k2_pay2 (k2_pay3 (View.ld x0 full2_S4000x64) (View.ld x3 full2_S64x128) (View.ld x1 full2_S4000x128) (View.ld x4 full2_S128x128) (View.ld x2 full2_S4000x8) (View.ld x5 full2_S8x128) (View.ld x6 full2_S1x128) (View.ld x7 full2_S1x128)) (View.ld x8 full2_S128x264) (View.ld x9 full2_S264x128) (View.ld x10 full2_S1x128) (View.ld x11 full2_S128x128) (View.ld x12 full2_S1x128) (View.ld x13 full2_S4000x1)⟩]

set_option maxHeartbeats 1000000 in
theorem sound_kernel2 (c : Dev nD) (E : Set ℕ) (i : grid2.Coords) (arg0 : Memref sig .tc .vmem S4000x64 .f32) (harg0 : arg0.IsWhole) (arg1 : Memref sig .tc .vmem S4000x128 .f32) (harg1 : arg1.IsWhole) (arg2 : Memref sig .tc .vmem S4000x8 .f32) (harg2 : arg2.IsWhole) (arg3 : Memref sig .tc .vmem S64x128 .f32) (harg3 : arg3.IsWhole) (arg4 : Memref sig .tc .vmem S128x128 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x264 .f32) (harg8 : arg8.IsWhole) (arg9 : Memref sig .tc .vmem S264x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S4000x1 .i32) (harg13 : arg13.IsWhole) (arg14 : Memref sig .tc .vmem S4000x128 .f32) (harg14 : arg14.IsWhole) (arg15 : Memref sig .tc .vmem S1x64x128 .f32) (harg15 : arg15.IsWhole)
    (x0 : Vec F S4000x64 .f32) (x1 : Vec F S4000x128 .f32) (x2 : Vec F S4000x8 .f32) (x3 : Vec F S64x128 .f32) (x4 : Vec F S128x128 .f32) (x5 : Vec F S8x128 .f32) (x6 : Vec F S1x128 .f32) (x7 : Vec F S1x128 .f32) (x8 : Vec F S128x264 .f32) (x9 : Vec F S264x128 .f32) (x10 : Vec F S1x128 .f32) (x11 : Vec F S128x128 .f32) (x12 : Vec F S1x128 .f32) (x13 : Vec F S4000x1 .i32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (out2_14 x0 x1 x2 x3 x4 x5 x6 x7 x8 x9 x10 x11 x12 x13) ∗ owns (c : Thread nD τ) arg15 fullShare (out2_15 x0 x1 x2 x3 x4 x5 x6 x7 x8 x9 x10 x11 x12 x13)) -∗ K ⟨⟩))
      ⊢ wp frame (wpE (defs₀ (F := F)) Variants.none c none) E (cc2__node_mlp_kernel i arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__node_mlp_kernel_eq_skeleton]; unfold cc2__node_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    try dsimp only
    exact View.read_writes_eq_canon _ _ _ (View.cover_of_wholeMem _ (View.Piece.wholeMem_here (by rfl)))
  iexists _; isplitr
  swap; · iexact H15
  ipureintro
  try dsimp only
  exact View.read_writes_eq_canon _ _ _ (View.cover_of_wholeMem _ (View.Piece.wholeMem_here (by rfl)))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
    | ⟨15, _⟩ => out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
    | ⟨_ + 16, h⟩ => absurd h (Nat.not_lt.2 (Nat.le_add_left _ _))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_14 (c : Dev nD) (t : Fin cfg2.N) : (dat2 V c).after 14 t = out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) := by dsimp only [dat2]
theorem after2_15 (c : Dev nD) (t : Fin cfg2.N) : (dat2 V c).after 15 t = out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) := by dsimp only [dat2]

private theorem before2 (c : Dev nD) {w : Fin cfg2.W} (hw : (cfg2.win w).isOut = false) (t : Fin cfg2.N) (d) :
    (dat2 V c).before w t d = (dat2 V c).after w t := by
  fin_cases w <;> first
    | exact absurd hw (by decide)
    | exact Eq.trans (Dat.before_in_eq_fetched (dat2 V c) _ rfl (fun _ => rfl) (fun _ _ _ => rfl)
        (fun t => by dsimp only [dat2]; unfold Dat.blockOf iblk2; try rfl) t d)
        (by dsimp only [dat2]; unfold Dat.fetched Dat.blockOf iblk2; try rfl)

theorem body_obligation2 (c : Dev nD) : BodyObligation (dat2 (F := F) V c) (defs₀ (F := F)) Variants.none () Set.univ := fun t => by
  rw [bigSep_W2, bigSep_W2]
  simp (disch := decide) only [show ∀ w i, cfg2.idle w i = false from fun _ _ => rfl, before2 V c]
  rw [show (dat2 V c).owesAt () t.succ = (dat2 V c).owesAt () t.castSucc from rfl]
  dsimp only [dat2]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, ⟨%_, H12⟩, ⟨%_, H13⟩, ⟨%_, H14⟩, ⟨%_, H15⟩⟩
  iapply (sound_kernel2 c Set.univ _ (st2_0 t) _ (st2_1 t) _ (st2_2 t) _ (st2_3 t) _ (st2_4 t) _ (st2_5 t) _ (st2_6 t) _ (st2_7 t) _ (st2_8 t) _ (st2_9 t) _ (st2_10 t) _ (st2_11 t) _ (st2_12 t) _ (st2_13 t) _ (st2_14 t) _ (st2_15 t) _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) _)
  iframe H0 H1 H2 H3 H4 H5 H6 H7 H8 H9 H10 H11 H12 H13
  isplitl [H14]; · iexists _; iexact H14
  isplitl [H15]; · iexists _; iexact H15
  iintro ⟨H0, H1, H2, H3, H4, H5, H6, H7, H8, H9, H10, H11, H12, H13, H14, H15⟩
  iframe

end Cert.Kernel.Hand

end
-- ==== Proof.FrameK.R3.lean ====
import proofs.«429701_j48541720379569_3_alg».proof.Proof.Gen.Kernel.Launch
import proofs.«429701_j48541720379569_3_alg».proof.Proof.Gen.Kernel.Skeleton
import proofs.«429701_j48541720379569_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_64x8 : Rect S64x8 := Rect.unit (s := S64x8) ![0, 0] S64x8.size inb_S64x8_S64x8_0_0
abbrev r3_64x128 : Rect S64x128 := Rect.unit (s := S64x128) ![0, 0] S64x128.size inb_S64x128_S64x128_0_0
abbrev r3_8x128 : Rect S8x128 := Rect.unit (s := S8x128) ![0, 0] S8x128.size inb_S8x128_S8x128_0_0
abbrev r3_128x128 : Rect S128x128 := Rect.unit (s := S128x128) ![0, 0] S128x128.size inb_S128x128_S128x128_0_0
abbrev r3_1x128 : Rect S1x128 := Rect.unit (s := S1x128) ![0, 0] S1x128.size inb_S1x128_S1x128_0_0

def out3_9 (x0 : Vec F S64x8 .f32) (x1 : Vec F S64x128 .f32) (x2 : Vec F S64x128 .f32) (x3 : Vec F S8x128 .f32) (x4 : Vec F S128x128 .f32) (x5 : Vec F S128x128 .f32) (x6 : Vec F S1x128 .f32) (x7 : Vec F S128x128 .f32) (x8 : Vec F S1x128 .f32) : Vec F S64x128 .f32 :=
  View.canon [⟨r3_64x128, k3_pay1 (View.ld x0 r3_64x8) (View.ld x3 r3_8x128) (View.ld x1 r3_64x128) (View.ld x4 r3_128x128)
    (View.ld x2 r3_64x128) (View.ld x5 r3_128x128) (View.ld x6 r3_1x128) (View.ld x7 r3_128x128) (View.ld x8 r3_1x128)⟩]

theorem sound_kernel3 (c : Dev nD) (E : Set ℕ) (i : grid3.Coords) (arg1 : Memref sig .tc .vmem S64x8 .f32) (harg1 : arg1.IsWhole) (arg2 : Memref sig .tc .vmem S64x128 .f32) (harg2 : arg2.IsWhole) (arg3 : Memref sig .tc .vmem S64x128 .f32) (harg3 : arg3.IsWhole) (arg4 : Memref sig .tc .vmem S8x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S64x128 .f32) (harg10 : arg10.IsWhole)
    (x0 : Vec F S64x8 .f32) (x1 : Vec F S64x128 .f32) (x2 : Vec F S64x128 .f32) (x3 : Vec F S8x128 .f32) (x4 : Vec F S128x128 .f32) (x5 : Vec F S128x128 .f32) (x6 : Vec F S1x128 .f32) (x7 : Vec F S128x128 .f32) (x8 : Vec F S1x128 .f32) (y : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y
        ∗ (owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare x4 -∗ owns (c : Thread nD τ) arg6 fullShare x5 -∗ owns (c : Thread nD τ) arg7 fullShare x6 -∗ owns (c : Thread nD τ) arg8 fullShare x7 -∗ owns (c : Thread nD τ) arg9 fullShare x8 -∗ owns (c : Thread nD τ) arg10 fullShare (out3_9 x0 x1 x2 x3 x4 x5 x6 x7 x8) -∗ K ⟨⟩))
      ⊢ wp frame (wpE (defs₀ (F := F)) Variants.none c none) E (cc3__global_mlp_kernel i arg1 harg1 arg2 harg2 arg3 harg3 arg4 harg4 arg5 harg5 arg6 harg6 arg7 harg7 arg8 harg8 arg9 harg9 arg10 harg10) K := by
  simp only [cc3__global_mlp_kernel_eq_skeleton]; unfold cc3__global_mlp_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, -, H9⟩, Hk⟩
  subst hf0 hf1 hf2 hf3 hf4 hf5 hf6 hf7 hf8
  sl_exec
  sl_step
  iapply Hk $$ [H0] [H1] [H2] [H3] [H4] [H5] [H6] [H7] [H8] [H9]
  all_goals
    iexists _; isplitr; swap; · iassumption
    ipureintro
    first | exact View.read_writes_eq_canon _ _ _ (View.cover_of_wholeMem _ (by sl_whole_mem)) | rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3 (c : Dev nD) {w : Fin cfg3.W} (hw : w ≠ 9) (t : Fin cfg3.N) (d) : (dat3 V c).before w t d = (dat3 V c).after w t := by
  fin_cases w <;> first
    | exact absurd rfl hw
    | exact (dat3 V c).before_in_eq_fetched _ rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  simp (disch := decide) only [before3 V c]
  dsimp only [dat3]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩⟩
  iapply sound_kernel3
  iframe
  iintro H0 H1 H2 H3 H4 H5 H6 H7 H8 H9
  iframe
  iexact Ho

end Cert.Kernel.Hand

end
-- ==== Proof.FrameK.Run.lean ====
import proofs.«429701_j48541720379569_3_alg».proof.Proof.FrameK.R0
import proofs.«429701_j48541720379569_3_alg».proof.Proof.FrameK.R1
import proofs.«429701_j48541720379569_3_alg».proof.Proof.FrameK.R2
import proofs.«429701_j48541720379569_3_alg».proof.Proof.FrameK.R3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part1_ops0 (W1 m ρ c)
abbrev V2 : (c : Dev nD) → (b : Ref sig .tc) → Buf (Elt F) ((c : Thread nD τ).loc b) := fun c b => W2 m ρ c b

def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b

abbrev W4 : Dev nD → Valuation τ sig (Elt F) := fun c => StableHlo.after main_part1_ops1 (W3 m ρ c)
abbrev V4 : (c : Dev nD) → (b : Ref sig .tc) → Buf (Elt F) ((c : Thread nD τ).loc b) := fun c b => W4 m ρ c b

def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb

abbrev W6 : Dev nD → Valuation τ sig (Elt F) := fun c => StableHlo.after main_part1_ops2 (W5 m ρ c)
abbrev V6 : (c : Dev nD) → (b : Ref sig .tc) → Buf (Elt F) ((c : Thread nD τ).loc b) := fun c b => W6 m ρ c b

def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b

abbrev W8 : Dev nD → Valuation τ sig (Elt F) := fun c => StableHlo.after main_part1_ops3 (W7 m ρ c)
abbrev V8 : (c : Dev nD) → (b : Ref sig .tc) → Buf (Elt F) ((c : Thread nD τ).loc b) := fun c b => W8 m ρ c b

def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V6 m ρ) c
  | ⟨3, _⟩ => fun c => dat3 (V8 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev hostOps : Fin 5 → List (HloOp τ sig (Elt F))
  | ⟨0, _⟩ => main_part0_ops0 | ⟨1, _⟩ => main_part1_ops0 | ⟨2, _⟩ => main_part1_ops1 | ⟨3, _⟩ => main_part1_ops2
  | ⟨4, _⟩ => main_part1_ops3

theorem hostOps_fresh : ∀ i, (hostOps (F := F) i).Forall fun op => op.fresh = ∅
  | ⟨0, _⟩ | ⟨1, _⟩ | ⟨2, _⟩ | ⟨3, _⟩ | ⟨4, _⟩ => by simp only [hostOps, List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

theorem hinA {gr Wn : ℕ} (win : Fin Wn → Pipeline.WinSpec sig gr) (c : Dev nD) (X : sProp 𝕄) :
    iprop((∃ r, prngReg c r) ∗ X ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp

theorem houtA {gr Wn : ℕ} (win : Fin Wn → Pipeline.WinSpec sig gr) (c : Dev nD) :
    (Pipeline.ΦA win c : sProp 𝕄)
      ⊢ iprop((∃ r, prngReg c r) ∗ Pipeline.scopedRest (Ix := Unit) (Name := ℕ) (U := UR sig nD τ) (Lvl := ℕ) (Val := Elt F) win c) := by
  unfold Pipeline.ΦA; exact sep_comm

set_option backward.isDefEq.respectTransparency.types false in
def reg (p : Fin 4) (ln : Pipeline.LaunchFacts (nD := nD) (τ := τ) cfgs p) (W W' : Dev nD → Valuation τ sig (Elt F))
    (hbody : ∀ c, Pipeline.BodyObligationLoose (pdats m ρ p c) defs₀ 𝒱₀ () Set.univ)
    (howed : ∀ c t, (pdats m ρ p c).owed t = 0) (hrec : ∀ c t, (pdats m ρ p c).recorded t = Set.univ)
    (hq : ∀ c w, (pdats m ρ p c).q w = fullShare)
    (hA : ∀ c w, (pdats m ρ p c).A w = W c (Proc.devRef .tc (Pipeline.arrRef (cfgs p).spec w)))
    (hin : ∀ c, iprop((∃ r, prngReg c r) ∗ Pipeline.prefHeld (pcfgs (F := F) p).pre c (fun _ => fullShare) (adm p).1
      ∗ Pipeline.scopedRest (Pipeline.pin (pcfgs (F := F)) adm p).spec c) ⊢ (pdats m ρ p c).Φ 0)
    (hout : ∀ c, (pdats m ρ p c).Φ (Fin.last (Pipeline.pin (pcfgs (F := F)) adm p).N)
      ⊢ iprop((∃ r, prngReg c r) ∗ Pipeline.scopedRest (Pipeline.pin (pcfgs (F := F)) adm p).spec c))
    (harr : ∀ c w, W' c (Proc.devRef .tc (Pipeline.arrRef (cfgs p).spec w)) = (pdats m ρ p c).arrAt w (cfgs p).N)
    (hne : ∀ c (b : Ref sig .tc), (∀ w, Pipeline.arrRef (cfgs p).spec w ≠ b) → W' c (Proc.devRef .tc b) = W c (Proc.devRef .tc b)) :
    Pipeline.RegionSeg (pcfgs (F := F)) adm (pdats m ρ) () defs₀ 𝒱₀ L lv p where
  win := ln.win.to₀
  block_pos := ln.block_pos
  stage_whole := ln.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m ρ) ln.win ln.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c, Pipeline.Dat.bound, hrec c]
      icases HO with ⟨%W, HO⟩; iexists W; isplitr; · ipureintro; exact fun _ _ => Or.inl trivial
      iexact HO
    isplitl [Hp]; · iexact Hp
    iexact Hrest
  hin := hin
  hout c := by
    rw [Pipeline.ownSems0_none]
    iintro H
    ihave H2 := (hout c) $$ H
    icases H2 with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      ln.win ln.arr_whole c (pdats m ρ) ((pdats m ρ p c).share_full (hq c))
      (fun b => W c b) (fun b => W' c b) ((pdats m ρ p c).arrAt · (cfgs p).N) (fun w => (harr c w).symm)
      fun b hb => hne c b fun w e => hb (Finset.mem_image.mpr ⟨w, Finset.mem_univ _, e⟩)
    rw [Pipeline.unscopedBufs_held] at hjoin
    unfold Pipeline.Dat.owesAt Pipeline.owesWithin
    rw [howed c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev segs : List (Pipeline.Seg (pcfgs (F := F)) adm (pdats m ρ) () defs₀ 𝒱₀ L lv) :=
  [ .host (hseg main_part0_ops0 main_part0_ops0_sub (hostOps_fresh 0) (W0 m ρ)),
    .host (hseg main_part1_ops0 main_part1_ops0_sub (hostOps_fresh 1) (W1 m ρ)),
    .region (reg m ρ 0 launch0 (W2 m ρ) (W3 m ρ) (fun c => (body_obligation0 (V2 m ρ) c).loose) (fun _ _ => rfl) (fun _ _ => rfl)
      (fun _ _ => rfl) (fun _ _ => rfl) (fun c => hinA _ c _) (houtA _) (W3_arr m ρ) (W3_of_ne m ρ)),
    .host (hseg main_part1_ops1 main_part1_ops1_sub (hostOps_fresh 2) (W3 m ρ)),
    .region (reg m ρ 1 launch1 (W4 m ρ) (W5 m ρ) (fun c => (body_obligation1 (V4 m ρ) c).loose) (fun _ _ => rfl) (fun _ _ => rfl)
      (fun _ _ => rfl) (fun _ _ => rfl) (fun c => hin1 (V4 m ρ) c _) (hout1 (V4 m ρ)) (W5_arr m ρ) (W5_of_ne m ρ)),
    .host (hseg main_part1_ops2 main_part1_ops2_sub (hostOps_fresh 3) (W5 m ρ)),
    .region (reg m ρ 2 launch2 (W6 m ρ) (W7 m ρ) (fun c => (body_obligation2 (V6 m ρ) c).loose) (fun _ _ => rfl) (fun _ _ => rfl)
      (fun _ _ => rfl) (fun _ _ => rfl) (fun c => hinA _ c _) (houtA _) (W7_arr m ρ) (W7_of_ne m ρ)),
    .host (hseg main_part1_ops3 main_part1_ops3_sub (hostOps_fresh 4) (W7 m ρ)),
    .region (reg m ρ 3 launch3 (W8 m ρ) (W9 m ρ) (fun c => (body_obligation3 (V8 m ρ) c).loose) (fun _ _ => rfl) (fun _ _ => rfl)
      (fun _ _ => rfl) (fun _ _ => rfl) (fun c => hinA _ c _) (houtA _) (W9_arr m ρ) (W9_of_ne m ρ)) ]
theorem main_run (c : Dev nD) : main (F := F) c = Pipeline.Seg.run (segs m ρ) := (main_chain_windows c).trans (by chain_rfl)

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.Kernel.Hand

end
-- ==== Proof.FrameK.Args.lean ====
import proofs.«429701_j48541720379569_3_alg».proof.Proof.FrameK.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18]

theorem arg_ne {b y : Ref sig .tc} (hb : b ∈ argRefs) (hy : y ∉ argRefs) : b ≠ y := fun e => hy (e ▸ hb)

-- Every host operation writes only its own result value, and no result value is an argument.
theorem host_keeps (V : Valuation τ sig (Elt F)) {b : Ref sig .tc} (hb : b ∈ argRefs) :
    ∀ i, StableHlo.after (hostOps i) V (Proc.devRef .tc b) = V (Proc.devRef .tc b)
  | ⟨0, _⟩ | ⟨1, _⟩ | ⟨2, _⟩ | ⟨3, _⟩ | ⟨4, _⟩ =>
    StableHlo.after_of_forall_not_mem (b := Proc.devRef .tc b) _ _ (List.forall_iff_forall_mem.mp (by
      simp only [hostOps, main_part0_ops0, main_part1_ops0, main_part1_ops1, main_part1_ops2, main_part1_ops3, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (arg_ne hb (by decide))))

theorem args_in0 : ∀ w : Fin cfg0.W, Pipeline.arrRef spec0 w ∈ argRefs → (cfg0.win w).isOut = false := by decide
theorem args_in1 : ∀ w : Fin cfg1.W, Pipeline.arrRef spec1 w ∈ argRefs → (cfg1.win w).isOut = false := by decide
theorem args_in2 : ∀ w : Fin cfg2.W, Pipeline.arrRef spec2 w ∈ argRefs → (cfg2.win w).isOut = false := by decide
theorem args_in3 : ∀ w : Fin cfg3.W, Pipeline.arrRef spec3 w ∈ argRefs → (cfg3.win w).isOut = false := by decide

theorem W3_keeps (c : Dev nD) {b : Ref sig .tc} (hb : b ∈ argRefs) :
    W3 m ρ c (Proc.devRef .tc b) = W2 m ρ c (Proc.devRef .tc b) := by
  by_cases h : ∀ w, Pipeline.arrRef spec0 w ≠ b
  · exact W3_of_ne m ρ c b h
  · obtain ⟨w, rfl⟩ := not_forall_not.mp h
    exact (W3_arr m ρ c w).trans (((dat0 (V2 m ρ) c).arrAt_in w (args_in0 w hb) _).trans (A_eq0 (V2 m ρ) c w))

theorem W5_keeps (c : Dev nD) {b : Ref sig .tc} (hb : b ∈ argRefs) :
    W5 m ρ c (Proc.devRef .tc b) = W4 m ρ c (Proc.devRef .tc b) := by
  by_cases h : ∀ w, Pipeline.arrRef spec1 w ≠ b
  · exact W5_of_ne m ρ c b h
  · obtain ⟨w, rfl⟩ := not_forall_not.mp h
    exact (W5_arr m ρ c w).trans (((dat1 (V4 m ρ) c).arrAt_in w (args_in1 w hb) _).trans (A_eq1 (V4 m ρ) c w))

theorem W7_keeps (c : Dev nD) {b : Ref sig .tc} (hb : b ∈ argRefs) :
    W7 m ρ c (Proc.devRef .tc b) = W6 m ρ c (Proc.devRef .tc b) := by
  by_cases h : ∀ w, Pipeline.arrRef spec2 w ≠ b
  · exact W7_of_ne m ρ c b h
  · obtain ⟨w, rfl⟩ := not_forall_not.mp h
    exact (W7_arr m ρ c w).trans (((dat2 (V6 m ρ) c).arrAt_in w (args_in2 w hb) _).trans (A_eq2 (V6 m ρ) c w))

theorem W9_keeps (c : Dev nD) {b : Ref sig .tc} (hb : b ∈ argRefs) :
    W9 m ρ c (Proc.devRef .tc b) = W8 m ρ c (Proc.devRef .tc b) := by
  by_cases h : ∀ w, Pipeline.arrRef spec3 w ≠ b
  · exact W9_of_ne m ρ c b h
  · obtain ⟨w, rfl⟩ := not_forall_not.mp h
    exact (W9_arr m ρ c w).trans (((dat3 (V8 m ρ) c).arrAt_in w (args_in3 w hb) _).trans (A_eq3 (V8 m ρ) c w))

-- An argument's buffer is kept by each of the four launches and five host stretches, back to the launch memory.
theorem W9_arg (c : Dev nD) {b : Ref sig .tc} (hb : b ∈ argRefs) :
    W9 m ρ c (Proc.devRef .tc b) = m ((c : Thread nD τ).loc b) :=
  (W9_keeps m ρ c hb).trans <| (host_keeps (W7 m ρ c) hb 4).trans <| (W7_keeps m ρ c hb).trans <|
    (host_keeps (W5 m ρ c) hb 3).trans <| (W5_keeps m ρ c hb).trans <| (host_keeps (W3 m ρ c) hb 2).trans <|
    (W3_keeps m ρ c hb).trans <| (host_keeps (W1 m ρ c) hb 1).trans (host_keeps (W0 m ρ c) hb 0)

theorem args_unscoped : ∀ b ∈ argRefs, ¬ (Proc.devRef .tc b : DevRef τ sig).isScoped := by decide

theorem run_results : θ_run defs (onTc (τ := τ) (main (F := F))) ⟨m, fun _ => 0, ρ⟩ (fun r => ∀ c : Dev nD,
      r.2.mem ((c.tc : Thread nD τ).loc main_v70_0) = W9 m ρ c (Proc.devRef .tc main_v70_0)
      ∧ r.2.mem ((c.tc : Thread nD τ).loc main_v54_0) = W9 m ρ c (Proc.devRef .tc main_v54_0)
      ∧ r.2.mem ((c.tc : Thread nD τ).loc main_v96) = W9 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨h c _ (mem_uc main_v70_0 (by decide)), h c _ (mem_uc main_v54_0 (by decide)), h c _ (mem_uc main_v96 (by decide)),
      (List.forall_iff_forall_mem (l := argRefs)
        (p := fun b => r.2.mem ((c.tc : Thread nD τ).loc b) = m ((c.tc : Thread nD τ).loc b))).mpr fun b hb =>
        (h c _ (mem_uc b (args_unscoped b hb))).trans (W9_arg m ρ c hb)⟩) (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => (h c).2.2.2) (run_results m ρ)

end Cert.Kernel.Hand

end
-- ==== Proof.FrameKI.R0.lean ====
import proofs.«429701_j48541720379569_3_alg».proof.Proof.Gen.KernelIdeal.Launch
import proofs.«429701_j48541720379569_3_alg».proof.Proof.Gen.KernelIdeal.Skeleton
import proofs.«429701_j48541720379569_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rc4000x64 : Rect S4000x64 := Rect.unit (s := S4000x64) ![0, 0] S4000x64.size inb_S4000x64_S4000x64_0_0
abbrev rc4000x16 : Rect S4000x16 := Rect.unit (s := S4000x16) ![0, 0] S4000x16.size inb_S4000x16_S4000x16_0_0
abbrev rc4000x8 : Rect S4000x8 := Rect.unit (s := S4000x8) ![0, 0] S4000x8.size inb_S4000x8_S4000x8_0_0
abbrev rc4000x1 : Rect S4000x1 := Rect.unit (s := S4000x1) ![0, 0] S4000x1.size inb_S4000x1_S4000x1_0_0
abbrev rc64x128 : Rect S64x128 := Rect.unit (s := S64x128) ![0, 0] S64x128.size inb_S64x128_S64x128_0_0
abbrev rc16x128 : Rect S16x128 := Rect.unit (s := S16x128) ![0, 0] S16x128.size inb_S16x128_S16x128_0_0
abbrev rc8x128 : Rect S8x128 := Rect.unit (s := S8x128) ![0, 0] S8x128.size inb_S8x128_S8x128_0_0
abbrev rc1x128 : Rect S1x128 := Rect.unit (s := S1x128) ![0, 0] S1x128.size inb_S1x128_S1x128_0_0
abbrev rc128x128 : Rect S128x128 := Rect.unit (s := S128x128) ![0, 0] S128x128.size inb_S128x128_S128x128_0_0
abbrev rc4000x128 : Rect S4000x128 := Rect.unit (s := S4000x128) ![0, 0] S4000x128.size inb_S4000x128_S4000x128_0_0
abbrev rc1x64x128 : Rect S1x64x128 := Rect.unit (s := S1x64x128) ![0, 0, 0] S1x64x128.size inb_S1x64x128_S1x64x128_0_0_0

def out0_12 (x0 : Vec F S4000x64 .bf16) (x1 : Vec F S4000x64 .bf16) (x2 : Vec F S4000x16 .f32) (x3 : Vec F S4000x8 .f32)
    (x4 : Vec F S4000x1 .i32) (x5 : Vec F S64x128 .f32) (x6 : Vec F S64x128 .f32) (x7 : Vec F S16x128 .f32)
    (x8 : Vec F S8x128 .f32) (x9 : Vec F S1x128 .f32) (x10 : Vec F S128x128 .f32) (x11 : Vec F S1x128 .f32) :
    Vec F S4000x128 .f32 :=
  View.canon [⟨rc4000x128, k0_pay1
    (k0_pay3 (View.ld x0 rc4000x64) (View.ld x1 rc4000x64) (View.ld x2 rc4000x16) (View.ld x3 rc4000x8)
      (View.ld x5 rc64x128) (View.ld x6 rc64x128) (View.ld x7 rc16x128) (View.ld x8 rc8x128) (View.ld x9 rc1x128))
    (View.ld x10 rc128x128) (View.ld x11 rc1x128)⟩]

def out0_13 (x0 : Vec F S4000x64 .bf16) (x1 : Vec F S4000x64 .bf16) (x2 : Vec F S4000x16 .f32) (x3 : Vec F S4000x8 .f32)
    (x4 : Vec F S4000x1 .i32) (x5 : Vec F S64x128 .f32) (x6 : Vec F S64x128 .f32) (x7 : Vec F S16x128 .f32)
    (x8 : Vec F S8x128 .f32) (x9 : Vec F S1x128 .f32) (x10 : Vec F S128x128 .f32) (x11 : Vec F S1x128 .f32) :
    Vec F S1x64x128 .f32 :=
  View.canon [⟨rc1x64x128, k0_pay2
    (k0_pay3 (View.ld x0 rc4000x64) (View.ld x1 rc4000x64) (View.ld x2 rc4000x16) (View.ld x3 rc4000x8)
      (View.ld x5 rc64x128) (View.ld x6 rc64x128) (View.ld x7 rc16x128) (View.ld x8 rc8x128) (View.ld x9 rc1x128))
    (View.ld x10 rc128x128) (View.ld x11 rc1x128) (View.ld x4 rc4000x1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) (iblk0 V c 11 t)
    | ⟨13, _⟩ => out0_13 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) (iblk0 V c 11 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_12 (c : Dev nD) (t : Fin cfg0.N) : (dat0 V c).after 12 t
    = out0_12 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) (iblk0 V c 11 t) := by dsimp only [dat0]
theorem after0_13 (c : Dev nD) (t : Fin cfg0.N) : (dat0 V c).after 13 t
    = out0_13 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) (iblk0 V c 11 t) := by dsimp only [dat0]

theorem before0 (c : Dev nD) {w : Fin cfg0.W} (hw : (cfg0.win w).isOut = false) (t : Fin cfg0.N) (d) :
    (dat0 V c).before w t d = (dat0 V c).after w t := by
  fin_cases w <;> first
    | exact absurd hw (by decide)
    | exact (dat0 V c).before_in_eq_fetched _ hw (fun _ => rfl) (fun _ _ _ => rfl) (fun _ => rfl) t d
set_option maxHeartbeats 1000000 in
theorem sound_kernel0 (c : Dev nD) (E : Set ℕ) (i : grid0.Coords) (arg1 : Memref sig .tc .vmem S4000x64 .bf16) (harg1 : arg1.IsWhole) (arg2 : Memref sig .tc .vmem S4000x64 .bf16) (harg2 : arg2.IsWhole) (arg3 : Memref sig .tc .vmem S4000x16 .f32) (harg3 : arg3.IsWhole) (arg4 : Memref sig .tc .vmem S4000x8 .f32) (harg4 : arg4.IsWhole) (arg5 : Memref sig .tc .vmem S4000x1 .i32) (harg5 : arg5.IsWhole) (arg6 : Memref sig .tc .vmem S64x128 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S4000x128 .f32) (harg13 : arg13.IsWhole) (arg14 : Memref sig .tc .vmem S1x64x128 .f32) (harg14 : arg14.IsWhole)
    (x0 : Vec F S4000x64 .bf16) (x1 : Vec F S4000x64 .bf16) (x2 : Vec F S4000x16 .f32) (x3 : Vec F S4000x8 .f32) (x4 : Vec F S4000x1 .i32) (x5 : Vec F S64x128 .f32) (x6 : Vec F S64x128 .f32) (x7 : Vec F S16x128 .f32) (x8 : Vec F S8x128 .f32) (x9 : Vec F S1x128 .f32) (x10 : Vec F S128x128 .f32) (x11 : Vec F S1x128 .f32) (K : PUnit → sProp 𝕄) :
    let I : sProp 𝕄 := iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11)
    iprop(I ∗ (∃ d, owns (c : Thread nD τ) arg13 fullShare d) ∗ (∃ d, owns (c : Thread nD τ) arg14 fullShare d)
        ∗ (iprop(I ∗ owns (c : Thread nD τ) arg13 fullShare (out0_12 x0 x1 x2 x3 x4 x5 x6 x7 x8 x9 x10 x11)
          ∗ owns (c : Thread nD τ) arg14 fullShare (out0_13 x0 x1 x2 x3 x4 x5 x6 x7 x8 x9 x10 x11)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__edge_mlp_kernel_eq_skeleton]; unfold cc0__edge_mlp_kernel_skel
  simp only [k0_part1_eq_skeleton]; unfold k0_part1_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0 H1 H2 H3 H4 H5 H6 H7 H8 H9 H10 H11]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    iexists f11; isplitr; · ipureintro; rfl
    iexact H11
  isplitl [H12]
  · iexists _; isplitr
    swap; · iexact H12
    ipureintro
    try dsimp only
    exact View.read_writes_eq_canon _ _ _ (View.cover_of_wholeMem _ (View.Piece.wholeMem_here rfl))
  iexists _; isplitr
  swap; · iexact H13
  ipureintro
  try dsimp only
  exact View.read_writes_eq_canon _ _ _ (View.cover_of_wholeMem _ (View.Piece.wholeMem_here rfl))

theorem sound_body0 (c : Dev nD) (t : Fin cfg0.N) :
    iprop((dat0 V c).Φ t.castSucc ∗ (dat0 V c).owesAt () t.castSucc
        ∗ bigSep Finset.univ fun w => iprop(∃ d, owns (c : Thread nD τ) ((cfg0.win w).stage (cfg0.slots t w)) fullShare ((dat0 V c).before w t d)))
      ⊢ wp frame (wpE (defs₀ (F := F)) Variants.none c none) Set.univ (bodyAt0 t) fun _ =>
        iprop((dat0 V c).Φ t.succ ∗ (dat0 V c).owesAt () t.succ
          ∗ bigSep Finset.univ fun w => owns (c : Thread nD τ) ((cfg0.win w).stage (cfg0.slots t w)) fullShare ((dat0 V c).after w t)) := by
  rw [bigSep_W0, bigSep_W0]
  simp (disch := decide) only [before0 V c]
  dsimp only [dat0]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, H12, H13⟩
  iapply (sound_kernel0 c Set.univ _ _ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  iframe H0 H1 H2 H3 H4 H5 H6 H7 H8 H9 H10 H11
  isplitl [H12]; · icases H12 with ⟨%_, H12⟩; iexists _; iexact H12
  isplitl [H13]; · icases H13 with ⟨%_, H13⟩; iexists _; iexact H13
  iintro ⟨⟨H0, H1, H2, H3, H4, H5, H6, H7, H8, H9, H10, H11⟩, H12, H13⟩
  iframe H0 H1 H2 H3 H4 H5 H6 H7 H8 H9 H10 H11 H12 H13
  isplitl [HΦ]; · iexact HΦ
  iexact Ho

theorem body_obligation0 (c : Dev nD) : BodyObligation (dat0 (F := F) V c) (defs₀ (F := F)) Variants.none () Set.univ :=
  fun t => sound_body0 V c t

end Cert.KernelIdeal.Hand

end
-- ==== Proof.FrameKI.R1.lean ====
import proofs.«429701_j48541720379569_3_alg».proof.Proof.Gen.KernelIdeal.Launch
import proofs.«429701_j48541720379569_3_alg».proof.Proof.Gen.KernelIdeal.Skeleton
import proofs.«429701_j48541720379569_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def stepM (c : Dev nD) (t : Fin cfg1.N) (m0 : Vec F S1x128 .f32) : Vec F S1x128 .f32 :=
  k1_pay2 (k1_pay6 (iblk1 V c 0 t) (iblk1 V c 3 t) (iblk1 V c 1 t) (iblk1 V c 4 t) (iblk1 V c 2 t) (iblk1 V c 5 t) m0)

def stepL (c : Dev nD) (t : Fin cfg1.N) (m0 l0 : Vec F S1x128 .f32) : Vec F S1x128 .f32 :=
  k1_pay1 (k1_pay7 (iblk1 V c 0 t) (iblk1 V c 3 t) (iblk1 V c 1 t) (iblk1 V c 4 t) (iblk1 V c 2 t) (iblk1 V c 5 t) m0 m0)
    (k1_pay8 (iblk1 V c 0 t) (iblk1 V c 3 t) (iblk1 V c 1 t) (iblk1 V c 4 t) (iblk1 V c 2 t) (iblk1 V c 5 t) m0) l0

def mAt (c : Dev nD) : ℕ → Vec F S1x128 .f32
  | 0 => k1_pay3
  | n + 1 => if h : n < cfg1.N then stepM V c ⟨n, h⟩ (mAt c n) else mAt c n

def lAt (c : Dev nD) : ℕ → Vec F S1x128 .f32
  | 0 => k1_pay4
  | n + 1 => if h : n < cfg1.N then stepL V c ⟨n, h⟩ (mAt V c n) (lAt c n) else lAt c n

theorem mAt_zero (c : Dev nD) : mAt V c 0 = k1_pay3 := rfl
theorem lAt_zero (c : Dev nD) : lAt V c 0 = k1_pay4 := rfl

theorem mAt_succ (c : Dev nD) (n : ℕ) (hn : n < cfg1.N) :
    mAt V c (n + 1) = k1_pay2 (k1_pay6 (iblk1 V c 0 ⟨n, hn⟩) (iblk1 V c 3 ⟨n, hn⟩) (iblk1 V c 1 ⟨n, hn⟩) (iblk1 V c 4 ⟨n, hn⟩) (iblk1 V c 2 ⟨n, hn⟩) (iblk1 V c 5 ⟨n, hn⟩) (mAt V c n)) := by
  show (if h : n < cfg1.N then stepM V c ⟨n, h⟩ (mAt V c n) else mAt V c n) = _
  rw [dif_pos hn]; rfl

theorem lAt_succ (c : Dev nD) (n : ℕ) (hn : n < cfg1.N) :
    lAt V c (n + 1) = k1_pay1
      (k1_pay7 (iblk1 V c 0 ⟨n, hn⟩) (iblk1 V c 3 ⟨n, hn⟩) (iblk1 V c 1 ⟨n, hn⟩) (iblk1 V c 4 ⟨n, hn⟩) (iblk1 V c 2 ⟨n, hn⟩) (iblk1 V c 5 ⟨n, hn⟩) (mAt V c n) (mAt V c n))
      (k1_pay8 (iblk1 V c 0 ⟨n, hn⟩) (iblk1 V c 3 ⟨n, hn⟩) (iblk1 V c 1 ⟨n, hn⟩) (iblk1 V c 4 ⟨n, hn⟩) (iblk1 V c 2 ⟨n, hn⟩) (iblk1 V c 5 ⟨n, hn⟩) (mAt V c n))
      (lAt V c n) := by
  show (if h : n < cfg1.N then stepL V c ⟨n, h⟩ (mAt V c n) (lAt V c n) else lAt V c n) = _
  rw [dif_pos hn]; rfl

abbrev scM : Memref sig .tc .vmem S1x128 .f32 := Memref.whole cc1_scratch0
abbrev scL : Memref sig .tc .vmem S1x128 .f32 := Memref.whole cc1_scratch1

-- after n tiles, m and l are the running column maximum and the running rescaled sum of exponentials
def Phi1 (c : Dev nD) (n : ℕ) : sProp 𝕄 :=
  iprop((∃ m l, ⌜n ≠ 0 → m = mAt V c n ∧ l = lAt V c n⌝ ∗ owns (c : Thread nD τ) scM fullShare m ∗ owns (c : Thread nD τ) scL fullShare l)
    ∗ Pipeline.scopedRestBut (Ix := Unit) (Name := ℕ) (U := UR sig nD τ) (Lvl := ℕ) (Val := Elt F) spec1 c [cc1_scratch0, cc1_scratch1]
    ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => mAt V c 5
    | ⟨7, _⟩ => lAt V c 5
  Φ t := Phi1 V c t.val
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = mAt V c 5 := by dsimp only [dat1]
theorem after1_7 (c : Dev nD) (t : Fin cfg1.N) : (dat1 V c).after 7 t = lAt V c 5 := by dsimp only [dat1]

abbrev cond1_0 (i : grid1.Coords) : Prop :=
  (Scalar.cmpi .ne (Scalar.extui (Scalar.cmpi .eq (BitVec.ofNat 32 (i 0).val) 0#32)) 0#32) = 1#1
abbrev cond1_1 (i : grid1.Coords) : Prop := k1_cond2 i = 1#1

theorem hcond1_0 : ∀ t : Fin cfg1.N, cond1_0 (grid1.coords t) ↔ t.val % 5 = 0 :=
  (by decide +kernel : ∀ t : Fin grid1.N, cond1_0 (grid1.coords t) ↔ t.val % 5 = 0)
theorem hcond1_1 : ∀ t : Fin cfg1.N, cond1_1 (grid1.coords t) ↔ t.val % 5 = 4 :=
  (by decide +kernel : ∀ t : Fin grid1.N, cond1_1 (grid1.coords t) ↔ t.val % 5 = 4)

theorem hz2 : (![0, 0] : Fin 2 → Nat) = fun _ => 0 := funext fun a => by fin_cases a <;> rfl

theorem ld_whole {S : Shape} {e : EltTy} {off : Fin S.rank → Nat} (h : off = fun _ => 0)
    (inb : ∀ a, off a + S.size a ≤ S.size a) (X : S.Idx → Elt F e) : View.ld X (Rect.unit off S.size inb) = X := by
  subst h
  funext x
  exact congrArg X (Rect.emb_whole_apply S x)

theorem read_store_whole {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h
  funext y
  have e := View.read_writes_cons_emb (v := v) (f := f) (Rect.whole S) w L y
  rwa [Rect.emb_whole_apply] at e

set_option maxHeartbeats 1000000 in
-- one step of the recursion from (m0, l0), which at the first tile are the reset values
theorem run1 (c : Dev nD) (E : Set ℕ) (i : grid1.Coords)
    (arg1 : Memref sig .tc .vmem S4000x64 .f32) (harg1 : arg1.IsWhole) (arg2 : Memref sig .tc .vmem S4000x128 .f32) (harg2 : arg2.IsWhole)
    (arg3 : Memref sig .tc .vmem S4000x8 .f32) (harg3 : arg3.IsWhole) (arg4 : Memref sig .tc .vmem S64x128 .f32) (harg4 : arg4.IsWhole)
    (arg5 : Memref sig .tc .vmem S128x128 .f32) (harg5 : arg5.IsWhole) (arg6 : Memref sig .tc .vmem S8x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (x0 : Vec F S4000x64 .f32) (x1 : Vec F S4000x128 .f32) (x2 : Vec F S4000x8 .f32) (x3 : Vec F S64x128 .f32)
    (x4 : Vec F S128x128 .f32) (x5 : Vec F S8x128 .f32) (d7 d8 d9 d10 m0 l0 : Vec F S1x128 .f32)
    (h : cond1_0 i ∧ ¬cond1_1 i ∧ m0 = k1_pay3 ∧ l0 = k1_pay4 ∨ ¬cond1_0 i ∧ d9 = m0 ∧ d10 = l0) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare d7 ∗ owns (c : Thread nD τ) arg8 fullShare d8 ∗ owns (c : Thread nD τ) arg9 fullShare d9 ∗ owns (c : Thread nD τ) arg10 fullShare d10
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (if cond1_1 i then k1_pay2 (k1_pay6 x0 x3 x1 x4 x2 x5 m0) else d7)
            ∗ owns (c : Thread nD τ) arg8 fullShare (if cond1_1 i then k1_pay1 (k1_pay7 x0 x3 x1 x4 x2 x5 m0 m0) (k1_pay8 x0 x3 x1 x4 x2 x5 m0) l0 else d8)
            ∗ owns (c : Thread nD τ) arg9 fullShare (k1_pay2 (k1_pay6 x0 x3 x1 x4 x2 x5 m0))
            ∗ owns (c : Thread nD τ) arg10 fullShare (k1_pay1 (k1_pay7 x0 x3 x1 x4 x2 x5 m0 m0) (k1_pay8 x0 x3 x1 x4 x2 x5 m0) l0)) -∗ K ⟨⟩))
      ⊢ wp frame (wpE (defs₀ (F := F)) Variants.none c none) E
          (cc1__node_stats_kernel i arg1 harg1 arg2 harg2 arg3 harg3 arg4 harg4 arg5 harg5 arg6 harg6 arg7 harg7 arg8 harg8 arg9 harg9 arg10 harg10) K := by
  by_cases hc1 : cond1_1 i <;> rcases h with ⟨hc0, hn, rfl, rfl⟩ | ⟨hc0, rfl, rfl⟩ <;> try exact absurd hc1 hn
  all_goals
    first | rw [if_pos hc1, if_pos hc1] | rw [if_neg hc1, if_neg hc1]
    simp only [cc1__node_stats_kernel_eq_skeleton]; unfold cc1__node_stats_kernel_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    obtain rfl := harg9.eq_unread hf9; obtain rfl := harg10.eq_unread hf10
    sl_exec (disch := first | exact hc0 | exact hc1)
    sl_step
    iapply Hk
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    isplitl [H7]; iexists _; isplitr; swap; iexact H7; rotate_left
    isplitl [H8]; iexists _; isplitr; swap; iexact H8; rotate_left
    isplitl [H9]; iexists _; isplitr; swap; iexact H9; rotate_left
    iexists _; isplitr; swap; iexact H10
    all_goals
      ipureintro
      sl_unfold_run_names
      try rw [read_store_whole (S := S1x128) _ _ hz2]
      simp only [View.readAt_eq_ld, View.readCov_cons_toLoadRect, Memref.IsWhole.read_unread, ld_whole (S := S4000x64) hz2, ld_whole (S := S4000x128) hz2,
        ld_whole (S := S4000x8) hz2, ld_whole (S := S64x128) hz2, ld_whole (S := S128x128) hz2, ld_whole (S := S8x128) hz2, ld_whole (S := S1x128) hz2]

theorem before1 (c : Dev nD) {w : Fin cfg1.W} (hw : w.val < 6) (t : Fin cfg1.N) (d) : (dat1 V c).before w t d = (dat1 V c).after w t := by
  fin_cases w <;> first
    | exact absurd hw (by decide)
    | exact (dat1 V c).before_in_eq_fetched _ rfl (fun _ => rfl) (fun _ _ _ => rfl) (fun _ => rfl) t d

theorem lvIn (c : Dev nD) {w : Fin cfg1.W} (hw : w.val < 6) (t : Fin cfg1.N) :
    (dat1 V c).leavesExact w t = owns (c : Thread nD τ) ((cfg1.win w).stage (cfg1.slots t w)) fullShare ((dat1 V c).after w t) := by
  fin_cases w <;> first | exact absurd hw (by decide) | rfl

theorem out1 : ∀ (t : Fin cfg1.N) (w : Fin cfg1.W), (cfg1.win w).isOut = true →
    (cond1_1 (grid1.coords t) → cfg1.idle w (grid1.coords t) = false)
      ∧ (¬cond1_1 (grid1.coords t) → cfg1.idle w (grid1.coords t) = true ∧ (cfg1.win w).flush t = false) := by decide +kernel

theorem lv1 (c : Dev nD) (t : Fin cfg1.N) (w : Fin cfg1.W) (hw : (cfg1.win w).isOut = true)
    (X d : (cfg1.win w).block.Idx → Elt F (cfg1.win w).elt) (hX : cond1_1 (grid1.coords t) → X = (dat1 V c).after w t) :
    owns (c : Thread nD τ) ((cfg1.win w).stage (cfg1.slots t w)) fullShare (if cond1_1 (grid1.coords t) then X else (dat1 V c).before w t d)
      ⊢ (dat1 V c).leavesExact w t := by
  obtain ⟨hl, hi⟩ := out1 t w hw
  by_cases h : cond1_1 (grid1.coords t)
  · rw [if_pos h, hX h]; unfold Dat.leavesExact; rw [hl h]
  · rw [if_neg h, Dat.leavesExact_idle _ w t (hi h).1 (hi h).2]; iintro H; iexists d; iexact H

theorem body_obligation1 (c : Dev nD) : BodyObligation (dat1 (F := F) V c) (defs₀ (F := F)) Variants.none () Set.univ := fun t => by
  have hN : t.val < 5 := lt_of_lt_of_eq t.isLt N_1
  have hM : cond1_1 (grid1.coords t) → t.val + 1 = 5 := fun h => by have := (hcond1_1 t).mp h; omega
  show iprop(Phi1 V c t.val ∗ (dat1 V c).owesAt () t.castSucc
      ∗ bigSep Finset.univ fun w => iprop(∃ d, owns (c : Thread nD τ) ((cfg1.win w).stage (cfg1.slots t w)) fullShare ((dat1 V c).before w t d)))
    ⊢ wp frame (wpE (defs₀ (F := F)) Variants.none c none) Set.univ (bodyAt1 t) fun _ =>
      iprop(Phi1 V c (t.val + 1) ∗ (dat1 V c).owesAt () t.castSucc ∗ bigSep Finset.univ fun w => (dat1 V c).leavesExact w t)
  rw [bigSep_W1, bigSep_W1]
  simp (disch := decide) only [before1 V c, lvIn V c]
  unfold Phi1
  iintro ⟨⟨⟨%m, %l, %hml, HS0, HS1⟩, HR, Hg⟩, Ho, ⟨%_, H0⟩, ⟨%_, H1⟩, ⟨%_, H2⟩, ⟨%_, H3⟩, ⟨%_, H4⟩, ⟨%_, H5⟩, ⟨%d6, H6⟩, ⟨%d7, H7⟩⟩
  iapply (run1 c Set.univ (grid1.coords t) (st1_0 t) _ (st1_1 t) _ (st1_2 t) _ (st1_3 t) _ (st1_4 t) _ (st1_5 t) _ (st1_6 t) _ (st1_7 t) _ scM _ scL _
    ((dat1 V c).after 0 t) ((dat1 V c).after 1 t) ((dat1 V c).after 2 t) ((dat1 V c).after 3 t) ((dat1 V c).after 4 t) ((dat1 V c).after 5 t)
    ((dat1 V c).before 6 t d6) ((dat1 V c).before 7 t d7) m l (mAt V c t.val) (lAt V c t.val)
    (if hz : t.val = 0 then .inl ⟨(hcond1_0 t).mpr (by omega), fun h => by have := hM h; omega,
        (congrArg (mAt V c) hz).trans (mAt_zero V c), (congrArg (lAt V c) hz).trans (lAt_zero V c)⟩
      else .inr ⟨fun h => hz (by have := (hcond1_0 t).mp h; omega), hml hz⟩) _)
  iframe H0 H1 H2 H3 H4 H5 H6 H7 HS0 HS1
  iintro ⟨H0, H1, H2, H3, H4, H5, H6, H7, HS0, HS1⟩
  iframe HR Hg Ho H0 H1 H2 H3 H4 H5
  isplitl [HS0 HS1]
  · iexists _, _; iframe HS0 HS1; ipureintro
    exact fun _ => ⟨(mAt_succ V c _ t.isLt).symm, (lAt_succ V c _ t.isLt).symm⟩
  isplitl [H6]
  · iapply (lv1 V c t 6 rfl _ _ fun h => ((mAt_succ V c _ t.isLt).symm.trans (congrArg (mAt V c) (hM h))).trans (after1_6 V c t).symm)
    iexact H6
  iapply (lv1 V c t 7 rfl _ _ fun h => ((lAt_succ V c _ t.isLt).symm.trans (congrArg (lAt V c) (hM h))).trans (after1_7 V c t).symm)
  iexact H7

theorem scratch_some (c : Dev nD) (b : Ref sig .tc) :
    (iprop(∃ f : Buf (Elt F) ((c : Thread nD τ).loc b), ((c : Thread nD τ).loc b) ↦{fullShare} f) : sProp 𝕄)
      = iprop(∃ d, owns (c : Thread nD τ) (Memref.whole b) fullShare d) := by
  simp only [owns_whole]

theorem hin1 (c : Dev nD) (Pf : sProp 𝕄) :
    iprop((∃ r, prngReg c r) ∗ Pf ∗ Pipeline.scopedRest (Ix := Unit) (Name := ℕ) (U := UR sig nD τ) (Lvl := ℕ) (Val := Elt F) spec1 c) ⊢ (dat1 V c).Φ 0 := by
  rw [show (dat1 V c).Φ 0 = Phi1 V c 0 from rfl, scopedRest1_split, scratch_some c cc1_scratch0, scratch_some c cc1_scratch1]
  unfold Phi1
  iintro ⟨Hg, -, ⟨⟨%m, HS0⟩, ⟨%l, HS1⟩⟩, HR⟩
  iframe HR Hg
  iexists m, l
  iframe HS0 HS1
  ipureintro; exact fun h => absurd rfl h

theorem hout1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = Phi1 V c (Fin.last cfg1.N).val from rfl, scopedRest1_split,
    scratch_some c cc1_scratch0, scratch_some c cc1_scratch1]
  unfold Phi1
  iintro ⟨⟨%m, %l, -, HS0, HS1⟩, HR, Hg⟩
  iframe HR Hg
  isplitl [HS0]; · iexists _; iexact HS0
  iexists _; iexact HS1

end Cert.KernelIdeal.Hand

end
-- ==== Proof.FrameKI.R2.lean ====
import proofs.«429701_j48541720379569_3_alg».proof.Proof.Gen.KernelIdeal.Launch
import proofs.«429701_j48541720379569_3_alg».proof.Proof.Gen.KernelIdeal.Skeleton
import proofs.«429701_j48541720379569_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev full2_S4000x64 : Rect S4000x64 := Rect.unit (s := S4000x64) ![0, 0] S4000x64.size inb_S4000x64_S4000x64_0_0
abbrev full2_S4000x128 : Rect S4000x128 := Rect.unit (s := S4000x128) ![0, 0] S4000x128.size inb_S4000x128_S4000x128_0_0
abbrev full2_S4000x8 : Rect S4000x8 := Rect.unit (s := S4000x8) ![0, 0] S4000x8.size inb_S4000x8_S4000x8_0_0
abbrev full2_S64x128 : Rect S64x128 := Rect.unit (s := S64x128) ![0, 0] S64x128.size inb_S64x128_S64x128_0_0
abbrev full2_S128x128 : Rect S128x128 := Rect.unit (s := S128x128) ![0, 0] S128x128.size inb_S128x128_S128x128_0_0
abbrev full2_S8x128 : Rect S8x128 := Rect.unit (s := S8x128) ![0, 0] S8x128.size inb_S8x128_S8x128_0_0
abbrev full2_S1x128 : Rect S1x128 := Rect.unit (s := S1x128) ![0, 0] S1x128.size inb_S1x128_S1x128_0_0
abbrev full2_S128x264 : Rect S128x264 := Rect.unit (s := S128x264) ![0, 0] S128x264.size inb_S128x264_S128x264_0_0
abbrev full2_S264x128 : Rect S264x128 := Rect.unit (s := S264x128) ![0, 0] S264x128.size inb_S264x128_S264x128_0_0
abbrev full2_S4000x1 : Rect S4000x1 := Rect.unit (s := S4000x1) ![0, 0] S4000x1.size inb_S4000x1_S4000x1_0_0
abbrev full2_S1x64x128 : Rect S1x64x128 := Rect.unit (s := S1x64x128) ![0, 0, 0] S1x64x128.size inb_S1x64x128_S1x64x128_0_0_0

def out2_14 (x0 : Vec F S4000x64 .f32) (x1 : Vec F S4000x128 .f32) (x2 : Vec F S4000x8 .f32) (x3 : Vec F S64x128 .f32) (x4 : Vec F S128x128 .f32) (x5 : Vec F S8x128 .f32) (x6 : Vec F S1x128 .f32) (x7 : Vec F S1x128 .f32) (x8 : Vec F S128x264 .f32) (x9 : Vec F S264x128 .f32) (x10 : Vec F S1x128 .f32) (x11 : Vec F S128x128 .f32) (x12 : Vec F S1x128 .f32) (x13 : Vec F S4000x1 .i32) : Vec F S4000x128 .f32 :=
  View.canon [⟨full2_S4000x128, k2_pay1 (k2_pay3 (View.ld x0 full2_S4000x64) (View.ld x3 full2_S64x128) (View.ld x1 full2_S4000x128) (View.ld x4 full2_S128x128) (View.ld x2 full2_S4000x8) (View.ld x5 full2_S8x128) (View.ld x6 full2_S1x128) (View.ld x7 full2_S1x128)) (View.ld x8 full2_S128x264) (View.ld x9 full2_S264x128) (View.ld x10 full2_S1x128) (View.ld x11 full2_S128x128) (View.ld x12 full2_S1x128)⟩]

def out2_15 (x0 : Vec F S4000x64 .f32) (x1 : Vec F S4000x128 .f32) (x2 : Vec F S4000x8 .f32) (x3 : Vec F S64x128 .f32) (x4 : Vec F S128x128 .f32) (x5 : Vec F S8x128 .f32) (x6 : Vec F S1x128 .f32) (x7 : Vec F S1x128 .f32) (x8 : Vec F S128x264 .f32) (x9 : Vec F S264x128 .f32) (x10 : Vec F S1x128 .f32) (x11 : Vec F S128x128 .f32) (x12 : Vec F S1x128 .f32) (x13 : Vec F S4000x1 .i32) : Vec F S1x64x128 .f32 :=
  View.canon [⟨full2_S1x64x128, k2_pay2 (k2_pay3 (View.ld x0 full2_S4000x64) (View.ld x3 full2_S64x128) (View.ld x1 full2_S4000x128) (View.ld x4 full2_S128x128) (View.ld x2 full2_S4000x8) (View.ld x5 full2_S8x128) (View.ld x6 full2_S1x128) (View.ld x7 full2_S1x128)) (View.ld x8 full2_S128x264) (View.ld x9 full2_S264x128) (View.ld x10 full2_S1x128) (View.ld x11 full2_S128x128) (View.ld x12 full2_S1x128) (View.ld x13 full2_S4000x1)⟩]

set_option maxHeartbeats 1000000 in
theorem sound_kernel2 (c : Dev nD) (E : Set ℕ) (i : grid2.Coords) (arg0 : Memref sig .tc .vmem S4000x64 .f32) (harg0 : arg0.IsWhole) (arg1 : Memref sig .tc .vmem S4000x128 .f32) (harg1 : arg1.IsWhole) (arg2 : Memref sig .tc .vmem S4000x8 .f32) (harg2 : arg2.IsWhole) (arg3 : Memref sig .tc .vmem S64x128 .f32) (harg3 : arg3.IsWhole) (arg4 : Memref sig .tc .vmem S128x128 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x264 .f32) (harg8 : arg8.IsWhole) (arg9 : Memref sig .tc .vmem S264x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S4000x1 .i32) (harg13 : arg13.IsWhole) (arg14 : Memref sig .tc .vmem S4000x128 .f32) (harg14 : arg14.IsWhole) (arg15 : Memref sig .tc .vmem S1x64x128 .f32) (harg15 : arg15.IsWhole)
    (x0 : Vec F S4000x64 .f32) (x1 : Vec F S4000x128 .f32) (x2 : Vec F S4000x8 .f32) (x3 : Vec F S64x128 .f32) (x4 : Vec F S128x128 .f32) (x5 : Vec F S8x128 .f32) (x6 : Vec F S1x128 .f32) (x7 : Vec F S1x128 .f32) (x8 : Vec F S128x264 .f32) (x9 : Vec F S264x128 .f32) (x10 : Vec F S1x128 .f32) (x11 : Vec F S128x128 .f32) (x12 : Vec F S1x128 .f32) (x13 : Vec F S4000x1 .i32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (out2_14 x0 x1 x2 x3 x4 x5 x6 x7 x8 x9 x10 x11 x12 x13) ∗ owns (c : Thread nD τ) arg15 fullShare (out2_15 x0 x1 x2 x3 x4 x5 x6 x7 x8 x9 x10 x11 x12 x13)) -∗ K ⟨⟩))
      ⊢ wp frame (wpE (defs₀ (F := F)) Variants.none c none) E (cc2__node_mlp_kernel i arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__node_mlp_kernel_eq_skeleton]; unfold cc2__node_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    try dsimp only
    exact View.read_writes_eq_canon _ _ _ (View.cover_of_wholeMem _ (View.Piece.wholeMem_here (by rfl)))
  iexists _; isplitr
  swap; · iexact H15
  ipureintro
  try dsimp only
  exact View.read_writes_eq_canon _ _ _ (View.cover_of_wholeMem _ (View.Piece.wholeMem_here (by rfl)))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
    | ⟨15, _⟩ => out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
    | ⟨_ + 16, h⟩ => absurd h (Nat.not_lt.2 (Nat.le_add_left _ _))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_14 (c : Dev nD) (t : Fin cfg2.N) : (dat2 V c).after 14 t = out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) := by dsimp only [dat2]
theorem after2_15 (c : Dev nD) (t : Fin cfg2.N) : (dat2 V c).after 15 t = out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) := by dsimp only [dat2]

private theorem before2 (c : Dev nD) {w : Fin cfg2.W} (hw : (cfg2.win w).isOut = false) (t : Fin cfg2.N) (d) :
    (dat2 V c).before w t d = (dat2 V c).after w t := by
  fin_cases w <;> first
    | exact absurd hw (by decide)
    | exact Eq.trans (Dat.before_in_eq_fetched (dat2 V c) _ rfl (fun _ => rfl) (fun _ _ _ => rfl)
        (fun t => by dsimp only [dat2]; unfold Dat.blockOf iblk2; try rfl) t d)
        (by dsimp only [dat2]; unfold Dat.fetched Dat.blockOf iblk2; try rfl)

theorem body_obligation2 (c : Dev nD) : BodyObligation (dat2 (F := F) V c) (defs₀ (F := F)) Variants.none () Set.univ := fun t => by
  rw [bigSep_W2, bigSep_W2]
  simp (disch := decide) only [show ∀ w i, cfg2.idle w i = false from fun _ _ => rfl, before2 V c]
  rw [show (dat2 V c).owesAt () t.succ = (dat2 V c).owesAt () t.castSucc from rfl]
  dsimp only [dat2]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, ⟨%_, H12⟩, ⟨%_, H13⟩, ⟨%_, H14⟩, ⟨%_, H15⟩⟩
  iapply (sound_kernel2 c Set.univ _ (st2_0 t) _ (st2_1 t) _ (st2_2 t) _ (st2_3 t) _ (st2_4 t) _ (st2_5 t) _ (st2_6 t) _ (st2_7 t) _ (st2_8 t) _ (st2_9 t) _ (st2_10 t) _ (st2_11 t) _ (st2_12 t) _ (st2_13 t) _ (st2_14 t) _ (st2_15 t) _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) _)
  iframe H0 H1 H2 H3 H4 H5 H6 H7 H8 H9 H10 H11 H12 H13
  isplitl [H14]; · iexists _; iexact H14
  isplitl [H15]; · iexists _; iexact H15
  iintro ⟨H0, H1, H2, H3, H4, H5, H6, H7, H8, H9, H10, H11, H12, H13, H14, H15⟩
  iframe

end Cert.KernelIdeal.Hand

end
-- ==== Proof.FrameKI.R3.lean ====
import proofs.«429701_j48541720379569_3_alg».proof.Proof.Gen.KernelIdeal.Launch
import proofs.«429701_j48541720379569_3_alg».proof.Proof.Gen.KernelIdeal.Skeleton
import proofs.«429701_j48541720379569_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_64x8 : Rect S64x8 := Rect.unit (s := S64x8) ![0, 0] S64x8.size inb_S64x8_S64x8_0_0
abbrev r3_64x128 : Rect S64x128 := Rect.unit (s := S64x128) ![0, 0] S64x128.size inb_S64x128_S64x128_0_0
abbrev r3_8x128 : Rect S8x128 := Rect.unit (s := S8x128) ![0, 0] S8x128.size inb_S8x128_S8x128_0_0
abbrev r3_128x128 : Rect S128x128 := Rect.unit (s := S128x128) ![0, 0] S128x128.size inb_S128x128_S128x128_0_0
abbrev r3_1x128 : Rect S1x128 := Rect.unit (s := S1x128) ![0, 0] S1x128.size inb_S1x128_S1x128_0_0

def out3_9 (x0 : Vec F S64x8 .f32) (x1 : Vec F S64x128 .f32) (x2 : Vec F S64x128 .f32) (x3 : Vec F S8x128 .f32) (x4 : Vec F S128x128 .f32) (x5 : Vec F S128x128 .f32) (x6 : Vec F S1x128 .f32) (x7 : Vec F S128x128 .f32) (x8 : Vec F S1x128 .f32) : Vec F S64x128 .f32 :=
  View.canon [⟨r3_64x128, k3_pay1 (View.ld x0 r3_64x8) (View.ld x3 r3_8x128) (View.ld x1 r3_64x128) (View.ld x4 r3_128x128)
    (View.ld x2 r3_64x128) (View.ld x5 r3_128x128) (View.ld x6 r3_1x128) (View.ld x7 r3_128x128) (View.ld x8 r3_1x128)⟩]

theorem sound_kernel3 (c : Dev nD) (E : Set ℕ) (i : grid3.Coords) (arg1 : Memref sig .tc .vmem S64x8 .f32) (harg1 : arg1.IsWhole) (arg2 : Memref sig .tc .vmem S64x128 .f32) (harg2 : arg2.IsWhole) (arg3 : Memref sig .tc .vmem S64x128 .f32) (harg3 : arg3.IsWhole) (arg4 : Memref sig .tc .vmem S8x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S64x128 .f32) (harg10 : arg10.IsWhole)
    (x0 : Vec F S64x8 .f32) (x1 : Vec F S64x128 .f32) (x2 : Vec F S64x128 .f32) (x3 : Vec F S8x128 .f32) (x4 : Vec F S128x128 .f32) (x5 : Vec F S128x128 .f32) (x6 : Vec F S1x128 .f32) (x7 : Vec F S128x128 .f32) (x8 : Vec F S1x128 .f32) (y : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y
        ∗ (owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare x4 -∗ owns (c : Thread nD τ) arg6 fullShare x5 -∗ owns (c : Thread nD τ) arg7 fullShare x6 -∗ owns (c : Thread nD τ) arg8 fullShare x7 -∗ owns (c : Thread nD τ) arg9 fullShare x8 -∗ owns (c : Thread nD τ) arg10 fullShare (out3_9 x0 x1 x2 x3 x4 x5 x6 x7 x8) -∗ K ⟨⟩))
      ⊢ wp frame (wpE (defs₀ (F := F)) Variants.none c none) E (cc3__global_mlp_kernel i arg1 harg1 arg2 harg2 arg3 harg3 arg4 harg4 arg5 harg5 arg6 harg6 arg7 harg7 arg8 harg8 arg9 harg9 arg10 harg10) K := by
  simp only [cc3__global_mlp_kernel_eq_skeleton]; unfold cc3__global_mlp_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, -, H9⟩, Hk⟩
  subst hf0 hf1 hf2 hf3 hf4 hf5 hf6 hf7 hf8
  sl_exec
  sl_step
  iapply Hk $$ [H0] [H1] [H2] [H3] [H4] [H5] [H6] [H7] [H8] [H9]
  all_goals
    iexists _; isplitr; swap; · iassumption
    ipureintro
    first | exact View.read_writes_eq_canon _ _ _ (View.cover_of_wholeMem _ (by sl_whole_mem)) | rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3 (c : Dev nD) {w : Fin cfg3.W} (hw : w ≠ 9) (t : Fin cfg3.N) (d) : (dat3 V c).before w t d = (dat3 V c).after w t := by
  fin_cases w <;> first
    | exact absurd rfl hw
    | exact (dat3 V c).before_in_eq_fetched _ rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  simp (disch := decide) only [before3 V c]
  dsimp only [dat3]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩⟩
  iapply sound_kernel3
  iframe
  iintro H0 H1 H2 H3 H4 H5 H6 H7 H8 H9
  iframe
  iexact Ho

end Cert.KernelIdeal.Hand

end
-- ==== Proof.FrameKI.Run.lean ====
import proofs.«429701_j48541720379569_3_alg».proof.Proof.FrameKI.R0
import proofs.«429701_j48541720379569_3_alg».proof.Proof.FrameKI.R1
import proofs.«429701_j48541720379569_3_alg».proof.Proof.FrameKI.R2
import proofs.«429701_j48541720379569_3_alg».proof.Proof.FrameKI.R3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part1_ops0 (W1 m ρ c)
abbrev V2 : (c : Dev nD) → (b : Ref sig .tc) → Buf (Elt F) ((c : Thread nD τ).loc b) := fun c b => W2 m ρ c b

def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b

abbrev W4 : Dev nD → Valuation τ sig (Elt F) := fun c => StableHlo.after main_part1_ops1 (W3 m ρ c)
abbrev V4 : (c : Dev nD) → (b : Ref sig .tc) → Buf (Elt F) ((c : Thread nD τ).loc b) := fun c b => W4 m ρ c b

def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb

abbrev W6 : Dev nD → Valuation τ sig (Elt F) := fun c => StableHlo.after main_part1_ops2 (W5 m ρ c)
abbrev V6 : (c : Dev nD) → (b : Ref sig .tc) → Buf (Elt F) ((c : Thread nD τ).loc b) := fun c b => W6 m ρ c b

def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b

abbrev W8 : Dev nD → Valuation τ sig (Elt F) := fun c => StableHlo.after main_part1_ops3 (W7 m ρ c)
abbrev V8 : (c : Dev nD) → (b : Ref sig .tc) → Buf (Elt F) ((c : Thread nD τ).loc b) := fun c b => W8 m ρ c b

def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V6 m ρ) c
  | ⟨3, _⟩ => fun c => dat3 (V8 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev hostOps : Fin 5 → List (HloOp τ sig (Elt F))
  | ⟨0, _⟩ => main_part0_ops0 | ⟨1, _⟩ => main_part1_ops0 | ⟨2, _⟩ => main_part1_ops1 | ⟨3, _⟩ => main_part1_ops2
  | ⟨4, _⟩ => main_part1_ops3

theorem hostOps_fresh : ∀ i, (hostOps (F := F) i).Forall fun op => op.fresh = ∅
  | ⟨0, _⟩ | ⟨1, _⟩ | ⟨2, _⟩ | ⟨3, _⟩ | ⟨4, _⟩ => by simp only [hostOps, List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

theorem hinA {gr Wn : ℕ} (win : Fin Wn → Pipeline.WinSpec sig gr) (c : Dev nD) (X : sProp 𝕄) :
    iprop((∃ r, prngReg c r) ∗ X ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp

theorem houtA {gr Wn : ℕ} (win : Fin Wn → Pipeline.WinSpec sig gr) (c : Dev nD) :
    (Pipeline.ΦA win c : sProp 𝕄)
      ⊢ iprop((∃ r, prngReg c r) ∗ Pipeline.scopedRest (Ix := Unit) (Name := ℕ) (U := UR sig nD τ) (Lvl := ℕ) (Val := Elt F) win c) := by
  unfold Pipeline.ΦA; exact sep_comm

set_option backward.isDefEq.respectTransparency.types false in
def reg (p : Fin 4) (ln : Pipeline.LaunchFacts (nD := nD) (τ := τ) cfgs p) (W W' : Dev nD → Valuation τ sig (Elt F))
    (hbody : ∀ c, Pipeline.BodyObligationLoose (pdats m ρ p c) defs₀ 𝒱₀ () Set.univ)
    (howed : ∀ c t, (pdats m ρ p c).owed t = 0) (hrec : ∀ c t, (pdats m ρ p c).recorded t = Set.univ)
    (hq : ∀ c w, (pdats m ρ p c).q w = fullShare)
    (hA : ∀ c w, (pdats m ρ p c).A w = W c (Proc.devRef .tc (Pipeline.arrRef (cfgs p).spec w)))
    (hin : ∀ c, iprop((∃ r, prngReg c r) ∗ Pipeline.prefHeld (pcfgs (F := F) p).pre c (fun _ => fullShare) (adm p).1
      ∗ Pipeline.scopedRest (Pipeline.pin (pcfgs (F := F)) adm p).spec c) ⊢ (pdats m ρ p c).Φ 0)
    (hout : ∀ c, (pdats m ρ p c).Φ (Fin.last (Pipeline.pin (pcfgs (F := F)) adm p).N)
      ⊢ iprop((∃ r, prngReg c r) ∗ Pipeline.scopedRest (Pipeline.pin (pcfgs (F := F)) adm p).spec c))
    (harr : ∀ c w, W' c (Proc.devRef .tc (Pipeline.arrRef (cfgs p).spec w)) = (pdats m ρ p c).arrAt w (cfgs p).N)
    (hne : ∀ c (b : Ref sig .tc), (∀ w, Pipeline.arrRef (cfgs p).spec w ≠ b) → W' c (Proc.devRef .tc b) = W c (Proc.devRef .tc b)) :
    Pipeline.RegionSeg (pcfgs (F := F)) adm (pdats m ρ) () defs₀ 𝒱₀ L lv p where
  win := ln.win.to₀
  block_pos := ln.block_pos
  stage_whole := ln.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m ρ) ln.win ln.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c, Pipeline.Dat.bound, hrec c]
      icases HO with ⟨%W, HO⟩; iexists W; isplitr; · ipureintro; exact fun _ _ => Or.inl trivial
      iexact HO
    isplitl [Hp]; · iexact Hp
    iexact Hrest
  hin := hin
  hout c := by
    rw [Pipeline.ownSems0_none]
    iintro H
    ihave H2 := (hout c) $$ H
    icases H2 with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      ln.win ln.arr_whole c (pdats m ρ) ((pdats m ρ p c).share_full (hq c))
      (fun b => W c b) (fun b => W' c b) ((pdats m ρ p c).arrAt · (cfgs p).N) (fun w => (harr c w).symm)
      fun b hb => hne c b fun w e => hb (Finset.mem_image.mpr ⟨w, Finset.mem_univ _, e⟩)
    rw [Pipeline.unscopedBufs_held] at hjoin
    unfold Pipeline.Dat.owesAt Pipeline.owesWithin
    rw [howed c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev segs : List (Pipeline.Seg (pcfgs (F := F)) adm (pdats m ρ) () defs₀ 𝒱₀ L lv) :=
  [ .host (hseg main_part0_ops0 main_part0_ops0_sub (hostOps_fresh 0) (W0 m ρ)),
    .host (hseg main_part1_ops0 main_part1_ops0_sub (hostOps_fresh 1) (W1 m ρ)),
    .region (reg m ρ 0 launch0 (W2 m ρ) (W3 m ρ) (fun c => (body_obligation0 (V2 m ρ) c).loose) (fun _ _ => rfl) (fun _ _ => rfl)
      (fun _ _ => rfl) (fun _ _ => rfl) (fun c => hinA _ c _) (houtA _) (W3_arr m ρ) (W3_of_ne m ρ)),
    .host (hseg main_part1_ops1 main_part1_ops1_sub (hostOps_fresh 2) (W3 m ρ)),
    .region (reg m ρ 1 launch1 (W4 m ρ) (W5 m ρ) (fun c => (body_obligation1 (V4 m ρ) c).loose) (fun _ _ => rfl) (fun _ _ => rfl)
      (fun _ _ => rfl) (fun _ _ => rfl) (fun c => hin1 (V4 m ρ) c _) (hout1 (V4 m ρ)) (W5_arr m ρ) (W5_of_ne m ρ)),
    .host (hseg main_part1_ops2 main_part1_ops2_sub (hostOps_fresh 3) (W5 m ρ)),
    .region (reg m ρ 2 launch2 (W6 m ρ) (W7 m ρ) (fun c => (body_obligation2 (V6 m ρ) c).loose) (fun _ _ => rfl) (fun _ _ => rfl)
      (fun _ _ => rfl) (fun _ _ => rfl) (fun c => hinA _ c _) (houtA _) (W7_arr m ρ) (W7_of_ne m ρ)),
    .host (hseg main_part1_ops3 main_part1_ops3_sub (hostOps_fresh 4) (W7 m ρ)),
    .region (reg m ρ 3 launch3 (W8 m ρ) (W9 m ρ) (fun c => (body_obligation3 (V8 m ρ) c).loose) (fun _ _ => rfl) (fun _ _ => rfl)
      (fun _ _ => rfl) (fun _ _ => rfl) (fun c => hinA _ c _) (houtA _) (W9_arr m ρ) (W9_of_ne m ρ)) ]
theorem main_run (c : Dev nD) : main (F := F) c = Pipeline.Seg.run (segs m ρ) := (main_chain_windows c).trans (by chain_rfl)

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelIdeal.Hand

end
-- ==== Proof.FrameKI.Args.lean ====
import proofs.«429701_j48541720379569_3_alg».proof.Proof.FrameKI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18]

theorem arg_ne {b y : Ref sig .tc} (hb : b ∈ argRefs) (hy : y ∉ argRefs) : b ≠ y := fun e => hy (e ▸ hb)

-- Every host operation writes only its own result value, and no result value is an argument.
theorem host_keeps (V : Valuation τ sig (Elt F)) {b : Ref sig .tc} (hb : b ∈ argRefs) :
    ∀ i, StableHlo.after (hostOps i) V (Proc.devRef .tc b) = V (Proc.devRef .tc b)
  | ⟨0, _⟩ | ⟨1, _⟩ | ⟨2, _⟩ | ⟨3, _⟩ | ⟨4, _⟩ =>
    StableHlo.after_of_forall_not_mem (b := Proc.devRef .tc b) _ _ (List.forall_iff_forall_mem.mp (by
      simp only [hostOps, main_part0_ops0, main_part1_ops0, main_part1_ops1, main_part1_ops2, main_part1_ops3, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (arg_ne hb (by decide))))

theorem args_in0 : ∀ w : Fin cfg0.W, Pipeline.arrRef spec0 w ∈ argRefs → (cfg0.win w).isOut = false := by decide
theorem args_in1 : ∀ w : Fin cfg1.W, Pipeline.arrRef spec1 w ∈ argRefs → (cfg1.win w).isOut = false := by decide
theorem args_in2 : ∀ w : Fin cfg2.W, Pipeline.arrRef spec2 w ∈ argRefs → (cfg2.win w).isOut = false := by decide
theorem args_in3 : ∀ w : Fin cfg3.W, Pipeline.arrRef spec3 w ∈ argRefs → (cfg3.win w).isOut = false := by decide

theorem W3_keeps (c : Dev nD) {b : Ref sig .tc} (hb : b ∈ argRefs) :
    W3 m ρ c (Proc.devRef .tc b) = W2 m ρ c (Proc.devRef .tc b) := by
  by_cases h : ∀ w, Pipeline.arrRef spec0 w ≠ b
  · exact W3_of_ne m ρ c b h
  · obtain ⟨w, rfl⟩ := not_forall_not.mp h
    exact (W3_arr m ρ c w).trans (((dat0 (V2 m ρ) c).arrAt_in w (args_in0 w hb) _).trans (A_eq0 (V2 m ρ) c w))

theorem W5_keeps (c : Dev nD) {b : Ref sig .tc} (hb : b ∈ argRefs) :
    W5 m ρ c (Proc.devRef .tc b) = W4 m ρ c (Proc.devRef .tc b) := by
  by_cases h : ∀ w, Pipeline.arrRef spec1 w ≠ b
  · exact W5_of_ne m ρ c b h
  · obtain ⟨w, rfl⟩ := not_forall_not.mp h
    exact (W5_arr m ρ c w).trans (((dat1 (V4 m ρ) c).arrAt_in w (args_in1 w hb) _).trans (A_eq1 (V4 m ρ) c w))

theorem W7_keeps (c : Dev nD) {b : Ref sig .tc} (hb : b ∈ argRefs) :
    W7 m ρ c (Proc.devRef .tc b) = W6 m ρ c (Proc.devRef .tc b) := by
  by_cases h : ∀ w, Pipeline.arrRef spec2 w ≠ b
  · exact W7_of_ne m ρ c b h
  · obtain ⟨w, rfl⟩ := not_forall_not.mp h
    exact (W7_arr m ρ c w).trans (((dat2 (V6 m ρ) c).arrAt_in w (args_in2 w hb) _).trans (A_eq2 (V6 m ρ) c w))

theorem W9_keeps (c : Dev nD) {b : Ref sig .tc} (hb : b ∈ argRefs) :
    W9 m ρ c (Proc.devRef .tc b) = W8 m ρ c (Proc.devRef .tc b) := by
  by_cases h : ∀ w, Pipeline.arrRef spec3 w ≠ b
  · exact W9_of_ne m ρ c b h
  · obtain ⟨w, rfl⟩ := not_forall_not.mp h
    exact (W9_arr m ρ c w).trans (((dat3 (V8 m ρ) c).arrAt_in w (args_in3 w hb) _).trans (A_eq3 (V8 m ρ) c w))

-- An argument's buffer is kept by each of the four launches and five host stretches, back to the launch memory.
theorem W9_arg (c : Dev nD) {b : Ref sig .tc} (hb : b ∈ argRefs) :
    W9 m ρ c (Proc.devRef .tc b) = m ((c : Thread nD τ).loc b) :=
  (W9_keeps m ρ c hb).trans <| (host_keeps (W7 m ρ c) hb 4).trans <| (W7_keeps m ρ c hb).trans <|
    (host_keeps (W5 m ρ c) hb 3).trans <| (W5_keeps m ρ c hb).trans <| (host_keeps (W3 m ρ c) hb 2).trans <|
    (W3_keeps m ρ c hb).trans <| (host_keeps (W1 m ρ c) hb 1).trans (host_keeps (W0 m ρ c) hb 0)

theorem args_unscoped : ∀ b ∈ argRefs, ¬ (Proc.devRef .tc b : DevRef τ sig).isScoped := by decide

theorem run_results : θ_run defs (onTc (τ := τ) (main (F := F))) ⟨m, fun _ => 0, ρ⟩ (fun r => ∀ c : Dev nD,
      r.2.mem ((c.tc : Thread nD τ).loc main_v70_0) = W9 m ρ c (Proc.devRef .tc main_v70_0)
      ∧ r.2.mem ((c.tc : Thread nD τ).loc main_v54_0) = W9 m ρ c (Proc.devRef .tc main_v54_0)
      ∧ r.2.mem ((c.tc : Thread nD τ).loc main_v96) = W9 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨h c _ (mem_uc main_v70_0 (by decide)), h c _ (mem_uc main_v54_0 (by decide)), h c _ (mem_uc main_v96 (by decide)),
      (List.forall_iff_forall_mem (l := argRefs)
        (p := fun b => r.2.mem ((c.tc : Thread nD τ).loc b) = m ((c.tc : Thread nD τ).loc b))).mpr fun b hb =>
        (h c _ (mem_uc b (args_unscoped b hb))).trans (W9_arg m ρ c hb)⟩) (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => (h c).2.2.2) (run_results m ρ)

end Cert.KernelIdeal.Hand

end
-- ==== Proof.Val.Spec.lean ====
import Idealize.ShloMosaic.PureOps.Ideal
import Idealize.ShloMosaic.Lib.ValueIdx

noncomputable section

open scoped BigOperators

namespace Cert.Spec

open Idealize.ShloMosaic

def relu (x : EReal) : EReal := max x 0

def oneHot (b : Fin 64) (w : BitVec 32) : EReal := if BitVec.ofNat 32 b.val = w then 1 else 0

def edgeHid {E : Nat} (xr xc : Fin E → Fin 64 → EReal) (ea : Fin E → Fin 16 → EReal) (ur : Fin E → Fin 8 → EReal)
    (wa wb : Fin 64 → Fin 128 → EReal) (wc : Fin 16 → Fin 128 → EReal) (wd : Fin 8 → Fin 128 → EReal)
    (b1 : Fin 128 → EReal) (r : Fin E) (k : Fin 128) : EReal :=
  relu ((((∑ q, xr r q * wa q k) + ∑ q, xc r q * wb q k) + ∑ q, ea r q * wc q k) + (∑ q, ur r q * wd q k) + b1 k)

def edgeOut {E : Nat} (hid : Fin E → Fin 128 → EReal) (w2 : Fin 128 → Fin 128 → EReal) (b2 : Fin 128 → EReal)
    (r : Fin E) (n : Fin 128) : EReal :=
  (∑ k, hid r k * w2 k n) + b2 n

def tileRow {G T : Nat} (t : Fin G) (r : Fin T) : Fin (G * T) :=
  ⟨t.val * T + r.val, by
    have h1 := t.isLt; have h2 := r.isLt
    calc t.val * T + r.val < t.val * T + T := by omega
      _ = (t.val + 1) * T := by ring
      _ ≤ G * T := Nat.mul_le_mul_right T h1⟩

def tilePart {G T : Nat} (v : Fin (G * T) → Fin 128 → EReal) (id : Fin (G * T) → BitVec 32)
    (t : Fin G) (b : Fin 64) (n : Fin 128) : EReal :=
  ∑ r : Fin T, oneHot b (id (tileRow t r)) * v (tileRow t r) n

def partSum {G : Nat} (p : Fin G → Fin 64 → Fin 128 → EReal) (b : Fin 64) (n : Fin 128) : EReal :=
  0 + ∑ t, p t b n

def logit {N : Nat} (x : Fin N → Fin 64 → EReal) (agg : Fin N → Fin 128 → EReal) (ub : Fin N → Fin 8 → EReal)
    (kx : Fin 64 → Fin 128 → EReal) (ka : Fin 128 → Fin 128 → EReal) (ku : Fin 8 → Fin 128 → EReal)
    (r : Fin N) (j : Fin 128) : EReal :=
  ((∑ q, x r q * kx q j) + ∑ q, agg r q * ka q j) + ∑ q, ub r q * ku q j

def colMax {N : Nat} (l : Fin N → Fin 128 → EReal) (j : Fin 128) : EReal :=
  Finset.univ.sup fun r => l r j

def colSum {N : Nat} (l : Fin N → Fin 128 → EReal) (j : Fin 128) : EReal :=
  ∑ r, Ideal.exp (l r j - colMax l j)

def attn1 {N : Nat} (l : Fin N → Fin 128 → EReal) (cmax inv : Fin 128 → EReal) (r : Fin N) (j : Fin 128) : EReal :=
  Ideal.exp (l r j - cmax j) * inv j

def attn2 {N : Nat} (a1 : Fin N → Fin 128 → EReal) (r : Fin N) (j : Fin 128) : EReal :=
  Ideal.div (a1 r j) (∑ i, a1 r i)

def attnOut {N : Nat} (a2 : Fin N → Fin 128 → EReal) (mv : Fin 128 → Fin 264 → EReal) (r : Fin N) (q : Fin 264) : EReal :=
  ∑ j, a2 r j * mv j q

def nodeHid {N : Nat} (ao : Fin N → Fin 264 → EReal) (w1 : Fin 264 → Fin 128 → EReal) (b1 : Fin 128 → EReal)
    (r : Fin N) (k : Fin 128) : EReal :=
  relu ((∑ q, ao r q * w1 q k) + b1 k)

def nodeOut {N : Nat} (hid : Fin N → Fin 128 → EReal) (w2 : Fin 128 → Fin 128 → EReal) (b2 : Fin 128 → EReal)
    (r : Fin N) (n : Fin 128) : EReal :=
  (∑ k, hid r k * w2 k n) + b2 n

def globHid (u : Fin 64 → Fin 8 → EReal) (na ea : Fin 64 → Fin 128 → EReal)
    (wu : Fin 8 → Fin 128 → EReal) (wn we : Fin 128 → Fin 128 → EReal) (b1 : Fin 128 → EReal)
    (b : Fin 64) (k : Fin 128) : EReal :=
  relu ((((∑ q, u b q * wu q k) + ∑ q, na b q * wn q k) + ∑ q, ea b q * we q k) + b1 k)

def globOut (hid : Fin 64 → Fin 128 → EReal) (w2 : Fin 128 → Fin 128 → EReal) (b2 : Fin 128 → EReal)
    (b : Fin 64) (n : Fin 128) : EReal :=
  (∑ k, hid b k * w2 k n) + b2 n

end Cert.Spec

end
-- ==== Proof.Val.V0.lean ====
import proofs.«429701_j48541720379569_3_alg».proof.Proof.FrameKI.R0
import proofs.«429701_j48541720379569_3_alg».proof.Proof.Val.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember

noncomputable section

namespace Cert.KernelIdeal.HandV

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

variable (V : (c : Dev nD) → (b : Ref sig .tc) → Buf (Elt Ideal) ((c : Thread nD τ).loc b))

namespace E0

/-- Entry `(p, j)` of a matrix product with nothing added to it: `∑ q, a p q * b q j`. -/
theorem mm_apply {m k n : Nat} {φ₁ φ₂ : FTy} (D : DotDims ⟨2, ![m, k]⟩ ⟨2, ![k, n]⟩ ⟨2, ![m, n]⟩) (hD : D = DotDims.plain m k n)
    (a : FVec Ideal ⟨2, ![m, k]⟩ φ₁) (b : FVec Ideal ⟨2, ![k, n]⟩ φ₂) (p : Fin m) (j : Fin n) :
    matmul D none a b (constant (F := Ideal) ⟨2, ![m, n]⟩ .f32 0x00000000#32) (ix2 p j) = ∑ q : Fin k, a (ix2 p q) * b (ix2 q j) := by
  rw [hD, matmul_zero_eq_dotGeneral, StackMember.dotGeneral_plain_apply]

/-- The same when both factors are indexed by the summed row: `∑ r, a r g * b r n`. -/
theorem mm_rows_apply {φ₁ φ₂ : FTy} (a : FVec Ideal S4000x64 φ₁) (b : FVec Ideal S4000x128 φ₂) (g : Fin 64) (n : Fin 128) :
    matmul dot_S4000x64_S4000x128_S64x128_0_0_1_1_n_n none a b (constant (F := Ideal) S64x128 .f32 0x00000000#32) (ix2 g n)
      = ∑ r : Fin 4000, a (ix2 r g) * b (ix2 r n) := by
  simp only [matmul]
  rw [Ideal.matmul_constant_zero_apply, ← Equiv.sum_comp (contrEquiv1 dot_S4000x64_S4000x128_S64x128_0_0_1_1_n_n 4000 rfl rfl).symm]
  refine Finset.sum_congr rfl fun q _ => ?_
  have hq := contrEquiv1_symm_val dot_S4000x64_S4000x128_S64x128_0_0_1_1_n_n 4000 rfl rfl q
  congr 2 <;> exact Shape.idx_ext₂ hq rfl

theorem bias_apply (v : FVec Ideal S1x128 .f32) (p : Fin 4000) (k : Fin 128) :
    broadcastTo S4000x128 v broadcasts_S1x128_S4000x128 (ix2 p k) = v (ix2 (0 : Fin 1) k) :=
  broadcastTo_1b_ab_apply v broadcasts_S1x128_S4000x128 p k

theorem hid_apply (x0 x1 : Vec Ideal S4000x64 .bf16) (x2 : Vec Ideal S4000x16 .f32) (x3 : Vec Ideal S4000x8 .f32)
    (x5 x6 : Vec Ideal S64x128 .f32) (x7 : Vec Ideal S16x128 .f32) (x8 : Vec Ideal S8x128 .f32) (x9 : Vec Ideal S1x128 .f32)
    (p : Fin 4000) (k : Fin 128) :
    k0_pay3 (F := Ideal) x0 x1 x2 x3 x5 x6 x7 x8 x9 (ix2 p k)
      = Spec.relu ((((∑ q : Fin 64, x0 (ix2 p q) * x5 (ix2 q k)) + ∑ q : Fin 64, x1 (ix2 p q) * x6 (ix2 q k))
          + ∑ q : Fin 16, x2 (ix2 p q) * x7 (ix2 q k)) + (∑ q : Fin 8, x3 (ix2 p q) * x8 (ix2 q k)) + x9 (ix2 (0 : Fin 1) k)) := by
  unfold k0_pay3
  simp only [truncf_apply, maximumf_apply, addf_apply, broadcast_apply, shapeCast_self, mm_apply dot_S4000x64_S64x128_S4000x128_1_0_0_1_n_n rfl, mm_apply dot_S4000x16_S16x128_S4000x128_1_0_0_1_n_n rfl, mm_apply dot_S4000x8_S8x128_S4000x128_1_0_0_1_n_n rfl, bias_apply]
  show max _ (Ideal.ofBits .f32 0x00000000#32) = _
  rw [Ideal.ofBits_zero_f32]
  rfl

theorem out_apply (h : FVec Ideal S4000x128 .bf16) (w2 : Vec Ideal S128x128 .f32) (b2 : Vec Ideal S1x128 .f32) (p : Fin 4000) (n : Fin 128) :
    k0_pay1 (F := Ideal) h w2 b2 (ix2 p n) = (∑ k : Fin 128, h (ix2 p k) * w2 (ix2 k n)) + b2 (ix2 (0 : Fin 1) n) := by
  unfold k0_pay1
  simp only [addf_apply, mm_apply dot_S4000x128_S128x128_S4000x128_1_0_0_1_n_n rfl, shapeCast_self, bias_apply, truncf_apply]

theorem oneHot_word (g : Fin 64) (w : BitVec 32) :
    (FloatOps.sitofp (F := Ideal) .f32 ((IntOp.cmpi .eq (BitVec.ofNat 32 g.val) w).setWidth 32) : EReal) = Spec.oneHot g w := by
  unfold Spec.oneHot IntOp.cmpi
  by_cases h : BitVec.ofNat 32 g.val = w
  · rw [if_pos h, show (BitVec.ofNat 32 g.val == w) = true from beq_iff_eq.mpr h]
    show (((BitVec.setWidth 32 (BitVec.ofBool true)).toInt : ℝ) : EReal) = 1
    rw [show (BitVec.setWidth 32 (BitVec.ofBool true)).toInt = 1 from by decide]
    simp
  · rw [if_neg h, show (BitVec.ofNat 32 g.val == w) = false from beq_eq_false_iff_ne.mpr h]
    show (((BitVec.setWidth 32 (BitVec.ofBool false)).toInt : ℝ) : EReal) = 0
    rw [show (BitVec.setWidth 32 (BitVec.ofBool false)).toInt = 0 from by decide]
    simp

theorem ids_apply (v : IVec S4000x1 32) (r : Fin 4000) (g : Fin 64) :
    broadcastTo S4000x64 v broadcasts_S4000x1_S4000x64 (ix2 r g) = v (ix2 r (0 : Fin 1)) := by
  refine broadcastTo_apply v broadcasts_S4000x1_S4000x64 (ix2 r g) (ix2 r (0 : Fin 1)) fun ax => ?_
  match ax with
  | ⟨0, _⟩ =>
    show r.val = if (4000 : Nat) = 1 then 0 else r.val
    rw [if_neg (by decide)]
  | ⟨1, _⟩ => rfl

theorem agg_apply (h : FVec Ideal S4000x128 .bf16) (w2 : Vec Ideal S128x128 .f32) (b2 : Vec Ideal S1x128 .f32) (ids : Vec Ideal S4000x1 .i32)
    (u : Fin 1) (g : Fin 64) (n : Fin 128) :
    k0_pay2 (F := Ideal) h w2 b2 ids (ix3 u g n)
      = ∑ r : Fin 4000, Spec.oneHot g (ids (ix2 r (0 : Fin 1))) * k0_pay1 (F := Ideal) h w2 b2 (ix2 r n) := by
  unfold k0_pay2
  rw [shapeCast_ab_1ab_apply, mm_rows_apply]
  refine Finset.sum_congr rfl fun r _ => ?_
  congr 1
  simp only [truncf_apply, sitofp_apply, extui_apply, shapeCast_self]
  unfold cmpi
  rw [iota_single_apply, ids_apply]
  exact oneHot_word g _

theorem hz2 : (![0, 0] : Fin 2 → Nat) = fun _ => 0 := funext fun a => by fin_cases a <;> rfl
theorem hz3 : (![0, 0, 0] : Fin 3 → Nat) = fun _ => 0 := funext fun a => by fin_cases a <;> rfl

/-- All fourteen index maps at once, by evaluation at the 80 points. -/
theorem idx0 : ∀ (w : Fin cfg0.W) (t : Fin cfg0.N) (a : Fin (cfg0.win w).shape.rank),
    (cfg0.win w).index t a = if a.val = 0 ∧ (w.val < 5 ∨ 12 ≤ w.val) then t.val else 0 :=
  (by decide +kernel : ∀ (w : Fin 14) (t : Fin grid0.N) (a : Fin (win0 w).shape.rank),
    (win0 w).index t a = if a.val = 0 ∧ (w.val < 5 ∨ 12 ≤ w.val) then t.val else 0)

/-- Where an element of a point's block sits in its array, coordinate by coordinate. -/
theorem emb0 (w : Fin cfg0.W) (t : Fin cfg0.N) (y : ((cfg0.win w).xblock (cfg0.grid.coords t)).Idx) (a : Fin (cfg0.win w).shape.rank) :
    (((cfg0.win w).rect t).emb y a : ℕ) = if a.val = 0 ∧ (w.val < 5 ∨ 12 ≤ w.val) then t.val * (cfg0.win w).size a + y a else y a := by
  rw [(cfg0.win w).rect_emb_val, idx0]
  by_cases h : a.val = 0 ∧ (w.val < 5 ∨ 12 ≤ w.val) <;> simp [h]

theorem iblk0_0_apply (c : Dev nD) (t : Fin cfg0.N) (p : Fin 4000) (q : Fin 64) :
    (iblk0 V c 0 t : Vec Ideal S4000x64 .bf16) (ix2 p q) = (V c main_v11 : S320000x64.Idx → EReal) (ix2 (Spec.tileRow (t.cast N_0) p) q) :=
  congrArg (V c main_v11) (Shape.idx_ext₂ (emb0 0 t _ (0 : Fin 2)) (emb0 0 t _ (1 : Fin 2)))
theorem iblk0_1_apply (c : Dev nD) (t : Fin cfg0.N) (p : Fin 4000) (q : Fin 64) :
    (iblk0 V c 1 t : Vec Ideal S4000x64 .bf16) (ix2 p q) = (V c main_v18 : S320000x64.Idx → EReal) (ix2 (Spec.tileRow (t.cast N_0) p) q) :=
  congrArg (V c main_v18) (Shape.idx_ext₂ (emb0 1 t _ (0 : Fin 2)) (emb0 1 t _ (1 : Fin 2)))
theorem iblk0_2_apply (c : Dev nD) (t : Fin cfg0.N) (p : Fin 4000) (q : Fin 16) :
    (iblk0 V c 2 t : Vec Ideal S4000x16 .f32) (ix2 p q) = (V c main_arg1 : S320000x16.Idx → EReal) (ix2 (Spec.tileRow (t.cast N_0) p) q) :=
  congrArg (V c main_arg1) (Shape.idx_ext₂ (emb0 2 t _ (0 : Fin 2)) (emb0 2 t _ (1 : Fin 2)))
theorem iblk0_3_apply (c : Dev nD) (t : Fin cfg0.N) (p : Fin 4000) (q : Fin 8) :
    (iblk0 V c 3 t : Vec Ideal S4000x8 .f32) (ix2 p q) = (V c main_v32 : S320000x8.Idx → EReal) (ix2 (Spec.tileRow (t.cast N_0) p) q) :=
  congrArg (V c main_v32) (Shape.idx_ext₂ (emb0 3 t _ (0 : Fin 2)) (emb0 3 t _ (1 : Fin 2)))
theorem iblk0_4_apply (c : Dev nD) (t : Fin cfg0.N) (p : Fin 4000) (q : Fin 1) :
    (iblk0 V c 4 t : Vec Ideal S4000x1 .i32) (ix2 p q) = (V c main_v53 : S320000x1.Idx → BitVec 32) (ix2 (Spec.tileRow (t.cast N_0) p) q) :=
  congrArg (V c main_v53) (Shape.idx_ext₂ (emb0 4 t _ (0 : Fin 2)) (emb0 4 t _ (1 : Fin 2)))
theorem iblk0_5 (c : Dev nD) (t : Fin cfg0.N) : (iblk0 V c 5 t : Vec Ideal S64x128 .f32) = V c main_v47 :=
  funext fun y => congrArg (V c main_v47) (Shape.idx_ext₂ (emb0 5 t y (0 : Fin 2)) (emb0 5 t y (1 : Fin 2)))
theorem iblk0_6 (c : Dev nD) (t : Fin cfg0.N) : (iblk0 V c 6 t : Vec Ideal S64x128 .f32) = V c main_v48 :=
  funext fun y => congrArg (V c main_v48) (Shape.idx_ext₂ (emb0 6 t y (0 : Fin 2)) (emb0 6 t y (1 : Fin 2)))
theorem iblk0_7 (c : Dev nD) (t : Fin cfg0.N) : (iblk0 V c 7 t : Vec Ideal S16x128 .f32) = V c main_v49 :=
  funext fun y => congrArg (V c main_v49) (Shape.idx_ext₂ (emb0 7 t y (0 : Fin 2)) (emb0 7 t y (1 : Fin 2)))
theorem iblk0_8 (c : Dev nD) (t : Fin cfg0.N) : (iblk0 V c 8 t : Vec Ideal S8x128 .f32) = V c main_v50 :=
  funext fun y => congrArg (V c main_v50) (Shape.idx_ext₂ (emb0 8 t y (0 : Fin 2)) (emb0 8 t y (1 : Fin 2)))
theorem iblk0_9 (c : Dev nD) (t : Fin cfg0.N) : (iblk0 V c 9 t : Vec Ideal S1x128 .f32) = V c main_v51 :=
  funext fun y => congrArg (V c main_v51) (Shape.idx_ext₂ (emb0 9 t y (0 : Fin 2)) (emb0 9 t y (1 : Fin 2)))
theorem iblk0_10 (c : Dev nD) (t : Fin cfg0.N) : (iblk0 V c 10 t : Vec Ideal S128x128 .f32) = V c main_arg5 :=
  funext fun y => congrArg (V c main_arg5) (Shape.idx_ext₂ (emb0 10 t y (0 : Fin 2)) (emb0 10 t y (1 : Fin 2)))
theorem iblk0_11 (c : Dev nD) (t : Fin cfg0.N) : (iblk0 V c 11 t : Vec Ideal S1x128 .f32) = V c main_v52 :=
  funext fun y => congrArg (V c main_v52) (Shape.idx_ext₂ (emb0 11 t y (0 : Fin 2)) (emb0 11 t y (1 : Fin 2)))

/-- The edge perceptron's output on the arrays the region is entered with. -/
def M (c : Dev nD) : Fin (80 * 4000) → Fin 128 → EReal :=
  Spec.edgeOut (E := 80 * 4000) (Spec.edgeHid (fun r q => (V c main_v11 : S320000x64.Idx → EReal) (ix2 r q)) (fun r q => (V c main_v18 : S320000x64.Idx → EReal) (ix2 r q))
          (fun r q => (V c main_arg1 : S320000x16.Idx → EReal) (ix2 r q)) (fun r q => (V c main_v32 : S320000x8.Idx → EReal) (ix2 r q))
          (fun q k => (V c main_v47 : S64x128.Idx → EReal) (ix2 q k)) (fun q k => (V c main_v48 : S64x128.Idx → EReal) (ix2 q k))
          (fun q k => (V c main_v49 : S16x128.Idx → EReal) (ix2 q k)) (fun q k => (V c main_v50 : S8x128.Idx → EReal) (ix2 q k))
          (fun k => (V c main_v51 : S1x128.Idx → EReal) (ix2 (0 : Fin 1) k)))
        (fun k n => (V c main_arg5 : S128x128.Idx → EReal) (ix2 k n)) (fun n => (V c main_v52 : S1x128.Idx → EReal) (ix2 (0 : Fin 1) n))

/-- Its one-hot sums, tile by tile. -/
def P (c : Dev nD) : Fin 80 → Fin 64 → Fin 128 → EReal :=
  Spec.tilePart (G := 80) (T := 4000) (M V c) (fun r => (V c main_v53 : S320000x1.Idx → BitVec 32) (ix2 r (0 : Fin 1)))

theorem msg_block (c : Dev nD) (t : Fin cfg0.N) (p : Fin 4000) (n : Fin 128) :
    k0_pay1 (F := Ideal) (k0_pay3 (F := Ideal) (iblk0 V c 0 t) (iblk0 V c 1 t) (iblk0 V c 2 t) (iblk0 V c 3 t) (iblk0 V c 5 t) (iblk0 V c 6 t) (iblk0 V c 7 t) (iblk0 V c 8 t) (iblk0 V c 9 t)) (iblk0 V c 10 t) (iblk0 V c 11 t) (ix2 p n)
      = M V c (Spec.tileRow (t.cast N_0) p) n := by
  rw [out_apply]
  unfold M Spec.edgeOut Spec.edgeHid
  simp only [hid_apply, iblk0_0_apply, iblk0_1_apply, iblk0_2_apply, iblk0_3_apply, iblk0_5, iblk0_6, iblk0_7, iblk0_8, iblk0_9, iblk0_10, iblk0_11]

theorem agg_block (c : Dev nD) (t : Fin cfg0.N) (u : Fin 1) (g : Fin 64) (n : Fin 128) :
    k0_pay2 (F := Ideal) (k0_pay3 (F := Ideal) (iblk0 V c 0 t) (iblk0 V c 1 t) (iblk0 V c 2 t) (iblk0 V c 3 t) (iblk0 V c 5 t) (iblk0 V c 6 t) (iblk0 V c 7 t) (iblk0 V c 8 t) (iblk0 V c 9 t)) (iblk0 V c 10 t) (iblk0 V c 11 t) (iblk0 V c 4 t) (ix3 u g n)
      = P V c (t.cast N_0) g n := by
  rw [agg_apply]
  unfold P Spec.tilePart
  exact Finset.sum_congr rfl fun r _ => by rw [iblk0_4_apply, msg_block]

theorem idx_ext₃ {n : Fin 3 → ℕ} {x y : (a : Fin 3) → Fin (n a)} (h0 : (x 0 : ℕ) = y 0) (h1 : (x 1 : ℕ) = y 1) (h2 : (x 2 : ℕ) = y 2) : x = y :=
  funext fun a => Fin.ext <| match a with | ⟨0, _⟩ => h0 | ⟨1, _⟩ => h1 | ⟨2, _⟩ => h2

theorem ld0 {Val : EltTy → Type} {S : Shape} {e : EltTy} {off : Fin S.rank → Nat} {inb : ∀ a, off a + S.size a ≤ S.size a}
    (X : S.Idx → Val e) (h : ∀ a, off a = 0) : View.ld X (Rect.unit off S.size inb) = X := View.ld_unit_zero (funext h) inb X

/-- Reading any array through a point's block of window 12: block row `p` is array row `4000 t + p`. -/
theorem read12 (G : S320000x128.Idx → EReal) (t : Fin cfg0.N) (p : Fin 4000) (n : Fin 128) :
    ((cfg0.win 12).blk t).view.read (Elt Ideal) G (ix2 p n) = G (ix2 (Spec.tileRow (t.cast N_0) p) n) :=
  congrArg G (Shape.idx_ext₂ (emb0 12 t _ (0 : Fin 2)) (emb0 12 t _ (1 : Fin 2)))

/-- Through window 13, whose tiles have size one on the first axis: the tile's number replaces the first coordinate. -/
theorem read13 (G : S80x64x128.Idx → EReal) (t : Fin cfg0.N) (u : Fin 1) (g : Fin 64) (n : Fin 128) :
    ((cfg0.win 13).blk t).view.read (Elt Ideal) G (ix3 u g n) = G (ix3 (t.cast N_0) g n) :=
  congrArg G (idx_ext₃ ((emb0 13 t _ (0 : Fin 3)).trans (by have := u.isLt; show t.val * 1 + u.val = t.val; omega))
    (emb0 13 t _ (1 : Fin 3)) (emb0 13 t _ (2 : Fin 3)))

theorem flushed12_eq (c : Dev nD) (t : Fin cfg0.N) :
    (dat0 (F := Ideal) V c).flushed 12 t = ((cfg0.win 12).blk t).view.read (Elt Ideal) (fun i => M V c (i 0) (i 1)) := by
  show (cfg0.win 12).cut (grid0.coords t) ((dat0 (F := Ideal) V c).after 12 t) = _
  rw [after0_12]
  unfold out0_12
  rw [View.canon_unit_zero hz2]
  simp (disch := decide) only [ld0]
  funext j
  obtain ⟨p, n, rfl⟩ : ∃ (p : Fin 4000) (n : Fin 128), j = ix2 p n := ⟨j 0, j 1, eq_ix2 j⟩
  rw [read12]
  exact msg_block V c t p n

theorem flushed13_eq (c : Dev nD) (t : Fin cfg0.N) :
    (dat0 (F := Ideal) V c).flushed 13 t = ((cfg0.win 13).blk t).view.read (Elt Ideal) (fun i => P V c (i 0) (i 1) (i 2)) := by
  show (cfg0.win 13).cut (grid0.coords t) ((dat0 (F := Ideal) V c).after 13 t) = _
  rw [after0_13]
  unfold out0_13
  rw [View.canon_unit_zero hz3]
  simp (disch := decide) only [ld0]
  funext j
  obtain ⟨u, g, n, rfl⟩ : ∃ (u : Fin 1) (g : Fin 64) (n : Fin 128), j = ix3 u g n := ⟨j 0, j 1, j 2, eq_ix3 j⟩
  rw [read13]
  exact agg_block V c t u g n

/-- `i₀ = i₀ / 4000 * 4000 + i₀ % 4000`: every row falls in a tile. -/
theorem cover12 (i : S320000x128.Idx) : ∃ t : Fin cfg0.N, (cfg0.win 12).flush t = true ∧ i ∈ ((cfg0.win 12).blk t).view.set := by
  have h0 := idx2_lt0 i
  refine ⟨⟨(i 0).val / 4000, by rw [show cfg0.N = 80 from N_0]; omega⟩, flush0_12 _, ?_⟩
  exact Finset.mem_map.mpr ⟨ix2 (⟨(i 0).val % 4000, Nat.mod_lt _ (by decide)⟩ : Fin 4000) (i 1 : Fin 128), Finset.mem_univ _,
    Shape.idx_ext₂ ((emb0 12 _ _ (0 : Fin 2)).trans (Nat.div_add_mod' (i 0).val 4000)) (emb0 12 _ _ (1 : Fin 2))⟩

/-- On the first axis the tiles have size one: index `i₀` is its own tile. -/
theorem cover13 (i : S80x64x128.Idx) : ∃ t : Fin cfg0.N, (cfg0.win 13).flush t = true ∧ i ∈ ((cfg0.win 13).blk t).view.set :=
  ⟨(i 0).cast N_0.symm, flush0_13 _, Finset.mem_map.mpr ⟨ix3 (0 : Fin 1) (i 1) (i 2), Finset.mem_univ _,
    idx_ext₃ ((emb0 13 _ _ (0 : Fin 3)).trans (Nat.mul_one _)) (emb0 13 _ _ (1 : Fin 3)) (emb0 13 _ _ (2 : Fin 3))⟩⟩

end E0

open E0

theorem final0_12 (c : Dev nD) (r : Fin (80 * 4000)) (n : Fin 128) :
    ((dat0 (F := Ideal) V c).arrAt 12 cfg0.N : S320000x128.Idx → EReal) (ix2 r n)
      = (Spec.edgeOut (E := 80 * 4000) (Spec.edgeHid (fun r q => (V c main_v11 : S320000x64.Idx → EReal) (ix2 r q)) (fun r q => (V c main_v18 : S320000x64.Idx → EReal) (ix2 r q))
          (fun r q => (V c main_arg1 : S320000x16.Idx → EReal) (ix2 r q)) (fun r q => (V c main_v32 : S320000x8.Idx → EReal) (ix2 r q))
          (fun q k => (V c main_v47 : S64x128.Idx → EReal) (ix2 q k)) (fun q k => (V c main_v48 : S64x128.Idx → EReal) (ix2 q k))
          (fun q k => (V c main_v49 : S16x128.Idx → EReal) (ix2 q k)) (fun q k => (V c main_v50 : S8x128.Idx → EReal) (ix2 q k))
          (fun k => (V c main_v51 : S1x128.Idx → EReal) (ix2 (0 : Fin 1) k)))
        (fun k n => (V c main_arg5 : S128x128.Idx → EReal) (ix2 k n)) (fun n => (V c main_v52 : S1x128.Idx → EReal) (ix2 (0 : Fin 1) n))) r n :=
  congrFun ((dat0 (F := Ideal) V c).arrAt_eq_of_cover 12 (fun i => M V c (i 0) (i 1)) (fun t _ => flushed12_eq V c t) cover12) (ix2 r n)

theorem final0_13 (c : Dev nD) (t : Fin 80) (b : Fin 64) (n : Fin 128) :
    ((dat0 (F := Ideal) V c).arrAt 13 cfg0.N : S80x64x128.Idx → EReal) (ix3 t b n)
      = Spec.tilePart (G := 80) (T := 4000) (Spec.edgeOut (E := 80 * 4000) (Spec.edgeHid (fun r q => (V c main_v11 : S320000x64.Idx → EReal) (ix2 r q)) (fun r q => (V c main_v18 : S320000x64.Idx → EReal) (ix2 r q))
          (fun r q => (V c main_arg1 : S320000x16.Idx → EReal) (ix2 r q)) (fun r q => (V c main_v32 : S320000x8.Idx → EReal) (ix2 r q))
          (fun q k => (V c main_v47 : S64x128.Idx → EReal) (ix2 q k)) (fun q k => (V c main_v48 : S64x128.Idx → EReal) (ix2 q k))
          (fun q k => (V c main_v49 : S16x128.Idx → EReal) (ix2 q k)) (fun q k => (V c main_v50 : S8x128.Idx → EReal) (ix2 q k))
          (fun k => (V c main_v51 : S1x128.Idx → EReal) (ix2 (0 : Fin 1) k)))
        (fun k n => (V c main_arg5 : S128x128.Idx → EReal) (ix2 k n)) (fun n => (V c main_v52 : S1x128.Idx → EReal) (ix2 (0 : Fin 1) n)))
          (fun r => (V c main_v53 : S320000x1.Idx → BitVec 32) (ix2 r (0 : Fin 1))) t b n :=
  congrFun ((dat0 (F := Ideal) V c).arrAt_eq_of_cover 13 (fun i => P V c (i 0) (i 1) (i 2)) (fun t _ => flushed13_eq V c t) cover13) (ix3 t b n)

end Cert.KernelIdeal.HandV

end
-- ==== Proof.Val.RefGen.lean ====
import proofs.«429701_j48541720379569_3_alg».proof.Proof.Val.RefP
-- ==== Proof.Val.KR0.lean ====
import proofs.«429701_j48541720379569_3_alg».proof.Proof.FrameKI.Run
import proofs.«429701_j48541720379569_3_alg».proof.Proof.Val.RefGen
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.SL.Sem
open Idealize.ShloMosaic.ValueIdx
open Cert.ReferenceIdeal.ReadP

variable (m : (ℓ : Loc nD τ sig) → Buf (Elt Ideal) ℓ) (ρ : Dev nD → PrngReg) (c : Dev nD)

theorem kr0_V2 (r : Ref sig .tc) :
    V2 m ρ c r = StableHlo.after main_part1_ops0 (StableHlo.after main_part0_ops0 (W0 m ρ c)) (Proc.devRef .tc r) := rfl

theorem kr0_v11 : (V2 m ρ c main_v11 : S320000x64.Idx → EReal)
    = val_main_v10 (F := Ideal) (m ((c : Thread nD τ).loc main_arg0)) (m ((c : Thread nD τ).loc main_arg17)) := by
  rw [kr0_V2]; after_results_simp; rfl

theorem kr0_v18 : (V2 m ρ c main_v18 : S320000x64.Idx → EReal)
    = val_main_v17 (F := Ideal) (m ((c : Thread nD τ).loc main_arg0)) (m ((c : Thread nD τ).loc main_arg17)) := by
  rw [kr0_V2]; after_results_simp; rfl

theorem kr0_arg1 : V2 m ρ c main_arg1 = m ((c : Thread nD τ).loc main_arg1) := by
  rw [kr0_V2]; after_results_simp

theorem kr0_v32 : (V2 m ρ c main_v32 : S320000x8.Idx → EReal)
    = val_main_v31 (F := Ideal) (m ((c : Thread nD τ).loc main_arg2)) (m ((c : Thread nD τ).loc main_arg17))
        (m ((c : Thread nD τ).loc main_arg18)) := by
  rw [kr0_V2]; after_results_simp; rfl

theorem kr0_v53 (r : Fin 320000) : (V2 m ρ c main_v53 : S320000x1.Idx → BitVec 32) (ix2 r 0)
    = val_main_v98 (F := Ideal) (m ((c : Thread nD τ).loc main_arg17)) (m ((c : Thread nD τ).loc main_arg18)) (ix1 r) := by
  rw [kr0_V2]; after_results_simp
  exact shapeCast_apply _ shapeCasts_S320000_S320000x1 (ix2 r 0) (ix1 r) (by
    rw [Shape.rowMajor_val_two, Shape.rowMajor_val_one]
    show r.val = r.val * 1 + 0
    omega)

theorem kr0_v47 (q : Fin 64) (k : Fin 128) : (V2 m ρ c main_v47 : S64x128.Idx → EReal) (ix2 q k)
    = (m ((c : Thread nD τ).loc main_arg3) : S152x128.Idx → EReal) (ix2 ⟨q.val, by omega⟩ k) := by
  rw [kr0_V2]; after_results_simp
  exact slice2_axis0_apply 0 _ slices_S152x128_S64x128_0_0 q k _ (Nat.zero_add _).symm

theorem kr0_v48 (q : Fin 64) (k : Fin 128) : (V2 m ρ c main_v48 : S64x128.Idx → EReal) (ix2 q k)
    = (m ((c : Thread nD τ).loc main_arg3) : S152x128.Idx → EReal) (ix2 ⟨64 + q.val, by omega⟩ k) := by
  rw [kr0_V2]; after_results_simp
  exact slice2_axis0_apply 64 _ slices_S152x128_S64x128_64_0 q k _ rfl

theorem kr0_v49 (q : Fin 16) (k : Fin 128) : (V2 m ρ c main_v49 : S16x128.Idx → EReal) (ix2 q k)
    = (m ((c : Thread nD τ).loc main_arg3) : S152x128.Idx → EReal) (ix2 ⟨128 + q.val, by omega⟩ k) := by
  rw [kr0_V2]; after_results_simp
  exact slice2_axis0_apply 128 _ slices_S152x128_S16x128_128_0 q k _ rfl

theorem kr0_v50 (q : Fin 8) (k : Fin 128) : (V2 m ρ c main_v50 : S8x128.Idx → EReal) (ix2 q k)
    = (m ((c : Thread nD τ).loc main_arg3) : S152x128.Idx → EReal) (ix2 ⟨144 + q.val, by omega⟩ k) := by
  rw [kr0_V2]; after_results_simp
  exact slice2_axis0_apply 144 _ slices_S152x128_S8x128_144_0 q k _ rfl

theorem kr0_v51 (k : Fin 128) : (V2 m ρ c main_v51 : S1x128.Idx → EReal) (ix2 0 k)
    = (m ((c : Thread nD τ).loc main_arg4) : S128.Idx → EReal) (ix1 k) := by
  rw [kr0_V2]; after_results_simp
  exact shapeCast_a_1a_apply _ shapeCasts_S128_S1x128 0 k

theorem kr0_arg5 : V2 m ρ c main_arg5 = m ((c : Thread nD τ).loc main_arg5) := by
  rw [kr0_V2]; after_results_simp

theorem kr0_v52 (n : Fin 128) : (V2 m ρ c main_v52 : S1x128.Idx → EReal) (ix2 0 n)
    = (m ((c : Thread nD τ).loc main_arg6) : S128.Idx → EReal) (ix1 n) := by
  rw [kr0_V2]; after_results_simp
  exact shapeCast_a_1a_apply _ shapeCasts_S128_S1x128 0 n

end Cert.KernelIdeal.HandV

end
-- ==== Proof.Val.KR12Raw.lean ====
import proofs.«429701_j48541720379569_3_alg».proof.Proof.FrameKI.Run
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand Idealize.ShloMosaic Idealize.ShloMosaic.ValueIdx
open Idealize.ShloMosaic.TcCoe Idealize.SL.Sem Idealize.ShloMosaic.StableHlo
open Idealize.ShloMosaic.Pipeline (Dat)

/-- Every operation of `ops` writes exactly one buffer, numbered `lo` or higher. -/
def Writes (ops : List (HloOp τ sig (Elt Ideal))) (lo : ℕ) : Prop :=
  ops.Forall fun op => ∃ y : Ref sig .tc, op.writes = {Proc.devRef .tc y} ∧ lo ≤ y.idx.val

/-- So a buffer numbered below `lo` is unchanged by `ops`. -/
theorem Writes.kept {ops : List (HloOp τ sig (Elt Ideal))} {lo : ℕ} (h : Writes ops lo) (V : Valuation τ sig (Elt Ideal))
    (r : Ref sig .tc) (hr : r.idx.val < lo := by decide) : StableHlo.after ops V (Proc.devRef .tc r) = V (Proc.devRef .tc r) :=
  StableHlo.after_of_forall_not_mem ops V fun op hop hb => by
    obtain ⟨y, e, hy⟩ := List.forall_iff_forall_mem.mp h op hop
    rw [e, Finset.mem_singleton] at hb
    cases Proc.devRef_injective _ hb
    omega

theorem host_writes : Writes main_part0_ops0 19 ∧ Writes main_part1_ops0 79 ∧ Writes main_part1_ops1 87 ∧
    Writes main_part1_ops2 99 ∧ Writes main_part1_ops3 107 := by
  refine ⟨?_, ?_, ?_, ?_, ?_⟩ <;> simp only [Writes, List.Forall] <;> (repeat' apply And.intro) <;> exact ⟨_, rfl, by decide⟩

theorem wr1 : Writes main_part0_ops0 19 := host_writes.1
theorem wr2 : Writes main_part1_ops0 79 := host_writes.2.1
theorem wr4 : Writes main_part1_ops1 87 := host_writes.2.2.1
theorem wr6 : Writes main_part1_ops2 99 := host_writes.2.2.2.1
theorem wr8 : Writes main_part1_ops3 107 := host_writes.2.2.2.2

theorem ofBits_one_f32 : Ideal.ofBits .f32 0x3F800000#32 = 1 := by
  simp [Ideal.ofBits, Ideal.ieee, -EReal.coe_mul]; norm_num

section Walk

variable (m : (ℓ : Loc nD τ sig) → Buf (Elt Ideal) ℓ) (ρ : Dev nD → PrngReg) (c : Dev nD)

theorem W3_launch (b : Ref sig .tc) (h0 : ∀ w, Pipeline.arrRef spec0 w ≠ b := by decide) (h : b.idx.val < 19 := by decide) :
    W3 m ρ c (Proc.devRef .tc b) = m ((c : Thread nD τ).loc b) :=
  (W3_of_ne m ρ c b h0).trans ((wr2.kept _ b (by omega)).trans (wr1.kept _ b h))

theorem W5_launch (b : Ref sig .tc) (h0 : ∀ w, Pipeline.arrRef spec0 w ≠ b := by decide) (h1 : ∀ w, Pipeline.arrRef spec1 w ≠ b := by decide)
    (h : b.idx.val < 19 := by decide) : W5 m ρ c (Proc.devRef .tc b) = m ((c : Thread nD τ).loc b) :=
  (W5_of_ne m ρ c b h1).trans ((wr4.kept _ b (by omega)).trans (W3_launch m ρ c b h0 h))

set_option maxHeartbeats 4000000 in
theorem kr_agg_raw : (V4 m ρ c main_v57 : S20000x128.Idx → EReal)
    = Host.scatterAdd (F := Ideal) (φ := .f32) scatter_S20000x128_S320000x1_S320000x128_1_0_0_1
        (broadcastInDim S20000x128 ![] bcast_S_S20000x128 (constant (F := Ideal) S_ .f32 0x00000000#32))
        (broadcastInDim S320000x1 ![0] bcast_S320000_S320000x1_0
          (shapeCast S320000 (extractStridedSlice S1x320000 ![1, 0] (m ((c : Thread nD τ).loc main_arg17) : IVec S2x320000 32)
            slices_S2x320000_S1x320000_1_0) shapeCasts_S1x320000_S320000))
        (V3 m ρ c main_v54_0) := by
  unfold V4 W4
  after_results
  rw [(W3_of_ne m ρ c main_v3 (by decide)).trans (wr2.kept _ main_v3)]
  unfold W1
  after_results_simp <;> rfl

theorem kr4_arg0 : V4 m ρ c main_arg0 = m ((c : Thread nD τ).loc main_arg0) :=
  (wr4.kept _ main_arg0).trans (W3_launch m ρ c main_arg0)

set_option maxHeartbeats 4000000 in
theorem kr4_v39_raw : (V4 m ρ c main_v39 : S20000x8.Idx → EReal)
    = Host.gather gather_S64x8_S20000x1_S20000x8_1_0_n_n_0_1_18 (m ((c : Thread nD τ).loc main_arg2) : Vec Ideal S64x8 .f32)
        (broadcastInDim S20000x1 ![0] bcast_S20000_S20000x1_0
          (select (cmpi .slt (m ((c : Thread nD τ).loc main_arg18) : IVec S20000 32) (broadcastInDim S20000 ![] bcast_S_S20000 (constantI S_ 32 0#32)))
            (addi (m ((c : Thread nD τ).loc main_arg18) : IVec S20000 32) (broadcastInDim S20000 ![] bcast_S_S20000 (constantI S_ 32 64#32)))
            (m ((c : Thread nD τ).loc main_arg18) : IVec S20000 32))) :=
  (wr4.kept _ main_v39).trans ((W3_of_ne m ρ c main_v39 (by decide)).trans ((wr2.kept _ main_v39).trans (by
    unfold W1
    after_results_simp <;> rfl)))

theorem kr4_v61 (q : Fin 64) (j : Fin 128) :
    (V4 m ρ c main_v61 : S64x128.Idx → EReal) (ix2 q j)
      = (m ((c : Thread nD τ).loc main_arg7) : S128x200.Idx → EReal) (ix2 j ⟨q.val, by omega⟩) := by
  rw [← W3_launch m ρ c main_arg7]
  unfold V4 W4
  after_results
  exact (transpose_ix2_apply _ _ q j).trans (slice2_axis1_apply 0 _ _ j q _ (by simp))
theorem kr4_v62 (q : Fin 128) (j : Fin 128) :
    (V4 m ρ c main_v62 : S128x128.Idx → EReal) (ix2 q j)
      = (m ((c : Thread nD τ).loc main_arg7) : S128x200.Idx → EReal) (ix2 j ⟨64 + q.val, by omega⟩) := by
  rw [← W3_launch m ρ c main_arg7]
  unfold V4 W4
  after_results
  exact (transpose_ix2_apply _ _ q j).trans (slice2_axis1_apply 64 _ _ j q _ rfl)
theorem kr4_v63 (q : Fin 8) (j : Fin 128) :
    (V4 m ρ c main_v63 : S8x128.Idx → EReal) (ix2 q j)
      = (m ((c : Thread nD τ).loc main_arg7) : S128x200.Idx → EReal) (ix2 j ⟨192 + q.val, by omega⟩) := by
  rw [← W3_launch m ρ c main_arg7]
  unfold V4 W4
  after_results
  exact (transpose_ix2_apply _ _ q j).trans (slice2_axis1_apply 192 _ _ j q _ rfl)

theorem kr6_in (w : Fin cfg1.W) (hin : (cfg1.win w).isOut = false := by rfl) (h : (Pipeline.arrRef spec1 w).idx.val < 99 := by decide) :
    V6 m ρ c (Pipeline.arrRef spec1 w) = V4 m ρ c (Pipeline.arrRef spec1 w) :=
  (wr6.kept _ _ h).trans ((W5_arr m ρ c w).trans (((dat1 (V4 m ρ) c).arrAt_in w hin _).trans (A_eq1 (V4 m ρ) c w)))

theorem kr6_arg0 : V6 m ρ c main_arg0 = V4 m ρ c main_arg0 := kr6_in m ρ c 0
theorem kr6_v57 : V6 m ρ c main_v57 = V4 m ρ c main_v57 := kr6_in m ρ c 1
theorem kr6_v39 : V6 m ρ c main_v39 = V4 m ρ c main_v39 := kr6_in m ρ c 2
theorem kr6_v61 : V6 m ρ c main_v61 = V4 m ρ c main_v61 := kr6_in m ρ c 3
theorem kr6_v62 : V6 m ρ c main_v62 = V4 m ρ c main_v62 := kr6_in m ρ c 4
theorem kr6_v63 : V6 m ρ c main_v63 = V4 m ρ c main_v63 := kr6_in m ρ c 5

theorem kr6_v64_0 : V6 m ρ c main_v64_0 = (dat1 (F := Ideal) (V4 m ρ) c).arrAt 6 cfg1.N :=
  (wr6.kept _ main_v64_0).trans (W5_arr m ρ c 6)

theorem kr6_v66 (j : Fin 128) : (V6 m ρ c main_v66 : S1x128.Idx → EReal) (ix2 (0 : Fin 1) j)
    = Ideal.div 1 (((dat1 (F := Ideal) (V4 m ρ) c).arrAt 7 cfg1.N : S1x128.Idx → EReal) (ix2 (0 : Fin 1) j)) := by
  rw [← W5_arr m ρ c 7]
  unfold V6 W6
  after_results
  exact congrArg (Ideal.div · _) ((broadcastInDim_apply _ _ _ _ (fun a => a.elim0) fun a => a.elim0).trans ofBits_one_f32)

theorem kr6_arg8 : V6 m ρ c main_arg8 = m ((c : Thread nD τ).loc main_arg8) :=
  (wr6.kept _ main_arg8).trans (W5_launch m ρ c main_arg8)
theorem kr6_arg9 : V6 m ρ c main_arg9 = m ((c : Thread nD τ).loc main_arg9) :=
  (wr6.kept _ main_arg9).trans (W5_launch m ρ c main_arg9)
theorem kr6_arg11 : V6 m ρ c main_arg11 = m ((c : Thread nD τ).loc main_arg11) :=
  (wr6.kept _ main_arg11).trans (W5_launch m ρ c main_arg11)

theorem kr6_v67 (k : Fin 128) : (V6 m ρ c main_v67 : S1x128.Idx → EReal) (ix2 (0 : Fin 1) k)
    = (m ((c : Thread nD τ).loc main_arg10) : S128.Idx → EReal) (ix1 k) := by
  rw [← W5_launch m ρ c main_arg10]
  unfold V6 W6
  after_results
  exact shapeCast_a_1a_apply _ _ 0 k
theorem kr6_v68 (n : Fin 128) : (V6 m ρ c main_v68 : S1x128.Idx → EReal) (ix2 (0 : Fin 1) n)
    = (m ((c : Thread nD τ).loc main_arg12) : S128.Idx → EReal) (ix1 n) := by
  rw [← W5_launch m ρ c main_arg12]
  unfold V6 W6
  after_results
  exact shapeCast_a_1a_apply _ _ 0 n
theorem kr6_v69 (r : Fin 20000) : (V6 m ρ c main_v69 : S20000x1.Idx → BitVec 32) (ix2 r (0 : Fin 1))
    = (m ((c : Thread nD τ).loc main_arg18) : S20000.Idx → BitVec 32) (ix1 r) := by
  rw [← W5_launch m ρ c main_arg18]
  unfold V6 W6
  after_results
  refine shapeCast_apply _ shapeCasts_S20000_S20000x1 _ (ix1 r) ?_
  rw [Shape.rowMajor_val_two, Shape.rowMajor_val_one]
  show r.val = r.val * 1 + 0
  omega

theorem W7_W3 (b : Ref sig .tc) (h1 : ∀ w, Pipeline.arrRef spec1 w ≠ b := by decide) (h2 : ∀ w, Pipeline.arrRef spec2 w ≠ b := by decide)
    (h : b.idx.val < 87 := by decide) : W7 m ρ c (Proc.devRef .tc b) = W3 m ρ c (Proc.devRef .tc b) :=
  (W7_of_ne m ρ c b h2).trans ((wr6.kept _ b (by omega)).trans ((W5_of_ne m ρ c b h1).trans (wr4.kept _ b h)))

theorem kr_e_kept : W9 m ρ c (Proc.devRef .tc main_v54_0) = W3 m ρ c (Proc.devRef .tc main_v54_0) :=
  (W9_of_ne m ρ c main_v54_0 (by decide)).trans ((wr8.kept _ main_v54_0).trans (W7_W3 m ρ c main_v54_0))
theorem kr_part_kept : W7 m ρ c (Proc.devRef .tc main_v54_1) = W3 m ρ c (Proc.devRef .tc main_v54_1) :=
  W7_W3 m ρ c main_v54_1
theorem kr_x_kept : W9 m ρ c (Proc.devRef .tc main_v70_0) = W7 m ρ c (Proc.devRef .tc main_v70_0) :=
  (W9_of_ne m ρ c main_v70_0 (by decide)).trans (wr8.kept _ main_v70_0)

end Walk

end Cert.KernelIdeal.HandV

end
-- ==== Proof.Val.KR12.lean ====
import proofs.«429701_j48541720379569_3_alg».proof.Proof.Val.KR12Raw
import proofs.«429701_j48541720379569_3_alg».proof.Proof.Val.RefGen

set_option maxRecDepth 16384

noncomputable section

namespace Cert.KernelIdeal.HandV

open Cert.KernelIdeal Cert.KernelIdeal.Gen Cert.KernelIdeal.Hand Idealize.ShloMosaic Idealize.ShloMosaic.ValueIdx
open Idealize.ShloMosaic.TcCoe Idealize.SL.Sem Idealize.ShloMosaic.StableHlo
open Idealize.ShloMosaic.Pipeline (Dat)

theorem scatter_rec_eq : Cert.KernelIdeal.scatter_S20000x128_S320000x1_S320000x128_1_0_0_1
    = Cert.ReferenceIdeal.scatter_S20000x128_S320000x1_S320000x128_1_0_0_1 := rfl

variable (m : (ℓ : Loc nD τ sig) → Buf (Elt Ideal) ℓ) (ρ : Dev nD → PrngReg) (c : Dev nD)

theorem kr_agg : (V4 m ρ c main_v57 : S20000x128.Idx → EReal)
    = Host.scatterAdd (F := Ideal) (φ := .f32) scatter_S20000x128_S320000x1_S320000x128_1_0_0_1
        (Cert.ReferenceIdeal.ReadP.val_main_v42 (F := Ideal))
        (Cert.ReferenceIdeal.ReadP.val_main_v43 (F := Ideal) (m ((c : Thread nD τ).loc main_arg17)))
        (V3 m ρ c main_v54_0) :=
  kr_agg_raw m ρ c

theorem kr4_v39 : (V4 m ρ c main_v39 : S20000x8.Idx → EReal)
    = Cert.ReferenceIdeal.ReadP.val_main_v51 (F := Ideal) (m ((c : Thread nD τ).loc main_arg2)) (m ((c : Thread nD τ).loc main_arg18)) :=
  kr4_v39_raw m ρ c

end Cert.KernelIdeal.HandV

end
-- ==== Proof.Val.RefE.lean ====
import proofs.«429701_j48541720379569_3_alg».proof.Proof.Val.RefGen
import proofs.«429701_j48541720379569_3_alg».proof.Proof.Val.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.RefSpec

open Cert.ReferenceIdeal Cert.ReferenceIdeal.Gen Cert.ReferenceIdeal.ReadP Idealize.ShloMosaic Idealize.ShloMosaic.ValueIdx

theorem sum_blocks {M : Type} [AddCommMonoid M] (f : Fin 152 → M) :
    ∑ k, f k = (((∑ q : Fin 64, f ⟨q.val, by omega⟩) + ∑ q : Fin 64, f ⟨64 + q.val, by omega⟩)
      + ∑ q : Fin 16, f ⟨128 + q.val, by omega⟩) + ∑ q : Fin 8, f ⟨144 + q.val, by omega⟩ := by

  show ∑ k : Fin (64 + 64 + 16 + 8), f k = _
  rw [Fin.sum_univ_add, Fin.sum_univ_add, Fin.sum_univ_add]
  rfl

section Join
variable {α : Type} (A B : S320000x64.Idx → α) (C : S320000x16.Idx → α) (D : S320000x8.Idx → α)

abbrev join : S320000x152.Idx → α :=
  concatenate S320000x152 1 [⟨S320000x64, A⟩, ⟨S320000x64, B⟩, ⟨S320000x16, C⟩, ⟨S320000x8, D⟩]
    concatenates_S320000x64_S320000x64_S320000x16_S320000x8_S320000x152_d1

theorem join_a (r : Fin 320000) (q : Fin 64) :
    join A B C D (ix2 r ⟨q.val, by omega⟩) = A (ix2 r q) := by
  refine concatenate_apply_piece (t := S320000x152) 1 _ _ _ 0 ?hk S320000x64 A ?hx rfl 0 ?hp (ix2 r q) ?hi ?ha
  case hk => exact (by decide : 0 < 4)
  case hx => rfl
  case hp => rfl
  case hi =>
    intro b hb
    match b with
    | ⟨0, _⟩ => rfl
    | ⟨1, _⟩ => exact absurd rfl hb
  case ha => exact Nat.zero_add _

theorem join_b (r : Fin 320000) (q : Fin 64) :
    join A B C D (ix2 r ⟨64 + q.val, by omega⟩) = B (ix2 r q) := by
  refine concatenate_apply_piece (t := S320000x152) 1 _ _ _ 1 ?hk S320000x64 B ?hx rfl 64 ?hp (ix2 r q) ?hi ?ha
  case hk => exact (by decide : 1 < 4)
  case hx => rfl
  case hp => rfl
  case hi =>
    intro b hb
    match b with
    | ⟨0, _⟩ => rfl
    | ⟨1, _⟩ => exact absurd rfl hb
  case ha => rfl

theorem join_c (r : Fin 320000) (q : Fin 16) :
    join A B C D (ix2 r ⟨128 + q.val, by omega⟩) = C (ix2 r q) := by
  refine concatenate_apply_piece (t := S320000x152) 1 _ _ _ 2 ?hk S320000x16 C ?hx rfl 128 ?hp (ix2 r q) ?hi ?ha
  case hk => exact (by decide : 2 < 4)
  case hx => rfl
  case hp => rfl
  case hi =>
    intro b hb
    match b with
    | ⟨0, _⟩ => rfl
    | ⟨1, _⟩ => exact absurd rfl hb
  case ha => rfl

theorem join_d (r : Fin 320000) (q : Fin 8) :
    join A B C D (ix2 r ⟨144 + q.val, by omega⟩) = D (ix2 r q) := by
  refine concatenate_apply_piece (t := S320000x152) 1 _ _ _ 3 ?hk S320000x8 D ?hx rfl 144 ?hp (ix2 r q) ?hi ?ha
  case hk => exact (by decide : 3 < 4)
  case hx => rfl
  case hp => rfl
  case hi =>
    intro b hb
    match b with
    | ⟨0, _⟩ => rfl
    | ⟨1, _⟩ => exact absurd rfl hb
  case ha => rfl

end Join

theorem ref_hid (x0 : (⟨S20000x64, .f32⟩ : BufTy).Contents (Elt Ideal)) (x1 : (⟨S320000x16, .f32⟩ : BufTy).Contents (Elt Ideal)) (x2 : (⟨S64x8, .f32⟩ : BufTy).Contents (Elt Ideal)) (x3 : (⟨S152x128, .f32⟩ : BufTy).Contents (Elt Ideal)) (x4 : (⟨S128, .f32⟩ : BufTy).Contents (Elt Ideal)) (x17 : (⟨S2x320000, .i32⟩ : BufTy).Contents (Elt Ideal)) (x18 : (⟨S20000, .i32⟩ : BufTy).Contents (Elt Ideal))
    (r : Fin 320000) (k : Fin 128) :
    val_main_v37 (F := Ideal) x0 x1 x2 x3 x4 x17 x18 (ix2 r k)
      = Spec.edgeHid (fun r q => val_main_v10 (F := Ideal) x0 x17 (ix2 r q)) (fun r q => val_main_v17 (F := Ideal) x0 x17 (ix2 r q))
          (fun r q => x1 (ix2 r q)) (fun r q => val_main_v31 (F := Ideal) x2 x17 x18 (ix2 r q))
          (fun q k => x3 (ix2 ⟨q.val, by omega⟩ k)) (fun q k => x3 (ix2 ⟨64 + q.val, by omega⟩ k))
          (fun q k => x3 (ix2 ⟨128 + q.val, by omega⟩ k)) (fun q k => x3 (ix2 ⟨144 + q.val, by omega⟩ k))
          (fun k => x4 (ix1 k)) r k := by

  have hl : ∀ c : Fin 152, lidx_main_v33 (ix2 r k) c = ix2 r c := fun c =>
    funext fun a => Fin.ext (by match a with | ⟨0, _⟩ => rfl | ⟨1, _⟩ => rfl)
  have hr : ∀ c : Fin 152, ridx_main_v33 (ix2 r k) c = ix2 c k := fun c =>
    funext fun a => Fin.ext (by match a with | ⟨0, _⟩ => rfl | ⟨1, _⟩ => rfl)
  have hb : idx_main_v34 (idx_main_v35 (ix2 r k)) = ix1 k :=
    funext fun a => Fin.ext (by match a with | ⟨0, _⟩ => rfl)
  rw [val_main_v37_apply, val_main_v36_apply, val_main_v33_apply, val_main_v35_apply, val_main_v34_apply, hb,
    val_main_call0_v0_apply, val_main_call0_cst_apply]
  unfold val_main_v32 Spec.edgeHid Spec.relu

  generalize val_main_v10 (F := Ideal) x0 x17 = A
  generalize val_main_v17 (F := Ideal) x0 x17 = B
  generalize val_main_v31 (F := Ideal) x2 x17 x18 = D
  simp only [hl, hr]

  rw [sum_blocks]
  simp only [join_a, join_b, join_c, join_d, Ideal.addf_def, Ideal.maximumf_def, Ideal.ofBits_def, Ideal.ofBits_zero_f32]

theorem ref_e (x0 : (⟨S20000x64, .f32⟩ : BufTy).Contents (Elt Ideal)) (x1 : (⟨S320000x16, .f32⟩ : BufTy).Contents (Elt Ideal)) (x2 : (⟨S64x8, .f32⟩ : BufTy).Contents (Elt Ideal)) (x3 : (⟨S152x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x17 : (⟨S2x320000, .i32⟩ : BufTy).Contents (Elt Ideal)) (x18 : (⟨S20000, .i32⟩ : BufTy).Contents (Elt Ideal))
    (r : Fin 320000) (n : Fin 128) :
    val_main_v41 (F := Ideal) x0 x1 x2 x3 x4 x5 x6 x17 x18 (ix2 r n)
      = Spec.edgeOut (Spec.edgeHid (fun r q => val_main_v10 (F := Ideal) x0 x17 (ix2 r q)) (fun r q => val_main_v17 (F := Ideal) x0 x17 (ix2 r q))
            (fun r q => x1 (ix2 r q)) (fun r q => val_main_v31 (F := Ideal) x2 x17 x18 (ix2 r q))
            (fun q k => x3 (ix2 ⟨q.val, by omega⟩ k)) (fun q k => x3 (ix2 ⟨64 + q.val, by omega⟩ k))
            (fun q k => x3 (ix2 ⟨128 + q.val, by omega⟩ k)) (fun q k => x3 (ix2 ⟨144 + q.val, by omega⟩ k))
            (fun k => x4 (ix1 k)))
          (fun k n => x5 (ix2 k n)) (fun n => x6 (ix1 n)) r n := by
  have hl : ∀ c : Fin 128, lidx_main_v38 (ix2 r n) c = ix2 r c := fun c =>
    funext fun a => Fin.ext (by match a with | ⟨0, _⟩ => rfl | ⟨1, _⟩ => rfl)
  have hr : ∀ c : Fin 128, ridx_main_v38 (ix2 r n) c = ix2 c n := fun c =>
    funext fun a => Fin.ext (by match a with | ⟨0, _⟩ => rfl | ⟨1, _⟩ => rfl)
  have hb : idx_main_v39 (idx_main_v40 (ix2 r n)) = ix1 n :=
    funext fun a => Fin.ext (by match a with | ⟨0, _⟩ => rfl)
  rw [val_main_v41_apply, val_main_v38_apply, val_main_v40_apply, val_main_v39_apply, hb]
  unfold Spec.edgeOut
  simp only [hl, hr, ref_hid, Ideal.addf_def]

end Cert.RefSpec

end
-- ==== Proof.Val.BridgeE.lean ====
import proofs.«429701_j48541720379569_3_alg».proof.Proof.FrameKI.Run
import proofs.«429701_j48541720379569_3_alg».proof.Proof.Val.V0
import proofs.«429701_j48541720379569_3_alg».proof.Proof.Val.KR0
import proofs.«429701_j48541720379569_3_alg».proof.Proof.Val.KR12
import proofs.«429701_j48541720379569_3_alg».proof.Proof.Val.RefE
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

variable (m : (ℓ : Loc nD τ sig) → Buf (Elt Ideal) ℓ) (ρ : Dev nD → PrngReg) (c : Dev nD)

theorem edgeOut_congr {E : Nat} {xr xr' xc xc' : Fin E → Fin 64 → EReal} {ea ea' : Fin E → Fin 16 → EReal}
    {ur ur' : Fin E → Fin 8 → EReal} {wa wa' wb wb' : Fin 64 → Fin 128 → EReal} {wc wc' : Fin 16 → Fin 128 → EReal}
    {wd wd' : Fin 8 → Fin 128 → EReal} {b1 b1' : Fin 128 → EReal} {w2 w2' : Fin 128 → Fin 128 → EReal}
    {b2 b2' : Fin 128 → EReal}
    (h1 : xr = xr') (h2 : xc = xc') (h3 : ea = ea') (h4 : ur = ur') (h5 : wa = wa') (h6 : wb = wb') (h7 : wc = wc')
    (h8 : wd = wd') (h9 : b1 = b1') (h10 : w2 = w2') (h11 : b2 = b2') :
    Spec.edgeOut (Spec.edgeHid xr xc ea ur wa wb wc wd b1) w2 b2
      = Spec.edgeOut (Spec.edgeHid xr' xc' ea' ur' wa' wb' wc' wd' b1') w2' b2' := by
  subst h1 h2 h3 h4 h5 h6 h7 h8 h9 h10 h11
  rfl

theorem arr_e :
    ((dat0 (F := Ideal) (V2 m ρ) c).arrAt 12 cfg0.N : S320000x128.Idx → EReal)
      = Cert.ReferenceIdeal.ReadP.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) := by
  funext i
  obtain ⟨r, n, rfl⟩ : ∃ (r : Fin 320000) (n : Fin 128), i = ix2 r n := ⟨i 0, i 1, eq_ix2 i⟩

  refine (final0_12 (V2 m ρ) c r n).trans (Eq.trans ?_ (Cert.RefSpec.ref_e (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) r n).symm)

  refine congrFun (congrFun (edgeOut_congr ?_ ?_ ?_ ?_ ?_ ?_ ?_ ?_ ?_ ?_ ?_) r) n
  · funext r q; exact congrFun (kr0_v11 m ρ c) (ix2 r q)
  · funext r q; exact congrFun (kr0_v18 m ρ c) (ix2 r q)
  · funext r q; exact congrFun (kr0_arg1 m ρ c) (ix2 r q)
  · funext r q; exact congrFun (kr0_v32 m ρ c) (ix2 r q)
  · funext q k; exact kr0_v47 m ρ c q k
  · funext q k; exact kr0_v48 m ρ c q k
  · funext q k; exact kr0_v49 m ρ c q k
  · funext q k; exact kr0_v50 m ρ c q k
  · funext k; exact kr0_v51 m ρ c k
  · funext k n; exact congrFun (kr0_arg5 m ρ c) (ix2 k n)
  · funext n; exact kr0_v52 m ρ c n

theorem bridge_e :
    (W9 m ρ c (Proc.devRef .tc main_v54_0) : S320000x128.Idx → EReal)
      = Cert.ReferenceIdeal.ReadP.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) := by
  have hkept : (W9 m ρ c (Proc.devRef .tc main_v54_0) : S320000x128.Idx → EReal)
      = ((dat0 (F := Ideal) (V2 m ρ) c).arrAt 12 cfg0.N : S320000x128.Idx → EReal) :=
    (kr_e_kept m ρ c).trans (W3_arr m ρ c 12)
  exact hkept.trans (arr_e m ρ c)

end Cert.KernelIdeal.HandV

end
-- ==== Proof.Val.V2.lean ====
import proofs.«429701_j48541720379569_3_alg».proof.Proof.FrameKI.R2
import proofs.«429701_j48541720379569_3_alg».proof.Proof.Val.Spec
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

def L2 (c : Dev nD) : Fin (5 * 4000) → Fin 128 → EReal :=
  Spec.logit (fun r q => (V c main_arg0 : S20000x64.Idx → EReal) (ix2 r q)) (fun r q => (V c main_v57 : S20000x128.Idx → EReal) (ix2 r q))
    (fun r q => (V c main_v39 : S20000x8.Idx → EReal) (ix2 r q)) (fun q j => (V c main_v61 : S64x128.Idx → EReal) (ix2 q j))
    (fun q j => (V c main_v62 : S128x128.Idx → EReal) (ix2 q j)) (fun q j => (V c main_v63 : S8x128.Idx → EReal) (ix2 q j))

def X2 (c : Dev nD) : Fin (5 * 4000) → Fin 128 → EReal :=
  Spec.nodeOut (Spec.nodeHid (Spec.attnOut (Spec.attn2 (Spec.attn1 (L2 V c) (fun j => (V c main_v64_0 : S1x128.Idx → EReal) (ix2 0 j)) (fun j => (V c main_v66 : S1x128.Idx → EReal) (ix2 0 j))))
        (fun j q => (V c main_arg8 : S128x264.Idx → EReal) (ix2 j q))) (fun q k => (V c main_arg9 : S264x128.Idx → EReal) (ix2 q k)) (fun k => (V c main_v67 : S1x128.Idx → EReal) (ix2 0 k)))
      (fun k n => (V c main_arg11 : S128x128.Idx → EReal) (ix2 k n)) (fun n => (V c main_v68 : S1x128.Idx → EReal) (ix2 0 n))

namespace E2

-- A product of an m×k by a k×n tile into the zero accumulator: entry (p, j) is the sum over q of l (p, q) * r (q, j).
theorem mm_plain {m k n : ℕ} {φ₁ φ₂ : FTy} (l : FVec Ideal ⟨2, ![m, k]⟩ φ₁) (r : FVec Ideal ⟨2, ![k, n]⟩ φ₂) (p : Fin m) (j : Fin n) :
    matmul (DotDims.plain m k n) none l r (constant ⟨2, ![m, n]⟩ .f32 0x00000000#32) (ix2 p j) = ∑ q : Fin k, l (ix2 p q) * r (ix2 q j) :=
  (congrFun (matmul_zero_eq_dotGeneral _ _ l r) _).trans (StackMember.dotGeneral_plain_apply none l r p j)

theorem dot_x : dot_S4000x64_S64x128_S4000x128_1_0_0_1_n_n = .plain 4000 64 128 := rfl
theorem dot_agg : dot_S4000x128_S128x128_S4000x128_1_0_0_1_n_n = .plain 4000 128 128 := rfl
theorem dot_u : dot_S4000x8_S8x128_S4000x128_1_0_0_1_n_n = .plain 4000 8 128 := rfl
theorem dot_mv : dot_S4000x128_S128x264_S4000x264_1_0_0_1_n_n = .plain 4000 128 264 := rfl
theorem dot_w1 : dot_S4000x264_S264x128_S4000x128_1_0_0_1_n_n = .plain 4000 264 128 := rfl

-- Both operands contracted along their rows: entry (b, n) is the sum over q of l (q, b) * r (q, n).
theorem mm_oh {φ₁ φ₂ : FTy} (l : FVec Ideal S4000x64 φ₁) (r : FVec Ideal S4000x128 φ₂) (b : Fin 64) (n : Fin 128) :
    matmul dot_S4000x64_S4000x128_S64x128_0_0_1_1_n_n none l r (constant S64x128 .f32 0x00000000#32) (ix2 b n) = ∑ q : Fin 4000, l (ix2 q b) * r (ix2 q n) := by
  simp only [matmul]
  rw [Ideal.matmul_constant_zero_apply, ← Equiv.sum_comp (contrEquiv1 dot_S4000x64_S4000x128_S64x128_0_0_1_1_n_n 4000 rfl rfl).symm]
  refine Finset.sum_congr rfl fun k _ => ?_
  have hk := contrEquiv1_symm_val dot_S4000x64_S4000x128_S64x128_0_0_1_1_n_n 4000 rfl rfl k
  rw [show DotDims.lhsIdx _ (ix2 b n) _ = ix2 k b from Shape.idx_ext₂ ((DotDims.lhsIdx_val_of_single _ rfl _ _).trans hk)
      (by simp [DotDims.lhsIdx, dot_S4000x64_S4000x128_S64x128_0_0_1_1_n_n]; rfl),
    show DotDims.rhsIdx _ (ix2 b n) _ = ix2 k n from Shape.idx_ext₂ ((DotDims.rhsIdx_val_of_single _ rfl _ _).trans hk)
      (by simp [DotDims.rhsIdx, dot_S4000x64_S4000x128_S64x128_0_0_1_1_n_n]; rfl)]

theorem exp_at {s : Shape} {φ : FTy} (a : FVec Ideal s φ) (i : s.Idx) : exp a i = Ideal.exp (a i) := rfl

theorem cmpi_at {s : Shape} {w : ℕ} (pr : CmpIPredicate) (a b : IVec s w) (i : s.Idx) : cmpi pr a b i = IntOp.cmpi pr (a i) (b i) := rfl

-- A vector of row sums written as a column reads, at (p, 0), entry p.
theorem colOf_apply {α : Type} (v : S4000.Idx → α) (p : Fin 4000) (u : Fin 1) :
    shapeCast S4000x1 v shapeCasts_S4000_S4000x1 (ix2 p u) = v (ix1 p) :=
  shapeCast_apply v shapeCasts_S4000_S4000x1 (ix2 p u) (ix1 p) (by
    have := u.isLt
    rw [Shape.rowMajor_val_two, Shape.rowMajor_val_one]
    show p.val = p.val * 1 + u.val
    omega)

-- A column laid over b lanes reads, at (p, j), the column at p.
theorem colOver_apply {α : Type} {a b : ℕ} (v : (⟨2, ![a, 1]⟩ : Shape).Idx → α) (h : (⟨2, ![a, 1]⟩ : Shape).Broadcasts ⟨2, ![a, b]⟩)
    (p : Fin a) (j : Fin b) : broadcastTo ⟨2, ![a, b]⟩ v h (ix2 p j) = v (ix2 p (0 : Fin 1)) :=
  broadcastTo_apply v h (ix2 p j) (ix2 p (0 : Fin 1)) fun ax => by
    have := p.isLt
    match ax with
    | ⟨0, _⟩ => show p.val = if a = 1 then 0 else p.val; split <;> omega
    | ⟨1, _⟩ => rfl

-- The sum along the lanes reads, at row p, the sum of the row's 128 entries.
theorem rowSum_apply (v : FVec Ideal S4000x128 .f32) (p : Fin 4000) :
    multiReduction (F := Ideal) .add [1] S4000 v 0x00000000#32 reduces_S4000x128_S4000 (.inl rfl) rfl (ix1 p) = ∑ k : Fin 128, v (ix2 p k) :=
  (Ideal.multiReduction_add_single v 0x00000000#32 reduces_S4000x128_S4000 (.inl rfl) rfl (ix1 p)).trans
    (Finset.sum_congr rfl fun k _ => congrArg v (Shape.idx_ext₂ rfl rfl))

theorem lanes_apply (p : Fin 4000) (b : Fin 64) :
    iota .tc S4000x64 32 [1] iota_S4000x64_d1_w32 (ix2 p b) = BitVec.ofNat 32 b.val :=
  iota_single_apply .tc S4000x64 32 1 iota_S4000x64_d1_w32 (ix2 p b)

-- The comparison bit of a bucket's number with an id, widened and converted, is 1 where the two words are equal and 0 elsewhere.
theorem weight_eq (b : Fin 64) (w : BitVec 32) :
    FloatOps.sitofp (F := Ideal) .f32 ((IntOp.cmpi .eq (BitVec.ofNat 32 b.val) w).setWidth 32) = Spec.oneHot b w := by
  unfold Spec.oneHot
  by_cases h : BitVec.ofNat 32 b.val = w
  · rw [show IntOp.cmpi .eq (BitVec.ofNat 32 b.val) w = 1#1 by simp [IntOp.cmpi, h], if_pos h]
    show (((BitVec.setWidth 32 1#1).toInt : ℝ) : EReal) = 1
    rw [show (BitVec.setWidth 32 1#1).toInt = 1 by decide]
    simp
  · rw [show IntOp.cmpi .eq (BitVec.ofNat 32 b.val) w = 0#1 by simp [IntOp.cmpi, beq_eq_false_iff_ne.mpr h], if_neg h]
    show (((BitVec.setWidth 32 0#1).toInt : ℝ) : EReal) = 0
    rw [show (BitVec.setWidth 32 0#1).toInt = 0 by decide]
    simp

-- The normalised attention weights of a tile, entry by entry, over any loaded tiles.
theorem hidden_apply (v0 : FVec Ideal S4000x64 .f32) (v2 : FVec Ideal S64x128 .f32) (v6 : FVec Ideal S4000x128 .f32)
    (v9 : FVec Ideal S128x128 .f32) (v14 : FVec Ideal S4000x8 .f32) (v17 : FVec Ideal S8x128 .f32) (v22 v27 : FVec Ideal S1x128 .f32)
    (p : Fin 4000) (j : Fin 128) :
    k2_pay3 (F := Ideal) v0 v2 v6 v9 v14 v17 v22 v27 (ix2 p j)
      = Spec.attn2 (Spec.attn1 (Spec.logit (fun r q => v0 (ix2 r q)) (fun r q => v6 (ix2 r q)) (fun r q => v14 (ix2 r q))
            (fun q i => v2 (ix2 q i)) (fun q i => v9 (ix2 q i)) (fun q i => v17 (ix2 q i)))
          (fun i => v22 (ix2 (0 : Fin 1) i)) (fun i => v27 (ix2 (0 : Fin 1) i))) p j := by
  unfold k2_pay3 Spec.attn2 Spec.attn1 Spec.logit
  simp only [truncf_apply, divf_apply, mulf_apply, subf_apply, addf_apply, exp_at, shapeCast_self, broadcastTo_1b_ab_apply,
    colOver_apply, colOf_apply, dot_x, dot_agg, dot_u, mm_plain]
  rw [rowSum_apply]
  simp only [truncf_apply, mulf_apply, subf_apply, addf_apply, exp_at, shapeCast_self, broadcastTo_1b_ab_apply, dot_x, dot_agg, dot_u, mm_plain]

-- The new node rows of a tile: the weights times the value memory, then the two dense layers.
theorem rows_apply (a2 : FVec Ideal S4000x128 .bf16) (v36 : FVec Ideal S128x264 .f32) (v40 : FVec Ideal S264x128 .f32)
    (v43 : FVec Ideal S1x128 .f32) (v50 : FVec Ideal S128x128 .f32) (v53 : FVec Ideal S1x128 .f32) (p : Fin 4000) (n : Fin 128) :
    k2_pay1 (F := Ideal) a2 v36 v40 v43 v50 v53 (ix2 p n)
      = Spec.nodeOut (Spec.nodeHid (Spec.attnOut (fun r i => a2 (ix2 r i)) (fun i q => v36 (ix2 i q)))
            (fun q k => v40 (ix2 q k)) (fun k => v43 (ix2 (0 : Fin 1) k)))
          (fun k i => v50 (ix2 k i)) (fun i => v53 (ix2 (0 : Fin 1) i)) p n := by
  unfold k2_pay1 Spec.nodeOut Spec.nodeHid Spec.attnOut Spec.relu
  simp only [truncf_apply, addf_apply, maximumf_apply, broadcast_apply, shapeCast_self, broadcastTo_1b_ab_apply, dot_mv, dot_w1, dot_agg, mm_plain,
    Ideal.ofBits_def, Ideal.ofBits_zero_f32]

-- The tile's per-graph sums: bucket b, column n is the sum over the tile's rows of the one-hot weight times the new row.
theorem sums_apply (a2 : FVec Ideal S4000x128 .bf16) (v36 : FVec Ideal S128x264 .f32) (v40 : FVec Ideal S264x128 .f32)
    (v43 : FVec Ideal S1x128 .f32) (v50 : FVec Ideal S128x128 .f32) (v53 : FVec Ideal S1x128 .f32) (v60 : IVec S4000x1 32)
    (u : Fin 1) (b : Fin 64) (n : Fin 128) :
    k2_pay2 (F := Ideal) a2 v36 v40 v43 v50 v53 v60 (ix3 u b n)
      = ∑ r : Fin 4000, Spec.oneHot b (v60 (ix2 r (0 : Fin 1))) * k2_pay1 (F := Ideal) a2 v36 v40 v43 v50 v53 (ix2 r n) := by
  unfold k2_pay2
  simp only [shapeCast_ab_1ab_apply, mm_oh, truncf_apply, sitofp_apply, extui_apply, cmpi_at, colOver_apply, shapeCast_self]
  refine Finset.sum_congr rfl fun q _ => ?_
  rw [lanes_apply, weight_eq]

def pt2 (t : Fin cfg2.N) : Fin 5 := ⟨t.val, lt_of_lt_of_eq t.isLt (show cfg2.N = 5 from N_2)⟩

theorem idxW : ∀ w : Fin 16, 3 ≤ w.val → w.val ≤ 12 → ∀ (t : Fin cfg2.N) (a : Fin (cfg2.win w).shape.rank), (cfg2.win w).index t a = 0 :=
  (by decide +kernel : ∀ w : Fin 16, 3 ≤ w.val → w.val ≤ 12 → ∀ (t : Fin grid2.N) (a : Fin (win2 w).shape.rank), (win2 w).index t a = 0)
theorem idxN : ∀ w : Fin 16, w.val < 3 ∨ 12 < w.val → ∀ (t : Fin cfg2.N) (a : Fin (cfg2.win w).shape.rank),
    (cfg2.win w).index t a = if a.val = 0 then t.val else 0 :=
  (by decide +kernel : ∀ w : Fin 16, w.val < 3 ∨ 12 < w.val → ∀ (t : Fin grid2.N) (a : Fin (win2 w).shape.rank),
    (win2 w).index t a = if a.val = 0 then t.val else 0)

-- An entry of a window's block is the array's entry at the block's offset plus the entry's own coordinates.
theorem blk_read (w : Fin cfg2.W) (t : Fin cfg2.N) (f : ((cfg2.win w).blk t).view.ty.Contents (Elt Ideal))
    (y : ((cfg2.win w).xblock (cfg2.grid.coords t)).Idx) (j : (cfg2.win w).shape.Idx)
    (h : ∀ a, (j a).val = (cfg2.win w).index t a * (cfg2.win w).size a + (y a).val) :
    ((cfg2.win w).blk t).view.read (Elt Ideal) f y = (cfg2.win w).arr.view.read (Elt Ideal) f j :=
  congrArg ((cfg2.win w).arr.view.read (Elt Ideal) f) (funext fun a => Fin.ext (((cfg2.win w).rect_emb_val t y a).trans (h a).symm))

theorem mem_blk (w : Fin cfg2.W) (t : Fin cfg2.N) (y : ((cfg2.win w).xblock (cfg2.grid.coords t)).Idx) (j : (cfg2.win w).shape.Idx)
    (h : ∀ a, (j a).val = (cfg2.win w).index t a * (cfg2.win w).size a + (y a).val) :
    (cfg2.win w).arr.view.emb j ∈ ((cfg2.win w).blk t).view.set := by
  rw [← show ((cfg2.win w).rect t).emb y = j from funext fun a => Fin.ext (((cfg2.win w).rect_emb_val t y a).trans (h a).symm)]
  exact ((cfg2.win w).blk t).view.emb_mem_set y

-- A weight's block is its whole array.
theorem wt_read (c : Dev nD) (w : Fin cfg2.W) (h3 : 3 ≤ w.val) (h12 : w.val ≤ 12) (t : Fin cfg2.N)
    (y : ((cfg2.win w).xblock (cfg2.grid.coords t)).Idx) (j : (cfg2.win w).shape.Idx) (h : ∀ a, (j a).val = (y a).val) :
    iblk2 V c w t y = (cfg2.win w).arr.view.read (Elt Ideal) (V c (Pipeline.arrRef spec2 w)) j :=
  blk_read w t _ y j fun a => by rw [idxW w h3 h12 t a, Nat.zero_mul, Nat.zero_add]; exact h a

theorem iblk2_3 (c : Dev nD) (t : Fin cfg2.N) : iblk2 V c 3 t = V c main_v61 := funext fun y => wt_read V c 3 (by decide) (by decide) t y y fun _ => rfl
theorem iblk2_4 (c : Dev nD) (t : Fin cfg2.N) : iblk2 V c 4 t = V c main_v62 := funext fun y => wt_read V c 4 (by decide) (by decide) t y y fun _ => rfl
theorem iblk2_5 (c : Dev nD) (t : Fin cfg2.N) : iblk2 V c 5 t = V c main_v63 := funext fun y => wt_read V c 5 (by decide) (by decide) t y y fun _ => rfl
theorem iblk2_6 (c : Dev nD) (t : Fin cfg2.N) : iblk2 V c 6 t = V c main_v64_0 := funext fun y => wt_read V c 6 (by decide) (by decide) t y y fun _ => rfl
theorem iblk2_7 (c : Dev nD) (t : Fin cfg2.N) : iblk2 V c 7 t = V c main_v66 := funext fun y => wt_read V c 7 (by decide) (by decide) t y y fun _ => rfl
theorem iblk2_8 (c : Dev nD) (t : Fin cfg2.N) : iblk2 V c 8 t = V c main_arg8 := funext fun y => wt_read V c 8 (by decide) (by decide) t y y fun _ => rfl
theorem iblk2_9 (c : Dev nD) (t : Fin cfg2.N) : iblk2 V c 9 t = V c main_arg9 := funext fun y => wt_read V c 9 (by decide) (by decide) t y y fun _ => rfl
theorem iblk2_10 (c : Dev nD) (t : Fin cfg2.N) : iblk2 V c 10 t = V c main_v67 := funext fun y => wt_read V c 10 (by decide) (by decide) t y y fun _ => rfl
theorem iblk2_11 (c : Dev nD) (t : Fin cfg2.N) : iblk2 V c 11 t = V c main_arg11 := funext fun y => wt_read V c 11 (by decide) (by decide) t y y fun _ => rfl
theorem iblk2_12 (c : Dev nD) (t : Fin cfg2.N) : iblk2 V c 12 t = V c main_v68 := funext fun y => wt_read V c 12 (by decide) (by decide) t y y fun _ => rfl

-- Row a of a node window's block at point t is row 4000 t + a of its array.
theorem row_read (w : Fin cfg2.W) (hw : w.val < 3 ∨ 12 < w.val) (t : Fin cfg2.N) (f : ((cfg2.win w).blk t).view.ty.Contents (Elt Ideal))
    (y : ((cfg2.win w).xblock (cfg2.grid.coords t)).Idx) (j : (cfg2.win w).shape.Idx)
    (h : ∀ a, (j a).val = (if a.val = 0 then t.val * (cfg2.win w).size a else 0) + (y a).val) :
    ((cfg2.win w).blk t).view.read (Elt Ideal) f y = (cfg2.win w).arr.view.read (Elt Ideal) f j :=
  blk_read w t f y j fun a => by rw [idxN w hw t a, h a]; by_cases ha : a.val = 0 <;> simp [ha]

theorem iblk2_0_apply (c : Dev nD) (t : Fin cfg2.N) (a : Fin 4000) (b : Fin 64) :
    (iblk2 V c 0 t : Vec Ideal S4000x64 .f32) (ix2 a b) = (V c main_arg0 : S20000x64.Idx → EReal) (ix2 (Spec.tileRow (G := 5) (T := 4000) (pt2 t) a) b) :=
  row_read 0 (.inl (by decide)) t _ (ix2 a b) (ix2 (Spec.tileRow (pt2 t) a) b) fun d => match d with | ⟨0, _⟩ => rfl | ⟨1, _⟩ => (Nat.zero_add _).symm
theorem iblk2_1_apply (c : Dev nD) (t : Fin cfg2.N) (a : Fin 4000) (b : Fin 128) :
    (iblk2 V c 1 t : Vec Ideal S4000x128 .f32) (ix2 a b) = (V c main_v57 : S20000x128.Idx → EReal) (ix2 (Spec.tileRow (G := 5) (T := 4000) (pt2 t) a) b) :=
  row_read 1 (.inl (by decide)) t _ (ix2 a b) (ix2 (Spec.tileRow (pt2 t) a) b) fun d => match d with | ⟨0, _⟩ => rfl | ⟨1, _⟩ => (Nat.zero_add _).symm
theorem iblk2_2_apply (c : Dev nD) (t : Fin cfg2.N) (a : Fin 4000) (b : Fin 8) :
    (iblk2 V c 2 t : Vec Ideal S4000x8 .f32) (ix2 a b) = (V c main_v39 : S20000x8.Idx → EReal) (ix2 (Spec.tileRow (G := 5) (T := 4000) (pt2 t) a) b) :=
  row_read 2 (.inl (by decide)) t _ (ix2 a b) (ix2 (Spec.tileRow (pt2 t) a) b) fun d => match d with | ⟨0, _⟩ => rfl | ⟨1, _⟩ => (Nat.zero_add _).symm
theorem iblk2_13_apply (c : Dev nD) (t : Fin cfg2.N) (a : Fin 4000) (b : Fin 1) :
    (iblk2 V c 13 t : IVec S4000x1 32) (ix2 a b) = (V c main_v69 : S20000x1.Idx → BitVec 32) (ix2 (Spec.tileRow (G := 5) (T := 4000) (pt2 t) a) b) :=
  row_read 13 (.inr (by decide)) t _ (ix2 a b) (ix2 (Spec.tileRow (pt2 t) a) b) fun d => match d with | ⟨0, _⟩ => rfl | ⟨1, _⟩ => (Nat.zero_add _).symm

-- What point t computes for row p of its tile is the new node row 4000 t + p: every stage of the update works row by row.
theorem node_block (c : Dev nD) (t : Fin cfg2.N) (p : Fin 4000) (n : Fin 128) :
    k2_pay1 (F := Ideal) (k2_pay3 (F := Ideal) (iblk2 V c 0 t) (iblk2 V c 3 t) (iblk2 V c 1 t) (iblk2 V c 4 t) (iblk2 V c 2 t) (iblk2 V c 5 t) (iblk2 V c 6 t) (iblk2 V c 7 t)) (iblk2 V c 8 t) (iblk2 V c 9 t) (iblk2 V c 10 t) (iblk2 V c 11 t) (iblk2 V c 12 t) (ix2 p n)
      = X2 V c (Spec.tileRow (pt2 t) p) n := by
  rw [rows_apply]
  simp only [hidden_apply, iblk2_0_apply, iblk2_1_apply, iblk2_2_apply, iblk2_3, iblk2_4, iblk2_5, iblk2_6, iblk2_7, iblk2_8, iblk2_9, iblk2_10, iblk2_11, iblk2_12]
  rfl

theorem hz2 : (![0, 0] : Fin 2 → ℕ) = fun _ => 0 := funext fun a => by fin_cases a <;> rfl

def G14 (c : Dev nD) : S20000x128.Idx → EReal := fun i => X2 V c (i 0) (i 1)

theorem flushed14_eq (c : Dev nD) (t : Fin cfg2.N) :
    (dat2 (F := Ideal) V c).flushed 14 t = ((cfg2.win 14).blk t).view.read (Elt Ideal) (G14 V c) := by
  show (cfg2.win 14).cut (grid2.coords t) ((dat2 (F := Ideal) V c).after 14 t) = _
  rw [after2_14]
  unfold out2_14
  rw [View.canon_unit_zero hz2]
  simp only [View.ld_unit_zero (S := ⟨2, _⟩) hz2]
  funext y
  obtain ⟨p, n, rfl⟩ : ∃ (p : Fin 4000) (n : Fin 128), y = ix2 p n := ⟨y 0, y 1, eq_ix2 y⟩
  exact (node_block V c t p n).trans (row_read 14 (.inr (by decide)) t (G14 V c) (ix2 p n) (ix2 (Spec.tileRow (pt2 t) p) n)
    fun d => match d with | ⟨0, _⟩ => rfl | ⟨1, _⟩ => (Nat.zero_add _).symm).symm

-- The five tiles cover the node array: row r lies in tile r / 4000.
theorem cover14 (i : S20000x128.Idx) :
    ∃ t : Fin cfg2.N, (cfg2.win 14).flush t = true ∧ i ∈ ((cfg2.win 14).blk t).view.set := by
  have hi : (i 0).val < 20000 := (i 0).isLt
  refine ⟨⟨(i 0).val / 4000, by rw [show cfg2.N = 5 from N_2]; omega⟩, flush2_14 _,
    mem_blk 14 _ (ix2 ⟨(i 0).val % 4000, Nat.mod_lt _ (by decide)⟩ (i 1)) i fun d => ?_⟩
  rw [idxN 14 (.inr (by decide))]
  match d with
  | ⟨0, _⟩ => show (i 0).val = (i 0).val / 4000 * 4000 + (i 0).val % 4000; omega
  | ⟨1, _⟩ => show (i 1).val = 0 * 128 + (i 1).val; omega

theorem hz3 : (![0, 0, 0] : Fin 3 → ℕ) = fun _ => 0 := funext fun a => by fin_cases a <;> rfl

def G15 (c : Dev nD) : S5x64x128.Idx → EReal := fun i =>
  Spec.tilePart (G := 5) (T := 4000) (X2 V c) (fun r => (V c main_v69 : S20000x1.Idx → BitVec 32) (ix2 r 0)) (i 0) (i 1) (i 2)

theorem flushed15_eq (c : Dev nD) (t : Fin cfg2.N) :
    (dat2 (F := Ideal) V c).flushed 15 t = ((cfg2.win 15).blk t).view.read (Elt Ideal) (G15 V c) := by
  show (cfg2.win 15).cut (grid2.coords t) ((dat2 (F := Ideal) V c).after 15 t) = _
  rw [after2_15]
  unfold out2_15
  rw [View.canon_unit_zero hz3]
  simp only [View.ld_unit_zero (S := ⟨2, _⟩) hz2]
  funext y
  obtain ⟨u, b, n, rfl⟩ : ∃ (u : Fin 1) (b : Fin 64) (n : Fin 128), y = ix3 u b n := ⟨y 0, y 1, y 2, eq_ix3 y⟩
  refine (sums_apply _ _ _ _ _ _ _ u b n).trans ?_
  simp only [node_block, iblk2_13_apply]
  refine Eq.trans (b := G15 V c (ix3 (pt2 t) b n)) rfl (row_read 15 (.inr (by decide)) t (G15 V c) (ix3 u b n) (ix3 (pt2 t) b n) fun d => ?_).symm
  have := u.isLt
  match d with
  | ⟨0, _⟩ => show t.val = t.val * 1 + u.val; omega
  | ⟨1, _⟩ => show b.val = 0 + b.val; omega
  | ⟨2, _⟩ => show n.val = 0 + n.val; omega

-- The five slabs cover the sums' array.
theorem cover15 (i : S5x64x128.Idx) :
    ∃ t : Fin cfg2.N, (cfg2.win 15).flush t = true ∧ i ∈ ((cfg2.win 15).blk t).view.set := by
  have hi : (i 0).val < 5 := (i 0).isLt
  refine ⟨⟨(i 0).val, by rw [show cfg2.N = 5 from N_2]; exact hi⟩, flush2_15 _, mem_blk 15 _ (ix3 (0 : Fin 1) (i 1) (i 2)) i fun d => ?_⟩
  rw [idxN 15 (.inr (by decide))]
  match d with
  | ⟨0, _⟩ => show (i 0).val = (i 0).val * 1 + 0; omega
  | ⟨1, _⟩ => show (i 1).val = 0 * 64 + (i 1).val; omega
  | ⟨2, _⟩ => show (i 2).val = 0 * 128 + (i 2).val; omega

end E2

open E2

theorem final2_14 (c : Dev nD) (r : Fin (5 * 4000)) (n : Fin 128) :
    ((dat2 (F := Ideal) V c).arrAt 14 cfg2.N : S20000x128.Idx → EReal) (ix2 r n) = X2 V c r n := by
  have h := (dat2 (F := Ideal) V c).arrAt_eq_of_cover 14 (G14 V c) (fun t _ => flushed14_eq V c t) cover14
  exact (congrFun h (ix2 r n)).trans rfl

theorem final2_15 (c : Dev nD) (t : Fin 5) (b : Fin 64) (n : Fin 128) :
    ((dat2 (F := Ideal) V c).arrAt 15 cfg2.N : S5x64x128.Idx → EReal) (ix3 t b n)
      = Spec.tilePart (G := 5) (T := 4000) (X2 V c) (fun r => (V c main_v69 : S20000x1.Idx → BitVec 32) (ix2 r 0)) t b n := by
  have h := (dat2 (F := Ideal) V c).arrAt_eq_of_cover 15 (G15 V c) (fun t _ => flushed15_eq V c t) cover15
  exact (congrFun h (ix3 t b n)).trans rfl

end Cert.KernelIdeal.HandV

end
-- ==== Proof.Val.Softmax.lean ====
import Idealize.ShloMosaic.PureOps.Ideal
import Mathlib.Data.EReal.Basic
import Mathlib.Data.EReal.Operations
import Mathlib.Analysis.SpecialFunctions.Exp
import Mathlib.Algebra.BigOperators.Group.Finset.Basic
import Mathlib.Order.CompleteLattice.Finset

set_option maxRecDepth 16384

open Idealize.ShloMosaic

namespace Cert.Softmax

noncomputable def mSeq {ι : Type} [DecidableEq ι] (a : ι → EReal) (B : ℕ → Finset ι) : ℕ → EReal
  | 0 => ⊥
  | t + 1 => max (mSeq a B t) ((B t).sup a)

noncomputable def sSeq {ι : Type} [DecidableEq ι] (a : ι → EReal) (B : ℕ → Finset ι) : ℕ → EReal
  | 0 => 0
  | t + 1 => sSeq a B t * Ideal.exp (mSeq a B t - mSeq a B (t + 1))
      + ∑ r ∈ B t, Ideal.exp (a r - mSeq a B (t + 1))

def seen {ι : Type} [DecidableEq ι] (B : ℕ → Finset ι) : ℕ → Finset ι
  | 0 => ∅
  | t + 1 => seen B t ∪ B t

theorem mSeq_eq {ι : Type} [DecidableEq ι] (a : ι → EReal) (B : ℕ → Finset ι) (t : ℕ) :
    mSeq a B t = (seen B t).sup a := by
  induction t with
  | zero => simp [mSeq, seen]
  | succ t ih => rw [mSeq, seen, Finset.sup_union, ih]

theorem mSeq_real {ι : Type} [DecidableEq ι] (a : ι → EReal) (ha : ∀ r, ∃ x : ℝ, a r = (x : EReal))
    (B : ℕ → Finset ι) (t : ℕ) (hs : (seen B t).Nonempty) :
    ∃ x : ℝ, mSeq a B t = (x : EReal) := by

  rw [mSeq_eq]
  obtain ⟨i, _, hi⟩ := Finset.exists_mem_eq_sup (seen B t) hs a
  obtain ⟨x, hx⟩ := ha i
  exact ⟨x, by rw [hi, hx]⟩

private theorem coe_sum {ι : Type} (s : Finset ι) (f : ι → ℝ) :
    ((∑ r ∈ s, f r : ℝ) : EReal) = ∑ r ∈ s, (f r : EReal) := by
  classical
  induction s using Finset.induction_on with
  | empty => simp
  | insert i s hi ih => rw [Finset.sum_insert hi, Finset.sum_insert hi, EReal.coe_add, ih]

private theorem sum_exp_coe {ι : Type} (s : Finset ι) (x : ι → ℝ) (ν : ℝ) :
    (∑ r ∈ s, Ideal.exp ((x r : EReal) - (ν : EReal)))
      = ((∑ r ∈ s, Real.exp (x r - ν) : ℝ) : EReal) := by
  rw [coe_sum]
  refine Finset.sum_congr rfl (fun r _ => ?_)
  rw [← EReal.coe_sub, Ideal.exp_coe]

private theorem sum_rescale {ι : Type} (s : Finset ι) (x : ι → ℝ) (μ μ' : ℝ) :
    (∑ r ∈ s, Ideal.exp ((x r : EReal) - (μ : EReal))) * Ideal.exp ((μ : EReal) - (μ' : EReal))
      = ∑ r ∈ s, Ideal.exp ((x r : EReal) - (μ' : EReal)) := by
  rw [sum_exp_coe s x μ, sum_exp_coe s x μ', ← EReal.coe_sub, Ideal.exp_coe, ← EReal.coe_mul,
    Finset.sum_mul]
  congr 1
  refine Finset.sum_congr rfl (fun r _ => ?_)
  rw [← Real.exp_add]
  congr 1
  ring

theorem sSeq_eq {ι : Type} [DecidableEq ι] (a : ι → EReal) (ha : ∀ r, ∃ x : ℝ, a r = (x : EReal))
    (B : ℕ → Finset ι) (hd : ∀ t, Disjoint (seen B t) (B t)) (t : ℕ) :
    sSeq a B t = ∑ r ∈ seen B t, Ideal.exp (a r - mSeq a B t) := by
  have ha' := ha
  choose x hx using ha'
  induction t with
  | zero => simp [sSeq, seen]
  | succ t ih =>

    rw [sSeq, ih, seen, Finset.sum_union (hd t)]
    congr 1
    rcases (seen B t).eq_empty_or_nonempty with he | hn
    ·
      rw [he]; simp
    ·
      obtain ⟨μ, hμ⟩ := mSeq_real a ha B t hn
      obtain ⟨μ', hμ'⟩ := mSeq_real a ha B (t + 1)
        (by rw [seen]; exact hn.mono Finset.subset_union_left)
      rw [hμ, hμ']
      simp only [hx]
      exact sum_rescale _ x μ μ'

theorem sSeq_pos_real {ι : Type} [DecidableEq ι] (a : ι → EReal)
    (ha : ∀ r, ∃ x : ℝ, a r = (x : EReal)) (B : ℕ → Finset ι)
    (hd : ∀ t, Disjoint (seen B t) (B t)) (t : ℕ) (hs : (seen B t).Nonempty) :
    ∃ x : ℝ, 0 < x ∧ sSeq a B t = (x : EReal) := by

  have ha' := ha
  choose x hx using ha'
  obtain ⟨μ, hμ⟩ := mSeq_real a ha B t hs
  refine ⟨∑ r ∈ seen B t, Real.exp (x r - μ), Finset.sum_pos (fun r _ => Real.exp_pos _) hs, ?_⟩
  rw [sSeq_eq a ha B hd t, hμ]
  simp only [hx]
  exact sum_exp_coe _ x μ

theorem div_eq_mul_inv_of_pos (e : EReal) (s : ℝ) (hs : 0 < s) :
    Ideal.div e (s : EReal) = e * Ideal.div 1 (s : EReal) := by

  rw [Ideal.div_coe hs.ne', Ideal.div_coe hs.ne', one_mul]

end Cert.Softmax
-- ==== Proof.Val.Stats.lean ====
import proofs.«429701_j48541720379569_3_alg».proof.Proof.Val.Softmax
import proofs.«429701_j48541720379569_3_alg».proof.Proof.Val.Spec
import Mathlib.Data.Fintype.Basic
import Mathlib.Algebra.BigOperators.Group.Finset.Basic
import Mathlib.Order.CompleteLattice.Finset

set_option maxRecDepth 16384

open Cert.Softmax Cert.Spec Idealize.ShloMosaic

namespace Cert.Stats

def tile (t : ℕ) : Finset (Fin (5 * 4000)) :=
  if h : t < 5 then Finset.univ.image (Spec.tileRow (G := 5) (T := 4000) ⟨t, h⟩) else ∅

theorem mem_tile (r : Fin (5 * 4000)) (s : ℕ) :
    r ∈ tile s ↔ s * 4000 ≤ r.val ∧ r.val < s * 4000 + 4000 := by
  have hr := r.isLt
  unfold tile
  split
  · rename_i h
    rw [Finset.mem_image]
    constructor
    · rintro ⟨q, _, rfl⟩
      have hq := q.isLt
      simp only [Spec.tileRow]
      omega
    · rintro ⟨h1, h2⟩
      refine ⟨⟨r.val - s * 4000, by omega⟩, Finset.mem_univ _, Fin.ext ?_⟩
      simp only [Spec.tileRow]
      omega
  · rename_i h
    simp only [Finset.notMem_empty, false_iff]
    omega

theorem mem_seen {ι : Type} [DecidableEq ι] (B : ℕ → Finset ι) (r : ι) (t : ℕ) :
    r ∈ seen B t ↔ ∃ s, s < t ∧ r ∈ B s := by
  induction t with
  | zero => simp [seen]
  | succ t ih =>
    rw [seen, Finset.mem_union, ih]
    constructor
    · rintro (⟨s, hs, h⟩ | h)
      · exact ⟨s, by omega, h⟩
      · exact ⟨t, by omega, h⟩
    · rintro ⟨s, hs, h⟩
      rcases Nat.lt_succ_iff_lt_or_eq.mp hs with h' | h'
      · exact Or.inl ⟨s, h', h⟩
      · exact Or.inr (h' ▸ h)

theorem tile_fin (t : Fin 5) :
    tile t.val = Finset.univ.image (Spec.tileRow (G := 5) (T := 4000) t) := by
  unfold tile
  rw [dif_pos t.isLt]

theorem tileRow_injective (t : Fin 5) :
    Function.Injective (Spec.tileRow (G := 5) (T := 4000) t) := by
  intro q q' h
  have := congrArg Fin.val h
  simp only [Spec.tileRow] at this
  exact Fin.ext (by omega)

theorem seen_tile_five : seen tile 5 = Finset.univ := by

  refine Finset.eq_univ_iff_forall.mpr fun r => ?_
  have hr := r.isLt
  exact (mem_seen tile r 5).mpr
    ⟨r.val / 4000, by omega, (mem_tile r _).mpr ⟨by omega, by omega⟩⟩

theorem tile_disjoint (t : ℕ) : Disjoint (seen tile t) (tile t) := by

  refine Finset.disjoint_left.mpr fun r hr ht => ?_
  obtain ⟨s, hs, hrs⟩ := (mem_seen tile r t).mp hr
  have h1 := (mem_tile r s).mp hrs
  have h2 := (mem_tile r t).mp ht
  omega

theorem sup_tile (a : Fin (5 * 4000) → EReal) (t : Fin 5) :
    (tile t.val).sup a = Finset.univ.sup fun r : Fin 4000 => a (Spec.tileRow t r) := by
  rw [tile_fin, Finset.sup_image]
  rfl

theorem sum_tile (f : Fin (5 * 4000) → EReal) (t : Fin 5) :
    ∑ r ∈ tile t.val, f r = ∑ r : Fin 4000, f (Spec.tileRow t r) := by
  rw [tile_fin, Finset.sum_image (fun q _ q' _ h => tileRow_injective t h)]

theorem online_colMax (L : Fin (5 * 4000) → Fin 128 → EReal) (j : Fin 128) :
    mSeq (fun r => L r j) tile 5 = Spec.colMax L j := by
  rw [mSeq_eq, seen_tile_five]
  rfl

theorem online_colSum (L : Fin (5 * 4000) → Fin 128 → EReal)
    (hL : ∀ r j, ∃ x : ℝ, L r j = (x : EReal)) (j : Fin 128) :
    sSeq (fun r => L r j) tile 5 = Spec.colSum L j := by
  rw [sSeq_eq _ (fun r => hL r j) tile tile_disjoint 5, seen_tile_five, online_colMax]
  rfl

theorem colSum_pos_real (L : Fin (5 * 4000) → Fin 128 → EReal)
    (hL : ∀ r j, ∃ x : ℝ, L r j = (x : EReal)) (j : Fin 128) :
    ∃ s : ℝ, 0 < s ∧ Spec.colSum L j = (s : EReal) := by
  have hs : (seen tile 5).Nonempty := by
    rw [seen_tile_five]; exact ⟨⟨0, by norm_num⟩, Finset.mem_univ _⟩
  obtain ⟨s, hs0, hs1⟩ := sSeq_pos_real _ (fun r => hL r j) tile tile_disjoint 5 hs
  exact ⟨s, hs0, by rw [← online_colSum L hL j, hs1]⟩

theorem attn1_eq (L : Fin (5 * 4000) → Fin 128 → EReal)
    (hL : ∀ r j, ∃ x : ℝ, L r j = (x : EReal)) (r : Fin (5 * 4000)) (j : Fin 128) :
    Ideal.div (Ideal.exp (L r j - Spec.colMax L j)) (0 + Spec.colSum L j)
      = Spec.attn1 L (Spec.colMax L) (fun j => Ideal.div 1 (Spec.colSum L j)) r j := by

  obtain ⟨s, hs0, hs1⟩ := colSum_pos_real L hL j
  show Ideal.div (Ideal.exp (L r j - Spec.colMax L j)) (0 + Spec.colSum L j)
      = Ideal.exp (L r j - Spec.colMax L j) * Ideal.div 1 (Spec.colSum L j)
  rw [zero_add, hs1]
  exact div_eq_mul_inv_of_pos _ s hs0

end Cert.Stats
-- ==== Proof.Val.V1.lean ====
import proofs.«429701_j48541720379569_3_alg».proof.Proof.FrameKI.R1
import proofs.«429701_j48541720379569_3_alg».proof.Proof.Val.Spec
import proofs.«429701_j48541720379569_3_alg».proof.Proof.Val.Softmax
import proofs.«429701_j48541720379569_3_alg».proof.Proof.Val.Stats
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-- A rows-by-`K` times `K`-by-columns product into a zero accumulator is, at `(r, j)`, the sum over the contraction coordinate. -/
theorem matmul_plain_apply {M K N : Nat} {φ₁ φ₂ : FTy} (a : FVec Ideal ⟨2, ![M, K]⟩ φ₁) (b : FVec Ideal ⟨2, ![K, N]⟩ φ₂)
    (r : Fin M) (j : Fin N) :
    matmul (DotDims.plain M K N) none a b (constant (F := Ideal) ⟨2, ![M, N]⟩ .f32 0x00000000#32) (ix2 r j)
      = ∑ q : Fin K, a (ix2 r q) * b (ix2 q j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  rw [show (DotDims.plain M K N).lhsIdx (ix2 r j) ((contrEquiv1 _ K rfl rfl).symm k) = ix2 r k from Shape.idx_ext₂ rfl hk,
    show (DotDims.plain M K N).rhsIdx (ix2 r j) ((contrEquiv1 _ K rfl rfl).symm k) = ix2 k j from Shape.idx_ext₂ hk rfl]

/-- A tile's logits at `(r, j)`: its three products added left to right. -/
theorem tileLogits_apply (x : Vec Ideal S4000x64 .f32) (kx : Vec Ideal S64x128 .f32) (agg : Vec Ideal S4000x128 .f32)
    (ka : Vec Ideal S128x128 .f32) (ub : Vec Ideal S4000x8 .f32) (ku : Vec Ideal S8x128 .f32) (r : Fin 4000) (j : Fin 128) :
    (k1_pay5 (F := Ideal) x kx agg ka ub ku : S4000x128.Idx → EReal) (ix2 r j)
      = ((∑ q : Fin 64, (x (ix2 r q) : EReal) * kx (ix2 q j)) + ∑ q : Fin 128, (agg (ix2 r q) : EReal) * ka (ix2 q j))
          + ∑ q : Fin 8, (ub (ix2 r q) : EReal) * ku (ix2 q j) := by
  unfold k1_pay5
  simp only [addf_apply, shapeCast_self]
  exact congrArg₂ (· + ·) (congrArg₂ (· + ·) (matmul_plain_apply _ _ r j) (matmul_plain_apply _ _ r j)) (matmul_plain_apply _ _ r j)

theorem ofBits_neg_inf : Ideal.ofBits .f32 0xFF800000#32 = (⊥ : EReal) := by
  simp [Ideal.ofBits, Ideal.ieee]

theorem lift_col (j : Fin 128) (r : Fin 4000) : reduces_S4000x128_S128.lift (ix1 j) r = ix2 r j :=
  Shape.idx_ext₂ rfl rfl

/-- A tile's column maximum from minus infinity is the supremum over its rows. -/
theorem colMaxTile_apply (src : FVec Ideal S4000x128 .f32) (hφ : FKind.Formats .f32)
    (hacc : (0xFF800000#32 : BitVec 32) = FKind.maximumf.neutral .f32 hφ) (j : Fin 128) :
    multiReduction (F := Ideal) .maximumf [0] S128 src 0xFF800000#32 reduces_S4000x128_S128 hφ hacc (ix1 j)
      = Finset.univ.sup fun r : Fin 4000 => (src (ix2 r j) : EReal) := by
  refine (Ideal.multiReduction_maximumf_single src _ reduces_S4000x128_S128 hφ hacc (ix1 j)).trans ?_
  show (Finset.univ : Finset (Fin 4000)).fold max (Ideal.ofBits .f32 0xFF800000#32) (src ∘ reduces_S4000x128_S128.lift (ix1 j)) = _
  rw [ofBits_neg_inf, show src ∘ reduces_S4000x128_S128.lift (ix1 j) = fun r => src (ix2 r j) from
    funext fun r => congrArg src (lift_col j r)]
  rfl

theorem newMax_apply (x : Vec Ideal S4000x64 .f32) (kx : Vec Ideal S64x128 .f32) (agg : Vec Ideal S4000x128 .f32)
    (ka : Vec Ideal S128x128 .f32) (ub : Vec Ideal S4000x8 .f32) (ku : Vec Ideal S8x128 .f32) (m0 : Vec Ideal S1x128 .f32) (j : Fin 128) :
    (k1_pay6 (F := Ideal) x kx agg ka ub ku m0 : S1x128.Idx → EReal) (ix2 0 j)
      = max (m0 (ix2 0 j) : EReal) (Finset.univ.sup fun r : Fin 4000 => (k1_pay5 (F := Ideal) x kx agg ka ub ku (ix2 r j) : EReal)) := by
  unfold k1_pay6
  simp only [maximumf_apply]
  rw [shapeCast_a_1a_apply]
  exact congrArg (max _) (colMaxTile_apply _ _ _ j)

theorem k1_pay3_apply (i : S1x128.Idx) : (k1_pay3 (F := Ideal) : S1x128.Idx → EReal) i = ⊥ := by
  unfold k1_pay3
  simp only [shapeCast_self, broadcast_apply]
  exact ofBits_neg_inf

theorem k1_pay4_apply (i : S1x128.Idx) : (k1_pay4 (F := Ideal) : S1x128.Idx → EReal) i = 0 := by
  unfold k1_pay4
  simp only [shapeCast_self, broadcast_apply]
  exact Ideal.ofBits_zero_f32

variable (V : (c : Dev nD) → (b : Ref sig .tc) → Buf (Elt Ideal) ((c : Thread nD τ).loc b))

def L1 (c : Dev nD) : Fin (5 * 4000) → Fin 128 → EReal :=
  Spec.logit (fun r q => (V c main_arg0 : S20000x64.Idx → EReal) (ix2 r q))
    (fun r q => (V c main_v57 : S20000x128.Idx → EReal) (ix2 r q))
    (fun r q => (V c main_v39 : S20000x8.Idx → EReal) (ix2 r q))
    (fun q j => (V c main_v61 : S64x128.Idx → EReal) (ix2 q j))
    (fun q j => (V c main_v62 : S128x128.Idx → EReal) (ix2 q j))
    (fun q j => (V c main_v63 : S8x128.Idx → EReal) (ix2 q j))

theorem off1 : ∀ (w : Fin cfg1.W) (t : Fin cfg1.N) (a : Fin (cfg1.win w).shape.rank),
    (cfg1.win w).index t a * (cfg1.win w).size a = if w.val < 3 ∧ a.val = 0 then t.val * 4000 else 0 :=
  (by decide +kernel : ∀ (w : Fin 8) (t : Fin grid1.N) (a : Fin (win1 w).shape.rank), _)

theorem emb1 (w : Fin cfg1.W) (t : Fin cfg1.N) (y : ((cfg1.win w).xblock (cfg1.grid.coords t)).Idx)
    (a : Fin (cfg1.win w).shape.rank) :
    ((((cfg1.win w).rect t).emb y) a : ℕ) = (if w.val < 3 ∧ a.val = 0 then t.val * 4000 else 0) + y a :=
  (Pipeline.Window.rect_emb_val _ t y a).trans (congrArg (· + (y a : ℕ)) (off1 w t a))

theorem off1_zero (w : Fin cfg1.W) (hw : 3 ≤ w.val) (t : Fin cfg1.N) :
    (fun a => (cfg1.win w).index t a * (cfg1.win w).size a) = fun _ => 0 :=
  funext fun a => (off1 w t a).trans (if_neg fun h => absurd h.1 (Nat.not_lt.mpr hw))

theorem tile1_apply (c : Dev nD) (t : Fin cfg1.N) (r : Fin 4000) (j : Fin 128) :
    (k1_pay5 (iblk1 V c 0 t) (iblk1 V c 3 t) (iblk1 V c 1 t) (iblk1 V c 4 t) (iblk1 V c 2 t) (iblk1 V c 5 t) : S4000x128.Idx → EReal) (ix2 r j)
      = L1 V c (Spec.tileRow (G := 5) (T := 4000) ⟨t.val, lt_of_lt_of_eq t.isLt N_1⟩ r) j := by
  refine (tileLogits_apply (iblk1 V c 0 t) (iblk1 V c 3 t) (iblk1 V c 1 t) (iblk1 V c 4 t) (iblk1 V c 2 t) (iblk1 V c 5 t) r j).trans ?_
  unfold L1 Spec.logit
  refine congrArg₂ (· + ·) (congrArg₂ (· + ·) ?_ ?_) ?_ <;>
    refine Finset.sum_congr rfl fun q _ => congrArg₂ (· * ·) ?_ ?_ <;>
    show V c _ _ = V c _ _ <;>
    refine congrArg (V c _) (Shape.idx_ext₂ ?_ ?_) <;>
    refine (emb1 _ t _ _).trans ?_ <;>
    first | rfl | exact Nat.zero_add _

theorem newMax_eq_mAt_succ (c : Dev nD) (n : ℕ) (hn : n < cfg1.N) :
    k1_pay6 (iblk1 V c 0 ⟨n, hn⟩) (iblk1 V c 3 ⟨n, hn⟩) (iblk1 V c 1 ⟨n, hn⟩) (iblk1 V c 4 ⟨n, hn⟩) (iblk1 V c 2 ⟨n, hn⟩) (iblk1 V c 5 ⟨n, hn⟩) (mAt V c n)
      = mAt V c (n + 1) :=
  ((mAt_succ V c n hn).trans (shapeCast_self _ _)).symm

/-- After `n` tiles the carried maximum is the running maximum of the logits' columns over those tiles. -/
theorem mAt_eq (c : Dev nD) (n : ℕ) (hn : n ≤ 5) (j : Fin 128) :
    (mAt (F := Ideal) V c n : S1x128.Idx → EReal) (ix2 0 j) = Cert.Softmax.mSeq (fun r => L1 V c r j) Cert.Stats.tile n := by
  induction n with
  | zero => rw [mAt_zero]; exact k1_pay3_apply _
  | succ n ih =>
    have hn' : n < cfg1.N := lt_of_lt_of_eq (by omega) N_1.symm
    rw [← newMax_eq_mAt_succ V c n hn']
    refine (newMax_apply _ _ _ _ _ _ _ j).trans ?_
    rw [ih (by omega)]
    show _ = max (Cert.Softmax.mSeq (fun r => L1 V c r j) Cert.Stats.tile n) ((Cert.Stats.tile n).sup fun r => L1 V c r j)
    refine congrArg (max _) ?_
    refine Eq.trans ?_ (Cert.Stats.sup_tile (fun r => L1 V c r j) ⟨n, by omega⟩).symm
    exact Finset.sup_congr rfl fun r _ => tile1_apply V c ⟨n, hn'⟩ r j

theorem final1_6 (c : Dev nD) (j : Fin 128) :
    ((dat1 (F := Ideal) V c).arrAt 6 cfg1.N : S1x128.Idx → EReal) (ix2 0 j) = Spec.colMax (L1 V c) j := by
  rw [(dat1 (F := Ideal) V c).arrAt_eq_of_cover 6 (mAt V c 5)
    (fun t _ => (Memref.read_access_unit_zero (Elt Ideal) main_v64_0 (off1_zero 6 (by decide) t) _ _).symm)
    fun i => ⟨t1_4, (flush1_6 t1_4).mpr rfl, (Finset.ext_iff.mp (View.set_slice_whole main_v64_0 _) i).mpr
      (View.mem_set_unit_zero (off1_zero 6 (by decide) t1_4) _ i)⟩,
    mAt_eq V c 5 le_rfl j, Cert.Stats.online_colMax]

end Cert.KernelIdeal.HandV

end
-- ==== Proof.Val.V1L.lean ====
import proofs.«429701_j48541720379569_3_alg».proof.Proof.Val.V1
import proofs.«429701_j48541720379569_3_alg».proof.Proof.Val.Softmax
import proofs.«429701_j48541720379569_3_alg».proof.Proof.Val.Stats
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandV

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The new sum at a column: the old sum times the rescaling factor, plus the tile's column sum. -/
theorem pay1_apply (v31 : FVec Ideal S1x128 .f32) (v34 : FVec Ideal S4000x128 .f32) (v37 : Vec Ideal S1x128 .f32) (j : Fin 128) :
    (k1_pay1 v31 v34 v37 : S1x128.Idx → EReal) (ix2 (0 : Fin 1) j)
      = (v37 (ix2 (0 : Fin 1) j) : EReal) * v31 (ix2 (0 : Fin 1) j) + ∑ r : Fin 4000, (v34 (ix2 r j) : EReal) := by
  unfold k1_pay1
  simp only [shapeCast_self]
  rw [addf_apply, mulf_apply, shapeCast_a_1a_apply]
  exact congrArg (_ + ·) ((Ideal.multiReduction_add_single v34 _ reduces_S4000x128_S128 _ _ (ix1 j)).trans
    (Finset.sum_congr rfl fun k _ => congrArg v34 (lift_col j k)))

theorem pay7_apply (x : Vec Ideal S4000x64 .f32) (kx : Vec Ideal S64x128 .f32) (agg : Vec Ideal S4000x128 .f32)
    (ka : Vec Ideal S128x128 .f32) (ub : Vec Ideal S4000x8 .f32) (ku : Vec Ideal S8x128 .f32) (m0 m0' : Vec Ideal S1x128 .f32) (j : Fin 128) :
    (k1_pay7 x kx agg ka ub ku m0 m0' : S1x128.Idx → EReal) (ix2 (0 : Fin 1) j)
      = Ideal.exp ((m0' (ix2 (0 : Fin 1) j) : EReal) - k1_pay6 x kx agg ka ub ku m0 (ix2 (0 : Fin 1) j)) :=
  rfl

theorem pay8_apply (x : Vec Ideal S4000x64 .f32) (kx : Vec Ideal S64x128 .f32) (agg : Vec Ideal S4000x128 .f32)
    (ka : Vec Ideal S128x128 .f32) (ub : Vec Ideal S4000x8 .f32) (ku : Vec Ideal S8x128 .f32) (m0 : Vec Ideal S1x128 .f32)
    (r : Fin 4000) (j : Fin 128) :
    (k1_pay8 x kx agg ka ub ku m0 : S4000x128.Idx → EReal) (ix2 r j)
      = Ideal.exp ((k1_pay5 x kx agg ka ub ku (ix2 r j) : EReal) - k1_pay6 x kx agg ka ub ku m0 (ix2 (0 : Fin 1) j)) := by
  show Ideal.exp (subf (k1_pay5 x kx agg ka ub ku) (broadcastTo S4000x128 (k1_pay6 x kx agg ka ub ku m0) broadcasts_S1x128_S4000x128) (ix2 r j)) = _
  rw [subf_apply, broadcastTo_1b_ab_apply]

/-- The carried sum after `n` tiles is the online softmax sum of the logits' columns over those tiles. -/
theorem lAt_eq (c : Dev nD) (n : ℕ) (hn : n ≤ 5) (j : Fin 128) :
    (lAt (F := Ideal) V c n : S1x128.Idx → EReal) (ix2 0 j) = Cert.Softmax.sSeq (fun r => L1 V c r j) Cert.Stats.tile n := by
  induction n with
  | zero =>
    rw [lAt_zero]
    exact k1_pay4_apply _
  | succ n ih =>
    have hn' : n < cfg1.N := lt_of_lt_of_eq (Nat.lt_of_succ_le hn) N_1.symm
    rw [lAt_succ V c n hn', pay1_apply, pay7_apply, newMax_eq_mAt_succ V c n hn', ih (Nat.le_of_succ_le hn),
      mAt_eq V c n (Nat.le_of_succ_le hn) j, mAt_eq V c (n + 1) hn j]
    show _ = Cert.Softmax.sSeq (fun r => L1 V c r j) Cert.Stats.tile n
          * Ideal.exp (Cert.Softmax.mSeq (fun r => L1 V c r j) Cert.Stats.tile n - Cert.Softmax.mSeq (fun r => L1 V c r j) Cert.Stats.tile (n + 1))
        + ∑ r ∈ Cert.Stats.tile n, Ideal.exp (L1 V c r j - Cert.Softmax.mSeq (fun r => L1 V c r j) Cert.Stats.tile (n + 1))
    congr 1
    refine Eq.trans ?_ (Cert.Stats.sum_tile (fun r => Ideal.exp (L1 V c r j - Cert.Softmax.mSeq (fun r => L1 V c r j) Cert.Stats.tile (n + 1))) ⟨n, Nat.lt_of_succ_le hn⟩).symm
    refine Finset.sum_congr rfl fun r _ => ?_
    rw [pay8_apply, newMax_eq_mAt_succ V c n hn', mAt_eq V c (n + 1) hn j, tile1_apply V c ⟨n, hn'⟩ r j]

theorem final1_7 (c : Dev nD) (hL : ∀ r j, ∃ x : ℝ, L1 V c r j = (x : EReal)) (j : Fin 128) :
    ((dat1 (F := Ideal) V c).arrAt 7 cfg1.N : S1x128.Idx → EReal) (ix2 0 j) = Spec.colSum (L1 V c) j := by
  rw [(dat1 (F := Ideal) V c).arrAt_eq_of_cover 7 (lAt V c 5)
    (fun t _ => (Memref.read_access_unit_zero (Elt Ideal) main_v64_1 (off1_zero 7 (by decide) t) _ _).symm)
    fun i => ⟨t1_4, (flush1_7 t1_4).mpr rfl, (Finset.ext_iff.mp (View.set_slice_whole main_v64_1 _) i).mpr
      (View.mem_set_unit_zero (off1_zero 7 (by decide) t1_4) _ i)⟩,
    lAt_eq V c 5 (Nat.le_refl 5) j]
  exact Cert.Stats.online_colSum (L1 V c) hL j

end Cert.KernelIdeal.HandV

end
-- ==== Proof.Val.RefN.lean ====
import proofs.«429701_j48541720379569_3_alg».proof.Proof.Val.RefGen
import proofs.«429701_j48541720379569_3_alg».proof.Proof.Val.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.RefSpec

open Cert.ReferenceIdeal Cert.ReferenceIdeal.Gen Cert.ReferenceIdeal.ReadP Idealize.ShloMosaic Idealize.ShloMosaic.ValueIdx

theorem sum_three_blocks {M : Type} [AddCommMonoid M] (a b c n : Nat) (h : a + b + c = n) (f : Fin n → M) :
    ∑ k, f k = ((∑ q : Fin a, f ⟨q.val, by omega⟩) + ∑ q : Fin b, f ⟨a + q.val, by omega⟩)
      + ∑ q : Fin c, f ⟨a + b + q.val, by omega⟩ := by
  subst h
  rw [Fin.sum_univ_add, Fin.sum_univ_add]
  rfl

theorem sum_200 {M : Type} [AddCommMonoid M] (f : Fin 200 → M) :
    ∑ k, f k = ((∑ q : Fin 64, f ⟨q.val, by omega⟩) + ∑ q : Fin 128, f ⟨64 + q.val, by omega⟩)
      + ∑ q : Fin 8, f ⟨192 + q.val, by omega⟩ :=
  sum_three_blocks 64 128 8 200 rfl f

theorem cat_piece0 {α : Type} (y0 : S20000x64.Idx → α) (y1 : S20000x128.Idx → α) (y2 : S20000x8.Idx → α)
    (r : Fin 20000) (q : Fin 64) :
    concatenate S20000x200 1 [⟨S20000x64, y0⟩, ⟨S20000x128, y1⟩, ⟨S20000x8, y2⟩]
        concatenates_S20000x64_S20000x128_S20000x8_S20000x200_d1 (ix2 r ⟨q.val, by omega⟩) = y0 (ix2 r q) :=
  concatenate_apply_piece (1 : Fin S20000x200.rank) [⟨S20000x64, y0⟩, ⟨S20000x128, y1⟩, ⟨S20000x8, y2⟩]
    concatenates_S20000x64_S20000x128_S20000x8_S20000x200_d1
    (ix2 r ⟨q.val, by omega⟩) 0 (by simp) S20000x64 y0 rfl rfl 0 rfl (ix2 r q)
    (fun b hb => by
      match b, hb with
      | ⟨0, _⟩, _ => rfl
      | ⟨1, _⟩, hb => exact absurd (Fin.ext rfl) hb)
    (by show 0 + q.val = q.val; omega)

theorem cat_piece1 {α : Type} (y0 : S20000x64.Idx → α) (y1 : S20000x128.Idx → α) (y2 : S20000x8.Idx → α)
    (r : Fin 20000) (q : Fin 128) :
    concatenate S20000x200 1 [⟨S20000x64, y0⟩, ⟨S20000x128, y1⟩, ⟨S20000x8, y2⟩]
        concatenates_S20000x64_S20000x128_S20000x8_S20000x200_d1 (ix2 r ⟨64 + q.val, by omega⟩) = y1 (ix2 r q) :=
  concatenate_apply_piece (1 : Fin S20000x200.rank) [⟨S20000x64, y0⟩, ⟨S20000x128, y1⟩, ⟨S20000x8, y2⟩]
    concatenates_S20000x64_S20000x128_S20000x8_S20000x200_d1
    (ix2 r ⟨64 + q.val, by omega⟩) 1 (by simp) S20000x128 y1 rfl rfl 64 rfl (ix2 r q)
    (fun b hb => by
      match b, hb with
      | ⟨0, _⟩, _ => rfl
      | ⟨1, _⟩, hb => exact absurd (Fin.ext rfl) hb)
    (by show 64 + q.val = 64 + q.val; rfl)

theorem cat_piece2 {α : Type} (y0 : S20000x64.Idx → α) (y1 : S20000x128.Idx → α) (y2 : S20000x8.Idx → α)
    (r : Fin 20000) (q : Fin 8) :
    concatenate S20000x200 1 [⟨S20000x64, y0⟩, ⟨S20000x128, y1⟩, ⟨S20000x8, y2⟩]
        concatenates_S20000x64_S20000x128_S20000x8_S20000x200_d1 (ix2 r ⟨192 + q.val, by omega⟩) = y2 (ix2 r q) :=
  concatenate_apply_piece (1 : Fin S20000x200.rank) [⟨S20000x64, y0⟩, ⟨S20000x128, y1⟩, ⟨S20000x8, y2⟩]
    concatenates_S20000x64_S20000x128_S20000x8_S20000x200_d1
    (ix2 r ⟨192 + q.val, by omega⟩) 2 (by simp) S20000x8 y2 rfl rfl 192 rfl (ix2 r q)
    (fun b hb => by
      match b, hb with
      | ⟨0, _⟩, _ => rfl
      | ⟨1, _⟩, hb => exact absurd (Fin.ext rfl) hb)
    (by show 192 + q.val = 192 + q.val; rfl)

theorem ofBits_neg_inf : (Ideal.ofBits .f32 0xFF800000#32 : EReal) = ⊥ := by
  simp [Ideal.ofBits, Ideal.ieee]

theorem lift_row (h : S20000x128.Reduces [0] S128) (j : Fin 128) (k : Fin (S20000x128.size 0)) :
    h.lift (ix1 j) k = ix2 (⟨k.val, k.isLt⟩ : Fin 20000) j := by
  funext c
  apply Fin.ext
  rw [h.lift_val]
  match c with
  | ⟨0, _⟩ => rfl
  | ⟨1, _⟩ => rfl

theorem reduce_max_col (L : FVec Ideal S20000x128 .f32) (j : Fin 128) :
    Host.reduce FloatOps.maximumf L (constant (F := Ideal) S_ .f32 0xFF800000#32) reducesTo_S20000x128_S128_d0 h_S_ (ix1 j)
      = Finset.univ.sup fun r : Fin 20000 => L (ix2 r j) := by
  have h : S20000x128.Reduces [0] S128 := by decide
  rw [Host.reduce_eq_fold_single FloatOps.maximumf L _ reducesTo_S20000x128_S128_d0 h h_S_]
  have hf : (L ∘ h.lift (ix1 j)) = fun k : Fin 20000 => L (ix2 k j) := funext fun k => congrArg L (lift_row h j k)
  rw [hf]
  show Finset.fold max (Ideal.ofBits .f32 0xFF800000#32) (fun k : Fin 20000 => L (ix2 k j)) Finset.univ = _
  rw [ofBits_neg_inf]
  rfl

section Stages

variable (x0 : (⟨S20000x64, .f32⟩ : BufTy).Contents (Elt Ideal)) (x1 : (⟨S320000x16, .f32⟩ : BufTy).Contents (Elt Ideal)) (x2 : (⟨S64x8, .f32⟩ : BufTy).Contents (Elt Ideal))
  (x3 : (⟨S152x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x7 : (⟨S128x200, .f32⟩ : BufTy).Contents (Elt Ideal)) (x8 : (⟨S128x264, .f32⟩ : BufTy).Contents (Elt Ideal)) (x9 : (⟨S264x128, .f32⟩ : BufTy).Contents (Elt Ideal)) (x10 : (⟨S128, .f32⟩ : BufTy).Contents (Elt Ideal))
  (x11 : (⟨S128x128, .f32⟩ : BufTy).Contents (Elt Ideal)) (x12 : (⟨S128, .f32⟩ : BufTy).Contents (Elt Ideal))
  (x17 : (⟨S2x320000, .i32⟩ : BufTy).Contents (Elt Ideal)) (x18 : (⟨S20000, .i32⟩ : BufTy).Contents (Elt Ideal))

local notation "V44" => val_main_v44 (F := Ideal) x0 x1 x2 x3 x4 x5 x6 x17 x18
local notation "V51" => val_main_v51 (F := Ideal) x2 x18
local notation "V52" => val_main_v52 (F := Ideal) x0 x1 x2 x3 x4 x5 x6 x17 x18
local notation "V54" => val_main_v54 (F := Ideal) x0 x1 x2 x3 x4 x5 x6 x7 x17 x18
local notation "V57" => val_main_v57 (F := Ideal) x0 x1 x2 x3 x4 x5 x6 x7 x17 x18
local notation "V59" => val_main_v59 (F := Ideal) x0 x1 x2 x3 x4 x5 x6 x7 x17 x18
local notation "V61" => val_main_v61 (F := Ideal) x0 x1 x2 x3 x4 x5 x6 x7 x17 x18
local notation "V62" => val_main_v62 (F := Ideal) x0 x1 x2 x3 x4 x5 x6 x7 x17 x18
local notation "V64" => val_main_v64 (F := Ideal) x0 x1 x2 x3 x4 x5 x6 x7 x17 x18
local notation "V65" => val_main_v65 (F := Ideal) x0 x1 x2 x3 x4 x5 x6 x7 x17 x18
local notation "V66" => val_main_v66 (F := Ideal) x0 x1 x2 x3 x4 x5 x6 x7 x17 x18
local notation "V68" => val_main_v68 (F := Ideal) x0 x1 x2 x3 x4 x5 x6 x7 x17 x18
local notation "V69" => val_main_v69 (F := Ideal) x0 x1 x2 x3 x4 x5 x6 x7 x17 x18
local notation "V70" => val_main_v70 (F := Ideal) x0 x1 x2 x3 x4 x5 x6 x7 x8 x17 x18
local notation "V71" => val_main_v71 (F := Ideal) x0 x1 x2 x3 x4 x5 x6 x7 x8 x9 x17 x18
local notation "V74" => val_main_v74 (F := Ideal) x0 x1 x2 x3 x4 x5 x6 x7 x8 x9 x10 x17 x18
local notation "V75" => val_main_v75 (F := Ideal) x0 x1 x2 x3 x4 x5 x6 x7 x8 x9 x10 x17 x18
local notation "V76" => val_main_v76 (F := Ideal) x0 x1 x2 x3 x4 x5 x6 x7 x8 x9 x10 x11 x17 x18
local notation "V79" => val_main_v79 (F := Ideal) x0 x1 x2 x3 x4 x5 x6 x7 x8 x9 x10 x11 x12 x17 x18

theorem v52_nodes (r : Fin 20000) (q : Fin 64) : V52 (ix2 r ⟨q.val, by omega⟩) = x0 (ix2 r q) := by
  unfold val_main_v52
  exact cat_piece0 x0 V44 V51 r q

theorem v52_agg (r : Fin 20000) (q : Fin 128) : V52 (ix2 r ⟨64 + q.val, by omega⟩) = V44 (ix2 r q) := by
  unfold val_main_v52
  exact cat_piece1 x0 V44 V51 r q

theorem v52_graph (r : Fin 20000) (q : Fin 8) : V52 (ix2 r ⟨192 + q.val, by omega⟩) = V51 (ix2 r q) := by
  unfold val_main_v52
  exact cat_piece2 x0 V44 V51 r q

theorem ref_logit (r : Fin 20000) (j : Fin 128) :
    V54 (ix2 r j)
      = Spec.logit (fun r q => x0 (ix2 r q)) (fun r q => V44 (ix2 r q)) (fun r q => V51 (ix2 r q))
          (fun q j => x7 (ix2 j ⟨q.val, by omega⟩)) (fun q j => x7 (ix2 j ⟨64 + q.val, by omega⟩))
          (fun q j => x7 (ix2 j ⟨192 + q.val, by omega⟩)) r j := by
  rw [val_main_v54_apply]

  have e : ∀ k : Fin 200, V52 (lidx_main_v54 (ix2 r j) k) * val_main_v53 (F := Ideal) x7 (ridx_main_v54 (ix2 r j) k)
      = V52 (ix2 r k) * x7 (ix2 j k) := fun k => by
    rw [val_main_v53_apply,
      show lidx_main_v54 (ix2 r j) k = ix2 r k from funext fun a => Fin.ext (by match a with | ⟨0, _⟩ => rfl | ⟨1, _⟩ => rfl),
      show idx_main_v53 (ridx_main_v54 (ix2 r j) k) = ix2 j k from funext fun a => Fin.ext (by match a with | ⟨0, _⟩ => rfl | ⟨1, _⟩ => rfl)]

  rw [Finset.sum_congr rfl fun k _ => e k, sum_200]
  simp only [v52_nodes, v52_agg, v52_graph]
  rfl

theorem ref_colmax (j : Fin 128) :
    V57 (ix1 j) = Spec.colMax (fun r j => V54 (ix2 r j)) j := by
  rw [val_main_v57_apply, val_main_v56_apply, val_main_cst_10_apply, Ideal.ofBits_def, ofBits_neg_inf]
  unfold val_main_v55 val_main_cst_9
  generalize V54 = L

  rw [reduce_max_col, Ideal.maximumf_def, max_eq_right bot_le]
  rfl

theorem v59_at (r : Fin 20000) (j : Fin 128) : V59 (ix2 r j) = V57 (ix1 j) := by
  rw [val_main_v59_apply, val_main_v58_apply]
  exact congrArg V57 (funext fun a => Fin.ext (by match a with | ⟨0, _⟩ => rfl))

theorem v61_at (r : Fin 20000) (j : Fin 128) : V61 (ix2 r j) = Ideal.exp (V54 (ix2 r j) - V57 (ix1 j)) := by
  rw [val_main_v61_apply, val_main_v60_apply, v59_at]
  rfl

theorem ref_colsum (j : Fin 128) :
    V62 (ix1 j) = 0 + Spec.colSum (fun r j => V54 (ix2 r j)) j := by
  rw [val_main_v62_apply, val_main_cst_11_apply, Ideal.ofBits_def, Ideal.ofBits_zero_f32]
  unfold Spec.colSum
  refine congrArg (0 + ·) (Finset.sum_congr rfl fun k _ => ?_)
  rw [show idx_main_v62 (ix1 j) k = ix2 k j from funext fun a => Fin.ext (by match a with | ⟨0, _⟩ => rfl | ⟨1, _⟩ => rfl), v61_at, ref_colmax]

theorem v64_at (r : Fin 20000) (j : Fin 128) : V64 (ix2 r j) = V62 (ix1 j) := by
  rw [val_main_v64_apply, val_main_v63_apply]
  exact congrArg V62 (funext fun a => Fin.ext (by match a with | ⟨0, _⟩ => rfl))

theorem v65_at (r : Fin 20000) (j : Fin 128) :
    V65 (ix2 r j) = Ideal.div (Ideal.exp (V54 (ix2 r j) - V57 (ix1 j))) (V62 (ix1 j)) := by
  rw [val_main_v65_apply, v61_at, v64_at]
  rfl

theorem v66_at (r : Fin 20000) : V66 (ix1 r) = ∑ i : Fin 128, V65 (ix2 r i) := by
  rw [val_main_v66_apply, val_main_cst_12_apply, Ideal.ofBits_def, Ideal.ofBits_zero_f32, zero_add]
  exact Finset.sum_congr rfl fun i _ => congrArg V65 (funext fun a => Fin.ext (by match a with | ⟨0, _⟩ => rfl | ⟨1, _⟩ => rfl))

theorem v68_at (r : Fin 20000) (j : Fin 128) : V68 (ix2 r j) = V66 (ix1 r) := by
  rw [val_main_v68_apply, val_main_v67_apply]
  exact congrArg V66 (funext fun a => Fin.ext (by match a with | ⟨0, _⟩ => rfl))

theorem v69_spec (r : Fin 20000) (j : Fin 128) :
    V69 (ix2 r j)
      = Spec.attn2 (fun r j => Ideal.div (Ideal.exp (V54 (ix2 r j) - V57 (ix1 j))) (V62 (ix1 j))) r j := by
  rw [val_main_v69_apply, v68_at, v66_at]
  simp only [v65_at]
  rfl

theorem v70_at (r : Fin 20000) (q : Fin 264) : V70 (ix2 r q) = ∑ j : Fin 128, V69 (ix2 r j) * x8 (ix2 j q) := by
  rw [val_main_v70_apply]
  refine Finset.sum_congr rfl fun j _ => ?_
  rw [show lidx_main_v70 (ix2 r q) j = ix2 r j from funext fun a => Fin.ext (by match a with | ⟨0, _⟩ => rfl | ⟨1, _⟩ => rfl),
    show ridx_main_v70 (ix2 r q) j = ix2 j q from funext fun a => Fin.ext (by match a with | ⟨0, _⟩ => rfl | ⟨1, _⟩ => rfl)]

theorem v71_at (r : Fin 20000) (k : Fin 128) : V71 (ix2 r k) = ∑ q : Fin 264, V70 (ix2 r q) * x9 (ix2 q k) := by
  rw [val_main_v71_apply]
  refine Finset.sum_congr rfl fun q _ => ?_
  rw [show lidx_main_v71 (ix2 r k) q = ix2 r q from funext fun a => Fin.ext (by match a with | ⟨0, _⟩ => rfl | ⟨1, _⟩ => rfl),
    show ridx_main_v71 (ix2 r k) q = ix2 q k from funext fun a => Fin.ext (by match a with | ⟨0, _⟩ => rfl | ⟨1, _⟩ => rfl)]

theorem v73_at (r : Fin 20000) (k : Fin 128) : val_main_v73 (F := Ideal) x10 (ix2 r k) = x10 (ix1 k) := by
  rw [val_main_v73_apply, val_main_v72_apply]
  exact congrArg x10 (funext fun a => Fin.ext (by match a with | ⟨0, _⟩ => rfl))

theorem v74_at (r : Fin 20000) (k : Fin 128) : V74 (ix2 r k) = V71 (ix2 r k) + x10 (ix1 k) := by
  rw [val_main_v74_apply, v73_at]
  rfl

theorem relu_zero_at (i : S20000x128.Idx) : val_main_call1_v0 (F := Ideal) i = 0 := by
  rw [val_main_call1_v0_apply, val_main_call1_cst_apply, Ideal.ofBits_def, Ideal.ofBits_zero_f32]

theorem v75_at (r : Fin 20000) (k : Fin 128) : V75 (ix2 r k) = Spec.relu (V74 (ix2 r k)) := by
  rw [val_main_v75_apply, relu_zero_at]
  rfl

theorem v76_at (r : Fin 20000) (n : Fin 128) : V76 (ix2 r n) = ∑ k : Fin 128, V75 (ix2 r k) * x11 (ix2 k n) := by
  rw [val_main_v76_apply]
  refine Finset.sum_congr rfl fun k _ => ?_
  rw [show lidx_main_v76 (ix2 r n) k = ix2 r k from funext fun a => Fin.ext (by match a with | ⟨0, _⟩ => rfl | ⟨1, _⟩ => rfl),
    show ridx_main_v76 (ix2 r n) k = ix2 k n from funext fun a => Fin.ext (by match a with | ⟨0, _⟩ => rfl | ⟨1, _⟩ => rfl)]

theorem v78_at (r : Fin 20000) (n : Fin 128) : val_main_v78 (F := Ideal) x12 (ix2 r n) = x12 (ix1 n) := by
  rw [val_main_v78_apply, val_main_v77_apply]
  exact congrArg x12 (funext fun a => Fin.ext (by match a with | ⟨0, _⟩ => rfl))

theorem v79_at (r : Fin 20000) (n : Fin 128) : V79 (ix2 r n) = V76 (ix2 r n) + x12 (ix1 n) := by
  rw [val_main_v79_apply, v78_at]
  rfl

theorem ref_xnew (r : Fin 20000) (n : Fin 128) :
    V79 (ix2 r n)
      = Spec.nodeOut
          (Spec.nodeHid
            (Spec.attnOut
              (Spec.attn2 (fun r j => Ideal.div (Ideal.exp (V54 (ix2 r j) - V57 (ix1 j))) (V62 (ix1 j))))
              (fun j q => x8 (ix2 j q)))
            (fun q k => x9 (ix2 q k)) (fun k => x10 (ix1 k)))
          (fun k n => x11 (ix2 k n)) (fun n => x12 (ix1 n)) r n := by
  rw [v79_at, v76_at]
  simp only [v75_at, v74_at, v71_at, v70_at, v69_spec]
  rfl

end Stages

end Cert.RefSpec
-- ==== Proof.Val.LibFinite.lean ====
import Idealize.ShloMosaic.PureOps.Ideal
import Idealize.ShloMosaic.PureOps.Ideal.Laws
import Idealize.ShloMosaic.Lib.ValueIdx
import Idealize.ShloMosaic.Lib.IdealHost
import Mathlib.Data.EReal.Basic
import Mathlib.Data.EReal.Operations
import Mathlib.Data.EReal.Inv
import Mathlib.Algebra.BigOperators.Group.Finset.Basic

noncomputable section

open scoped BigOperators

namespace Cert.Fin

open Idealize.ShloMosaic Idealize.ShloMosaic.ValueIdx

/-- An extended real is finite when it is neither infinity. -/
def IsFin (x : EReal) : Prop := x ≠ ⊤ ∧ x ≠ ⊥

theorem IsFin.coe (r : ℝ) : IsFin (r : EReal) := ⟨EReal.coe_ne_top r, EReal.coe_ne_bot r⟩

/-- Finite means: the image of a real number. -/
theorem isFin_iff (x : EReal) : IsFin x ↔ ∃ r : ℝ, x = (r : EReal) :=
  ⟨fun h => ⟨x.toReal, (EReal.coe_toReal h.1 h.2).symm⟩, fun ⟨r, e⟩ => e ▸ IsFin.coe r⟩

theorem IsFin.zero : IsFin (0 : EReal) := IsFin.coe 0

theorem IsFin.add {x y : EReal} (hx : IsFin x) (hy : IsFin y) : IsFin (x + y) := by
  lift x to ℝ using hx
  lift y to ℝ using hy
  exact IsFin.coe (x + y)

theorem IsFin.mul {x y : EReal} (hx : IsFin x) (hy : IsFin y) : IsFin (x * y) := by
  lift x to ℝ using hx
  lift y to ℝ using hy
  exact IsFin.coe (x * y)

/-- The greater of two is one of them. -/
theorem IsFin.max {x y : EReal} (hx : IsFin x) (hy : IsFin y) : IsFin (max x y) := by
  rcases max_choice x y with h | h <;> rw [h] <;> assumption

theorem IsFin.sum {ι : Type*} (s : Finset ι) (f : ι → EReal) (h : ∀ i ∈ s, IsFin (f i)) : IsFin (∑ i ∈ s, f i) :=
  Finset.sum_induction f IsFin (fun _ _ => IsFin.add) IsFin.zero h

/-- Every entry of the array is finite. -/
def IsFinV {s : Shape} (v : s.Idx → EReal) : Prop := ∀ i, IsFin (v i)

variable {s : Shape}

theorem IsFinV.constant_zero (s : Shape) : IsFinV (constant (F := Ideal) s .f32 0x00000000#32) := by
  intro i
  rw [constant_apply, Ideal.ofBits_zero_f32]
  exact IsFin.zero

/-- A broadcast reads, at every index, some entry of its operand. -/
theorem IsFinV.broadcastInDim {t : Shape} (dims : Fin s.rank → Fin t.rank) (h : s.BroadcastsInDim t dims)
    (x : s.Idx → EReal) (hx : IsFinV x) : IsFinV (broadcastInDim t dims h x) :=
  fun _ => hx _

/-- A gather reads, at every index, some entry of its operand. -/
theorem IsFinV.gather {si t : Shape} {w : Nat} (d : GatherDims s si t) (x : s.Idx → EReal) (idx : IVec si w)
    (hx : IsFinV x) : IsFinV (Host.gather d x idx) :=
  fun _ => hx _

/-- An accumulating scatter: each entry is the operand's entry plus a finite sum of updates. -/
theorem IsFinV.scatterAdd {si u : Shape} {w : Nat} (d : ScatterDims s si u) (x : FVec Ideal s .f32) (idx : IVec si w)
    (upd : FVec Ideal u .f32) (hx : IsFinV x) (hu : IsFinV upd) : IsFinV (Host.scatterAdd d x idx upd) :=
  fun i => IsFin.add (hx i) (IsFin.sum _ _ fun j _ => hu j)

end Cert.Fin

end
-- ==== Proof.Val.Fin.lean ====
import proofs.«429701_j48541720379569_3_alg».proof.Defs
import proofs.«429701_j48541720379569_3_alg».proof.Proof.Gen.Pre_finite_inputs
import proofs.«429701_j48541720379569_3_alg».proof.Proof.Val.Spec
import proofs.«429701_j48541720379569_3_alg».proof.Proof.Val.LibFinite
import Idealize.ShloMosaic.Lib.ReduceAll
import Idealize.ShloMosaic.Lib.ValueIdx

noncomputable section

open scoped BigOperators

namespace Cert.FinK

open Idealize.ShloMosaic Idealize.SL.Sem Cert.Fin Cert.Spec Cert.Pre_finite_inputs

/-- `max x (-x) < ⊤` excludes both infinities. -/
theorem isFin_of_abs_lt_inf (x : EReal)
    (h : FloatOps.cmpf (F := Ideal) (φ := .f32) .olt (FloatOps.hostAbsf (F := Ideal) (φ := .f32) x)
          (Ideal.ofBits .f32 0x7F800000#32) = 1#1) : IsFin x := by
  rw [show Ideal.ofBits .f32 0x7F800000#32 = ⊤ by simp [Ideal.ofBits, Ideal.ieee]] at h
  change BitVec.ofBool (decide (max x (-x) < ⊤)) = 1#1 at h
  have hlt : max x (-x) < ⊤ := by
    by_contra hn
    rw [decide_eq_false hn] at h
    exact absurd h (by decide)
  rw [max_lt_iff] at hlt
  exact ⟨hlt.1.ne, mt EReal.neg_eq_top_iff.2 hlt.2.ne⟩

instance subsingleton_S_Idx : Subsingleton S_.Idx := ⟨fun a b => funext fun d => d.elim0⟩

/-- A conjunction over all indices that is true is true at each index. -/
theorem isFinV_of_all {s : Shape} {axes : List (Fin s.rank)} {hb : S_.BroadcastsInDim s (![] : Fin 0 → Fin s.rank)}
    {hr : s.ReducesTo axes S_} {hu : 0 < S_.numel} {x : FVec Ideal s .f32}
    (e : Host.reduce IntOp.andi (cmpf .olt (Host.absf x) (broadcastInDim s ![] hb (constant S_ .f32 0x7F800000#32)))
          (constantI S_ 1 1#1) hr hu ValueIdx.ix0 = 1#1) : IsFinV x :=
  fun i => isFin_of_abs_lt_inf (x i) (Host.reduce_andi_all _ _ hr hu ValueIdx.ix0 e i)

/-- The precondition is a conjunction of one such test per float argument; the first eight are read off. -/
theorem fin_of_fn [Facts] {a0 a1 a2 a3 a4 a5 a6 a7 a8 a9 a10 a11 a12 a13 a14 a15 a16 a17 a18}
    (h : fn (F := Ideal) a0 a1 a2 a3 a4 a5 a6 a7 a8 a9 a10 a11 a12 a13 a14 a15 a16 a17 a18 = fun _ => 1#1) :
    IsFinV a0 ∧ IsFinV a1 ∧ IsFinV a2 ∧ IsFinV a3 ∧ IsFinV a4 ∧ IsFinV a5 ∧ IsFinV a6 ∧ IsFinV a7 := by
  have h0 := congrFun h ValueIdx.ix0
  simp only [fn, fn_part1, fn_part2, fn_part3, fn_part4, andi, IntOp.andi_eq_one] at h0
  obtain ⟨⟨⟨⟨⟨⟨⟨⟨⟨⟨⟨⟨⟨⟨⟨⟨e0, e1⟩, e2⟩, e3⟩, e4⟩, e5⟩, e6⟩, e7⟩, -⟩, -⟩, -⟩, -⟩, -⟩, -⟩, -⟩, -⟩, -⟩ := h0
  exact ⟨isFinV_of_all e0, isFinV_of_all e1, isFinV_of_all e2, isFinV_of_all e3, isFinV_of_all e4, isFinV_of_all e5,
    isFinV_of_all e6, isFinV_of_all e7⟩

theorem pre_fin0 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    IsFinV (m ((c.tc : Thread Cert.KernelIdeal.nD Cert.KernelIdeal.τ).loc Cert.KernelIdeal.main_arg0) : S20000x64.Idx → EReal) :=
  (fin_of_fn (h c)).1

theorem pre_fin1 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    IsFinV (m ((c.tc : Thread Cert.KernelIdeal.nD Cert.KernelIdeal.τ).loc Cert.KernelIdeal.main_arg1) : S320000x16.Idx → EReal) :=
  (fin_of_fn (h c)).2.1

theorem pre_fin2 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    IsFinV (m ((c.tc : Thread Cert.KernelIdeal.nD Cert.KernelIdeal.τ).loc Cert.KernelIdeal.main_arg2) : S64x8.Idx → EReal) :=
  (fin_of_fn (h c)).2.2.1

theorem pre_fin3 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    IsFinV (m ((c.tc : Thread Cert.KernelIdeal.nD Cert.KernelIdeal.τ).loc Cert.KernelIdeal.main_arg3) : S152x128.Idx → EReal) :=
  (fin_of_fn (h c)).2.2.2.1

theorem pre_fin4 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    IsFinV (m ((c.tc : Thread Cert.KernelIdeal.nD Cert.KernelIdeal.τ).loc Cert.KernelIdeal.main_arg4) : S128.Idx → EReal) :=
  (fin_of_fn (h c)).2.2.2.2.1

theorem pre_fin5 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    IsFinV (m ((c.tc : Thread Cert.KernelIdeal.nD Cert.KernelIdeal.τ).loc Cert.KernelIdeal.main_arg5) : S128x128.Idx → EReal) :=
  (fin_of_fn (h c)).2.2.2.2.2.1

theorem pre_fin6 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    IsFinV (m ((c.tc : Thread Cert.KernelIdeal.nD Cert.KernelIdeal.τ).loc Cert.KernelIdeal.main_arg6) : S128.Idx → EReal) :=
  (fin_of_fn (h c)).2.2.2.2.2.2.1

theorem pre_fin7 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    IsFinV (m ((c.tc : Thread Cert.KernelIdeal.nD Cert.KernelIdeal.τ).loc Cert.KernelIdeal.main_arg7) : S128x200.Idx → EReal) :=
  (fin_of_fn (h c)).2.2.2.2.2.2.2

/-- A finite sum of products of finite numbers is finite. -/
theorem dot_isFin {n : Nat} {f g : Fin n → EReal} (hf : ∀ q, IsFin (f q)) (hg : ∀ q, IsFin (g q)) :
    IsFin (∑ q, f q * g q) :=
  IsFin.sum _ _ fun q _ => IsFin.mul (hf q) (hg q)

theorem edgeHid_isFin {E : Nat} {xr xc : Fin E → Fin 64 → EReal} {ea : Fin E → Fin 16 → EReal} {ur : Fin E → Fin 8 → EReal}
    {wa wb : Fin 64 → Fin 128 → EReal} {wc : Fin 16 → Fin 128 → EReal} {wd : Fin 8 → Fin 128 → EReal} {b1 : Fin 128 → EReal}
    (hxr : ∀ r q, IsFin (xr r q)) (hxc : ∀ r q, IsFin (xc r q)) (hea : ∀ r q, IsFin (ea r q)) (hur : ∀ r q, IsFin (ur r q))
    (hwa : ∀ q k, IsFin (wa q k)) (hwb : ∀ q k, IsFin (wb q k)) (hwc : ∀ q k, IsFin (wc q k)) (hwd : ∀ q k, IsFin (wd q k))
    (hb1 : ∀ k, IsFin (b1 k)) :
    ∀ r k, IsFin (Spec.edgeHid xr xc ea ur wa wb wc wd b1 r k) :=
  fun r k => IsFin.max (((((dot_isFin (hxr r) fun q => hwa q k).add (dot_isFin (hxc r) fun q => hwb q k)).add
    (dot_isFin (hea r) fun q => hwc q k)).add (dot_isFin (hur r) fun q => hwd q k)).add (hb1 k)) IsFin.zero

theorem edgeOut_isFin {E : Nat} {hid : Fin E → Fin 128 → EReal} {w2 : Fin 128 → Fin 128 → EReal} {b2 : Fin 128 → EReal}
    (hhid : ∀ r k, IsFin (hid r k)) (hw2 : ∀ k n, IsFin (w2 k n)) (hb2 : ∀ n, IsFin (b2 n)) :
    ∀ r n, IsFin (Spec.edgeOut hid w2 b2 r n) :=
  fun r n => (dot_isFin (hhid r) fun k => hw2 k n).add (hb2 n)

theorem logit_isFin {N : Nat} {x : Fin N → Fin 64 → EReal} {agg : Fin N → Fin 128 → EReal} {ub : Fin N → Fin 8 → EReal}
    {kx : Fin 64 → Fin 128 → EReal} {ka : Fin 128 → Fin 128 → EReal} {ku : Fin 8 → Fin 128 → EReal}
    (hx : ∀ r q, IsFin (x r q)) (hagg : ∀ r q, IsFin (agg r q)) (hub : ∀ r q, IsFin (ub r q))
    (hkx : ∀ q j, IsFin (kx q j)) (hka : ∀ q j, IsFin (ka q j)) (hku : ∀ q j, IsFin (ku q j)) :
    ∀ r j, IsFin (Spec.logit x agg ub kx ka ku r j) :=
  fun r j => ((dot_isFin (hx r) fun q => hkx q j).add (dot_isFin (hagg r) fun q => hka q j)).add
    (dot_isFin (hub r) fun q => hku q j)

end Cert.FinK

end
-- ==== Proof.Val.LogitFin.lean ====
import proofs.«429701_j48541720379569_3_alg».proof.Proof.Val.RefGen
import proofs.«429701_j48541720379569_3_alg».proof.Proof.Val.RefE
import proofs.«429701_j48541720379569_3_alg».proof.Proof.Val.RefN
import proofs.«429701_j48541720379569_3_alg».proof.Proof.Val.Fin

noncomputable section

open scoped BigOperators

namespace Cert.RefSpec

open Cert.ReferenceIdeal Cert.ReferenceIdeal.Gen Cert.ReferenceIdeal.ReadP Idealize.ShloMosaic Idealize.ShloMosaic.ValueIdx
open Cert.Fin

section LogitFin

variable (x0 : (⟨S20000x64, .f32⟩ : BufTy).Contents (Elt Ideal)) (x1 : (⟨S320000x16, .f32⟩ : BufTy).Contents (Elt Ideal)) (x2 : (⟨S64x8, .f32⟩ : BufTy).Contents (Elt Ideal))
  (x3 : (⟨S152x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x7 : (⟨S128x200, .f32⟩ : BufTy).Contents (Elt Ideal))
  (x17 : (⟨S2x320000, .i32⟩ : BufTy).Contents (Elt Ideal)) (x18 : (⟨S20000, .i32⟩ : BufTy).Contents (Elt Ideal))

/-- Gathers re-read entries, and sums, products and a maximum with zero keep finite numbers finite. -/
theorem ref_logit_real (h0 : IsFinV x0) (h1 : IsFinV x1) (h2 : IsFinV x2) (h3 : IsFinV x3) (h4 : IsFinV x4) (h5 : IsFinV x5)
    (h6 : IsFinV x6) (h7 : IsFinV x7) (r : Fin 20000) (j : Fin 128) :
    ∃ x : ℝ, val_main_v54 (F := Ideal) x0 x1 x2 x3 x4 x5 x6 x7 x17 x18 (ix2 r j) = (x : EReal) := by
  have he : IsFinV (val_main_v41 (F := Ideal) x0 x1 x2 x3 x4 x5 x6 x17 x18) := by
    intro i
    obtain ⟨r, n, rfl⟩ : ∃ (r : Fin 320000) (n : Fin 128), i = ix2 r n := ⟨i 0, i 1, eq_ix2 i⟩
    rw [ref_e]
    exact Cert.FinK.edgeOut_isFin (Cert.FinK.edgeHid_isFin (fun _ _ => IsFinV.gather _ _ _ h0 _)
      (fun _ _ => IsFinV.gather _ _ _ h0 _) (fun _ _ => h1 _) (fun _ _ => IsFinV.gather _ _ _ h2 _)
      (fun _ _ => h3 _) (fun _ _ => h3 _) (fun _ _ => h3 _) (fun _ _ => h3 _) fun _ => h4 _)
      (fun _ _ => h5 _) (fun _ => h6 _) r n
  have ha : IsFinV (val_main_v44 (F := Ideal) x0 x1 x2 x3 x4 x5 x6 x17 x18) :=
    IsFinV.scatterAdd _ _ _ _ (IsFinV.broadcastInDim _ _ _ (IsFinV.constant_zero S_)) he
  rw [ref_logit]
  exact (isFin_iff _).1 (Cert.FinK.logit_isFin (fun _ _ => h0 _) (fun _ _ => ha _)
    (fun _ _ => IsFinV.gather _ _ _ h2 _) (fun _ _ => h7 _) (fun _ _ => h7 _) (fun _ _ => h7 _) r j)

end LogitFin

end Cert.RefSpec

end
-- ==== Proof.Val.BridgeX.lean ====
import proofs.«429701_j48541720379569_3_alg».proof.Proof.FrameKI.Run
import proofs.«429701_j48541720379569_3_alg».proof.Proof.Val.V2
import proofs.«429701_j48541720379569_3_alg».proof.Proof.Val.V1L
import proofs.«429701_j48541720379569_3_alg».proof.Proof.Val.KR12
import proofs.«429701_j48541720379569_3_alg».proof.Proof.Val.BridgeE
import proofs.«429701_j48541720379569_3_alg».proof.Proof.Val.Stats
import proofs.«429701_j48541720379569_3_alg».proof.Proof.Val.RefN
import proofs.«429701_j48541720379569_3_alg».proof.Proof.Val.LogitFin
import proofs.«429701_j48541720379569_3_alg».proof.Proof.Val.Fin
import proofs.«429701_j48541720379569_3_alg».proof.Proof.Gen.Pre_finite_inputs

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

theorem attn1_two_forms (L : Fin (5 * 4000) → Fin 128 → EReal) (hL : ∀ r j, ∃ x : ℝ, L r j = (x : EReal))
    (cK iK cR sR : Fin 128 → EReal)
    (hcK : ∀ j, cK j = Spec.colMax L j) (hiK : ∀ j, iK j = Ideal.div 1 (Spec.colSum L j))
    (hcR : ∀ j, cR j = Spec.colMax L j) (hsR : ∀ j, sR j = 0 + Spec.colSum L j) :
    Spec.attn1 L cK iK = fun r j => Ideal.div (Ideal.exp (L r j - cR j)) (sR j) := by
  have e1 : cK = Spec.colMax L := funext hcK
  have e2 : iK = fun j => Ideal.div 1 (Spec.colSum L j) := funext hiK
  funext r j
  show Spec.attn1 L cK iK r j = Ideal.div (Ideal.exp (L r j - cR j)) (sR j)
  rw [hcR j, hsR j, Cert.Stats.attn1_eq L hL r j, e1, e2]

section Bridge

variable (m : (ℓ : Loc nD τ sig) → Buf (Elt Ideal) ℓ) (ρ : Dev nD → PrngReg) (c : Dev nD)

set_option quotPrecheck false in
local notation "R44" => Cert.ReferenceIdeal.ReadP.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18))
set_option quotPrecheck false in
local notation "R51" => Cert.ReferenceIdeal.ReadP.val_main_v51 (F := Ideal) (m ((c : Thread nD τ).loc main_arg2)) (m ((c : Thread nD τ).loc main_arg18))
set_option quotPrecheck false in
local notation "R54" => Cert.ReferenceIdeal.ReadP.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg17)) (m ((c : Thread nD τ).loc main_arg18))
set_option quotPrecheck false in
local notation "R57" => Cert.ReferenceIdeal.ReadP.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg17)) (m ((c : Thread nD τ).loc main_arg18))
set_option quotPrecheck false in
local notation "R62" => Cert.ReferenceIdeal.ReadP.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg17)) (m ((c : Thread nD τ).loc main_arg18))
set_option quotPrecheck false in
local notation "R79" => Cert.ReferenceIdeal.ReadP.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18))

theorem agg_eq :
    (V4 m ρ c main_v57 : S20000x128.Idx → EReal) = R44 := by
  rw [kr_agg m ρ c]
  unfold Cert.ReferenceIdeal.ReadP.val_main_v44
  have he : (V3 m ρ c main_v54_0 : S320000x128.Idx → EReal)
      = Cert.ReferenceIdeal.ReadP.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) :=
    (kr_e_kept m ρ c).symm.trans (bridge_e m ρ c)
  rw [he, scatter_rec_eq]

theorem logit_of_entry
    (a0 : S20000x64.Idx → EReal) (a1 : S20000x128.Idx → EReal) (a2 : S20000x8.Idx → EReal)
    (k0 : S64x128.Idx → EReal) (k1 : S128x128.Idx → EReal) (k2 : S8x128.Idx → EReal)
    (e0 : a0 = (m ((c : Thread nD τ).loc main_arg0))) (e1 : a1 = R44) (e2 : a2 = R51)
    (f0 : ∀ (q : Fin 64) (j : Fin 128), k0 (ix2 q j) = ((m ((c : Thread nD τ).loc main_arg7)) : S128x200.Idx → EReal) (ix2 j ⟨q.val, by omega⟩))
    (f1 : ∀ (q : Fin 128) (j : Fin 128), k1 (ix2 q j) = ((m ((c : Thread nD τ).loc main_arg7)) : S128x200.Idx → EReal) (ix2 j ⟨64 + q.val, by omega⟩))
    (f2 : ∀ (q : Fin 8) (j : Fin 128), k2 (ix2 q j) = ((m ((c : Thread nD τ).loc main_arg7)) : S128x200.Idx → EReal) (ix2 j ⟨192 + q.val, by omega⟩)) :
    (Spec.logit (fun r q => a0 (ix2 r q)) (fun r q => a1 (ix2 r q)) (fun r q => a2 (ix2 r q))
        (fun q j => k0 (ix2 q j)) (fun q j => k1 (ix2 q j)) (fun q j => k2 (ix2 q j)) : Fin (5 * 4000) → Fin 128 → EReal)
      = fun r j => R54 (ix2 r j) := by
  have g0 : (fun (q : Fin 64) (j : Fin 128) => k0 (ix2 q j)) = fun q j => ((m ((c : Thread nD τ).loc main_arg7)) : S128x200.Idx → EReal) (ix2 j ⟨q.val, by omega⟩) :=
    funext fun q => funext fun j => f0 q j
  have g1 : (fun (q : Fin 128) (j : Fin 128) => k1 (ix2 q j)) = fun q j => ((m ((c : Thread nD τ).loc main_arg7)) : S128x200.Idx → EReal) (ix2 j ⟨64 + q.val, by omega⟩) :=
    funext fun q => funext fun j => f1 q j
  have g2 : (fun (q : Fin 8) (j : Fin 128) => k2 (ix2 q j)) = fun q j => ((m ((c : Thread nD τ).loc main_arg7)) : S128x200.Idx → EReal) (ix2 j ⟨192 + q.val, by omega⟩) :=
    funext fun q => funext fun j => f2 q j
  rw [e0, e1, e2, g0, g1, g2]
  funext r j
  exact (Cert.RefSpec.ref_logit (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg17)) (m ((c : Thread nD τ).loc main_arg18)) r j).symm

theorem L1_eq : L1 (V4 m ρ) c = fun r j => R54 (ix2 r j) := by
  unfold L1
  exact logit_of_entry m c _ _ _ _ _ _ (kr4_arg0 m ρ c) (agg_eq m ρ c) (kr4_v39 m ρ c)
    (kr4_v61 m ρ c) (kr4_v62 m ρ c) (kr4_v63 m ρ c)

theorem L2_eq : L2 (V6 m ρ) c = fun r j => R54 (ix2 r j) := by
  unfold L2
  rw [kr6_arg0 m ρ c, kr6_v57 m ρ c, kr6_v39 m ρ c, kr6_v61 m ρ c, kr6_v62 m ρ c, kr6_v63 m ρ c]
  exact logit_of_entry m c _ _ _ _ _ _ (kr4_arg0 m ρ c) (agg_eq m ρ c) (kr4_v39 m ρ c)
    (kr4_v61 m ρ c) (kr4_v62 m ρ c) (kr4_v63 m ρ c)

theorem logit_real (hpre : Cert.Pre_KernelIdeal m) (r : Fin (5 * 4000)) (j : Fin 128) :
    ∃ x : ℝ, R54 (ix2 r j) = (x : EReal) :=
  Cert.RefSpec.ref_logit_real (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg17)) (m ((c : Thread nD τ).loc main_arg18))
    (Cert.FinK.pre_fin0 m hpre c) (Cert.FinK.pre_fin1 m hpre c) (Cert.FinK.pre_fin2 m hpre c) (Cert.FinK.pre_fin3 m hpre c)
    (Cert.FinK.pre_fin4 m hpre c) (Cert.FinK.pre_fin5 m hpre c) (Cert.FinK.pre_fin6 m hpre c) (Cert.FinK.pre_fin7 m hpre c) r j

theorem stat_max (j : Fin 128) :
    (V6 m ρ c main_v64_0 : S1x128.Idx → EReal) (ix2 0 j) = Spec.colMax (fun (r : Fin (5 * 4000)) j => R54 (ix2 r j)) j := by
  rw [kr6_v64_0 m ρ c, final1_6 (V4 m ρ) c j, L1_eq m ρ c]

theorem stat_inv (hpre : Cert.Pre_KernelIdeal m) (j : Fin 128) :
    (V6 m ρ c main_v66 : S1x128.Idx → EReal) (ix2 0 j) = Ideal.div 1 (Spec.colSum (fun (r : Fin (5 * 4000)) j => R54 (ix2 r j)) j) := by
  have hL1 : ∀ r j, ∃ x : ℝ, L1 (V4 m ρ) c r j = (x : EReal) := by
    rw [L1_eq m ρ c]; exact fun r j => logit_real m c hpre r j
  rw [kr6_v66 m ρ c j, final1_7 (V4 m ρ) c hL1 j, L1_eq m ρ c]

theorem weights_eq (hpre : Cert.Pre_KernelIdeal m) :
    Spec.attn1 (fun (r : Fin (5 * 4000)) j => R54 (ix2 r j))
        (fun j => (V6 m ρ c main_v64_0 : S1x128.Idx → EReal) (ix2 0 j)) (fun j => (V6 m ρ c main_v66 : S1x128.Idx → EReal) (ix2 0 j))
      = fun r j => Ideal.div (Ideal.exp (R54 (ix2 r j) - R57 (ix1 j))) (R62 (ix1 j)) :=
  attn1_two_forms (fun r j => R54 (ix2 r j)) (fun r j => logit_real m c hpre r j) _ _
    (fun j => R57 (ix1 j)) (fun j => R62 (ix1 j)) (stat_max m ρ c) (stat_inv m ρ c hpre)
    (fun j => Cert.RefSpec.ref_colmax (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg17)) (m ((c : Thread nD τ).loc main_arg18)) j)
    (fun j => Cert.RefSpec.ref_colsum (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg17)) (m ((c : Thread nD τ).loc main_arg18)) j)

theorem arr_x (hpre : Cert.Pre_KernelIdeal m) :
    ((dat2 (V6 m ρ) c).arrAt 14 cfg2.N : S20000x128.Idx → EReal) = R79 := by

  have h8 : (fun (j : Fin 128) (q : Fin 264) => (V6 m ρ c main_arg8 : S128x264.Idx → EReal) (ix2 j q)) = fun j q => ((m ((c : Thread nD τ).loc main_arg8)) : S128x264.Idx → EReal) (ix2 j q) := by
    rw [kr6_arg8 m ρ c]
  have h9 : (fun (q : Fin 264) (k : Fin 128) => (V6 m ρ c main_arg9 : S264x128.Idx → EReal) (ix2 q k)) = fun q k => ((m ((c : Thread nD τ).loc main_arg9)) : S264x128.Idx → EReal) (ix2 q k) := by
    rw [kr6_arg9 m ρ c]
  have h10 : (fun (k : Fin 128) => (V6 m ρ c main_v67 : S1x128.Idx → EReal) (ix2 0 k)) = fun k => ((m ((c : Thread nD τ).loc main_arg10)) : S128.Idx → EReal) (ix1 k) :=
    funext fun k => kr6_v67 m ρ c k
  have h11 : (fun (k : Fin 128) (n : Fin 128) => (V6 m ρ c main_arg11 : S128x128.Idx → EReal) (ix2 k n)) = fun k n => ((m ((c : Thread nD τ).loc main_arg11)) : S128x128.Idx → EReal) (ix2 k n) := by
    rw [kr6_arg11 m ρ c]
  have h12 : (fun (n : Fin 128) => (V6 m ρ c main_v68 : S1x128.Idx → EReal) (ix2 0 n)) = fun n => ((m ((c : Thread nD τ).loc main_arg12)) : S128.Idx → EReal) (ix1 n) :=
    funext fun n => kr6_v68 m ρ c n
  funext i
  obtain ⟨r, n, rfl⟩ : ∃ (r : Fin (5 * 4000)) (n : Fin 128), i = ix2 r n := ⟨i 0, i 1, eq_ix2 i⟩
  refine (final2_14 (V6 m ρ) c r n).trans ?_
  refine Eq.trans ?_ (Cert.RefSpec.ref_xnew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) r n).symm
  unfold X2
  rw [L2_eq m ρ c, weights_eq m ρ c hpre, h8, h9, h10, h11, h12]

theorem bridge_x (hpre : Cert.Pre_KernelIdeal m) :
    (W9 m ρ c (Proc.devRef .tc main_v70_0) : S20000x128.Idx → EReal) = R79 := by
  rw [kr_x_kept m ρ c]
  exact (W7_arr m ρ c 14).trans (arr_x m ρ c hpre)

end Bridge

end Cert.KernelIdeal.HandV

end
-- ==== Proof.Val.LibRowScatterAdd.lean ====
import Idealize.ShloMosaic.Lib.ValueIdx
import Idealize.ShloMosaic.PureOps.Ideal.Laws

noncomputable section

namespace Idealize.ShloMosaic.ValueIdx

section RowScatterAdd

abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

theorem rs_mem_sKept {N R C : Nat}
    (wf : ScatterDims.WF ⟨2, ![N, C]⟩ ⟨2, ![R, 1]⟩ ⟨2, ![R, C]⟩ [1] [0] [0] 1) :
    (1 : Fin 2) ∈ (rowScatterDims N R C wf).sKept := by
  show (1 : Fin 2) ∈ (List.finRange 2).filter (fun a => a ∉ [(0 : Fin 2)])
  decide

theorem rs_not_mem_sKept {N R C : Nat}
    (wf : ScatterDims.WF ⟨2, ![N, C]⟩ ⟨2, ![R, 1]⟩ ⟨2, ![R, C]⟩ [1] [0] [0] 1) :
    (0 : Fin 2) ∉ (rowScatterDims N R C wf).sKept := by
  show (0 : Fin 2) ∉ (List.finRange 2).filter (fun a => a ∉ [(0 : Fin 2)])
  decide

theorem rs_window0 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 0 = 0 := by
  unfold ScatterDims.window
  rw [dif_neg (rs_not_mem_sKept wf)]

theorem rs_window1 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 1 = q'.val := by
  unfold ScatterDims.window
  rw [dif_pos (rs_mem_sKept wf)]
  rfl

theorem rs_start1 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 1 = 0 := by
  unfold ScatterDims.start
  rw [dif_neg (show (1 : Fin 2) ∉ [(0 : Fin 2)] by decide)]

theorem rs_start0 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 0 = (idx (ix2 r (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 r q') ⟨List.idxOf (0 : Fin 2) (rowScatterDims N R C wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

theorem rowScatter_resultIdx_iff {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) (n : Fin N) (q : Fin C) :
    (rowScatterDims N R C wf).resultIdx? (ix2 r q') idx = some (ix2 n q)
      ↔ (idx (ix2 r (0 : Fin 1))).toInt = (n.val : Int) ∧ q' = q := by
  unfold ScatterDims.resultIdx?
  have hN : (![N, C] 0 : Nat) = N := rfl
  have hC : (![N, C] 1 : Nat) = C := rfl
  have hn := n.isLt
  have hq' := q'.isLt
  simp only [Fin.forall_fin_two, rs_start0, rs_start1, rs_window0, rs_window1]
  split
  · rw [Option.some.injEq]
    constructor
    · intro he
      have e0 : ((rowScatterDims N R C wf).start (ix2 r q') idx 0
          + ((rowScatterDims N R C wf).window (ix2 r q') 0 : Nat)).toNat = n.val :=
        congrArg (fun f => (f 0).val) he
      have e1 : ((rowScatterDims N R C wf).start (ix2 r q') idx 1
          + ((rowScatterDims N R C wf).window (ix2 r q') 1 : Nat)).toNat = q.val :=
        congrArg (fun f => (f 1).val) he
      rw [rs_start0, rs_window0] at e0
      rw [rs_start1, rs_window1] at e1
      exact ⟨by omega, Fin.ext (by omega)⟩
    · rintro ⟨e0, e1⟩
      funext a
      refine Fin.ext ?_
      match a with
      | ⟨0, _⟩ =>
        show ((rowScatterDims N R C wf).start (ix2 r q') idx 0
          + ((rowScatterDims N R C wf).window (ix2 r q') 0 : Nat)).toNat = n.val
        rw [rs_start0, rs_window0]; omega
      | ⟨1, _⟩ =>
        show ((rowScatterDims N R C wf).start (ix2 r q') idx 1
          + ((rowScatterDims N R C wf).window (ix2 r q') 1 : Nat)).toNat = q.val
        rw [rs_start1, rs_window1, e1]; omega
  · rename_i h
    constructor
    · intro he; cases he
    · rintro ⟨e0, e1⟩
      exact absurd ⟨⟨by omega, by omega⟩, by omega, by omega⟩ h

theorem rowScatterAdd_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (q : Fin C) :
    Ideal.hostScatterAdd (rowScatterDims N R C wf) x idx upd (ix2 n q)
      = x (ix2 n q) + ∑ r : Fin R, if (idx (ix2 r (0 : Fin 1))).toInt = (n.val : Int) then upd (ix2 r q) else 0 := by
  show x (ix2 n q) + ∑ j ∈ Finset.univ.filter
      (fun j => (rowScatterDims N R C wf).resultIdx? j idx = some (ix2 n q)), upd j = _
  congr 1
  rw [Finset.sum_filter, sum_idx2]
  refine Finset.sum_congr rfl (fun r _ => ?_)
  simp only [rowScatter_resultIdx_iff]
  by_cases h : (idx (ix2 r (0 : Fin 1))).toInt = (n.val : Int)
  · simp only [h, true_and, if_true]
    rw [Finset.sum_ite_eq' Finset.univ q (fun q' => upd (ix2 r q')), if_pos (Finset.mem_univ q)]
  · simp only [h, false_and, if_false, Finset.sum_const_zero]

end RowScatterAdd

end Idealize.ShloMosaic.ValueIdx

end
-- ==== Proof.Val.RefG.lean ====
import proofs.«429701_j48541720379569_3_alg».proof.Proof.Val.RefGen
import proofs.«429701_j48541720379569_3_alg».proof.Proof.Val.Spec
import proofs.«429701_j48541720379569_3_alg».proof.Proof.Val.LibRowScatterAdd
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

open scoped BigOperators

namespace Cert.RefSpec

open Cert.ReferenceIdeal Cert.ReferenceIdeal.Gen Cert.ReferenceIdeal.ReadP
open Idealize.ShloMosaic Idealize.ShloMosaic.ValueIdx Idealize.ShloMosaic.StableHlo

theorem lidx117 (b : Fin 64) (n k : Fin 128) : lidx_main_v117 (ix2 b n) k = ix2 b k :=
  funext fun a => Fin.ext (by match a with | ⟨0, _⟩ => rfl | ⟨1, _⟩ => rfl)
theorem ridx117 (b : Fin 64) (n k : Fin 128) : ridx_main_v117 (ix2 b n) k = ix2 k n :=
  funext fun a => Fin.ext (by match a with | ⟨0, _⟩ => rfl | ⟨1, _⟩ => rfl)
theorem lidx112 (b : Fin 64) (k : Fin 128) (q : Fin 264) : lidx_main_v112 (ix2 b k) q = ix2 b q :=
  funext fun a => Fin.ext (by match a with | ⟨0, _⟩ => rfl | ⟨1, _⟩ => rfl)
theorem ridx112 (b : Fin 64) (k : Fin 128) (q : Fin 264) : ridx_main_v112 (ix2 b k) q = ix2 q k :=
  funext fun a => Fin.ext (by match a with | ⟨0, _⟩ => rfl | ⟨1, _⟩ => rfl)
theorem idx119 (b : Fin 64) (n : Fin 128) : idx_main_v118 (idx_main_v119 (ix2 b n)) = ix1 n :=
  funext fun a => Fin.ext (by match a with | ⟨0, _⟩ => rfl)
theorem idx114 (b : Fin 64) (k : Fin 128) : idx_main_v113 (idx_main_v114 (ix2 b k)) = ix1 k :=
  funext fun a => Fin.ext (by match a with | ⟨0, _⟩ => rfl)
theorem idx90 (b : Fin 64) (n : Fin 128) : idx_main_v89 (idx_main_v90 (ix2 b n)) = ix1 b :=
  funext fun a => Fin.ext (by match a with | ⟨0, _⟩ => rfl)
theorem idx109 (b : Fin 64) (n : Fin 128) : idx_main_v108 (idx_main_v109 (ix2 b n)) = ix1 b :=
  funext fun a => Fin.ext (by match a with | ⟨0, _⟩ => rfl)
theorem idx81 (r : Fin 20000) : idx_main_v81 (ix2 r (0 : Fin 1)) = ix1 r :=
  funext fun a => Fin.ext (by match a with | ⟨0, _⟩ => rfl)
theorem idx100 (r : Fin 320000) : idx_main_v100 (ix2 r (0 : Fin 1)) = ix1 r :=
  funext fun a => Fin.ext (by match a with | ⟨0, _⟩ => rfl)

theorem sum_264 (f : Fin 264 → EReal) :
    ∑ q, f q = ((∑ q : Fin 8, f ⟨q.val, by omega⟩) + ∑ q : Fin 128, f ⟨8 + q.val, by omega⟩)
      + ∑ q : Fin 128, f ⟨136 + q.val, by omega⟩ := by
  have h1 := Fin.sum_univ_add (M := EReal) (a := 136) (b := 128) (show Fin (136 + 128) → EReal from f)
  have h2 := Fin.sum_univ_add (M := EReal) (a := 8) (b := 128)
    (fun i => (show Fin (136 + 128) → EReal from f) (Fin.castAdd 128 (show Fin 136 from i)))
  exact h1.trans (congrArg (· + _) h2)

section Cat
variable (h : Shape.Concatenates [S64x8, S64x128, S64x128] S64x264 1)
  (u : S64x8.Idx → EReal) (na ea : S64x128.Idx → EReal) (b : Fin 64)

theorem cat_u (q : Fin 8) :
    concatenate S64x264 1 [⟨S64x8, u⟩, ⟨S64x128, na⟩, ⟨S64x128, ea⟩] h (ix2 b ⟨q.val, by omega⟩) = u (ix2 b q) :=
  concatenate_apply_piece (t := S64x264) 1 [⟨S64x8, u⟩, ⟨S64x128, na⟩, ⟨S64x128, ea⟩] h _ 0 (by show (0 : Nat) < 3; omega) S64x8 u rfl rfl 0 rfl (ix2 b q)
    (fun a ha => by match a with | ⟨0, _⟩ => rfl | ⟨1, _⟩ => exact absurd rfl ha) (by show 0 + q.val = q.val; omega)

theorem cat_na (q : Fin 128) :
    concatenate S64x264 1 [⟨S64x8, u⟩, ⟨S64x128, na⟩, ⟨S64x128, ea⟩] h (ix2 b ⟨8 + q.val, by omega⟩) = na (ix2 b q) :=
  concatenate_apply_piece (t := S64x264) 1 [⟨S64x8, u⟩, ⟨S64x128, na⟩, ⟨S64x128, ea⟩] h _ 1 (by show (1 : Nat) < 3; omega) S64x128 na rfl rfl 8 rfl (ix2 b q)
    (fun a ha => by match a with | ⟨0, _⟩ => rfl | ⟨1, _⟩ => exact absurd rfl ha) rfl

theorem cat_ea (q : Fin 128) :
    concatenate S64x264 1 [⟨S64x8, u⟩, ⟨S64x128, na⟩, ⟨S64x128, ea⟩] h (ix2 b ⟨136 + q.val, by omega⟩) = ea (ix2 b q) :=
  concatenate_apply_piece (t := S64x264) 1 [⟨S64x8, u⟩, ⟨S64x128, na⟩, ⟨S64x128, ea⟩] h _ 2 (by show (2 : Nat) < 3; omega) S64x128 ea rfl rfl 136 rfl (ix2 b q)
    (fun a ha => by match a with | ⟨0, _⟩ => rfl | ⟨1, _⟩ => exact absurd rfl ha) rfl

theorem cat_dot (w : S264x128.Idx → EReal) (k : Fin 128) :
    ∑ q : Fin 264, concatenate S64x264 1 [⟨S64x8, u⟩, ⟨S64x128, na⟩, ⟨S64x128, ea⟩] h (ix2 b q) * w (ix2 q k)
      = ((∑ q : Fin 8, u (ix2 b q) * w (ix2 ⟨q.val, by omega⟩ k))
          + ∑ q : Fin 128, na (ix2 b q) * w (ix2 ⟨8 + q.val, by omega⟩ k))
        + ∑ q : Fin 128, ea (ix2 b q) * w (ix2 ⟨136 + q.val, by omega⟩ k) := by
  rw [sum_264]
  simp only [cat_u, cat_na, cat_ea]

end Cat

theorem nodeScatter (upd : S20000x128.Idx → EReal) (x18 : S20000.Idx → BitVec 32) (b : Fin 64) (n : Fin 128) :
    Host.scatterAdd (F := Ideal) (φ := .f32) scatter_S64x128_S20000x1_S20000x128_1_0_0_1 (val_main_v80 (F := Ideal))
        (val_main_v81 (F := Ideal) x18) upd (ix2 b n)
      = 0 + ∑ r : Fin 20000, if (x18 (ix1 r)).toInt = (b.val : Int) then upd (ix2 r n) else 0 := by
  show Ideal.hostScatterAdd (rowScatterDims 64 20000 128 scatter_S64x128_S20000x1_S20000x128_1_0_0_1_wf) _ _ _ (ix2 b n) = _
  rw [rowScatterAdd_apply, val_main_v80_apply, val_main_cst_13_apply]
  simp only [val_main_v81_apply, idx81, Ideal.ofBits_def, Ideal.ofBits_zero_f32]

theorem edgeScatter (upd : S320000x128.Idx → EReal) (x17 : S2x320000.Idx → BitVec 32) (x18 : S20000.Idx → BitVec 32)
    (b : Fin 64) (n : Fin 128) :
    Host.scatterAdd (F := Ideal) (φ := .f32) scatter_S64x128_S320000x1_S320000x128_1_0_0_1 (val_main_v99 (F := Ideal))
        (val_main_v100 (F := Ideal) x17 x18) upd (ix2 b n)
      = 0 + ∑ r : Fin 320000, if (val_main_v98 (F := Ideal) x17 x18 (ix1 r)).toInt = (b.val : Int) then upd (ix2 r n) else 0 := by
  show Ideal.hostScatterAdd (rowScatterDims 64 320000 128 scatter_S64x128_S320000x1_S320000x128_1_0_0_1_wf) _ _ _ (ix2 b n) = _
  rw [rowScatterAdd_apply, val_main_v99_apply, val_main_cst_19_apply]
  simp only [val_main_v100_apply, idx100, Ideal.ofBits_def, Ideal.ofBits_zero_f32]

variable (x0 : (⟨S20000x64, .f32⟩ : BufTy).Contents (Elt Ideal)) (x1 : (⟨S320000x16, .f32⟩ : BufTy).Contents (Elt Ideal)) (x2 : (⟨S64x8, .f32⟩ : BufTy).Contents (Elt Ideal)) (x3 : (⟨S152x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x200, .f32⟩ : BufTy).Contents (Elt Ideal)) (x8 : (⟨S128x264, .f32⟩ : BufTy).Contents (Elt Ideal)) (x9 : (⟨S264x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S264x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S2x320000, .i32⟩ : BufTy).Contents (Elt Ideal)) (x18 : (⟨S20000, .i32⟩ : BufTy).Contents (Elt Ideal))

theorem ref_nodesum (b : Fin 64) (n : Fin 128) :
    val_main_v82 (F := Ideal) x0 x1 x2 x3 x4 x5 x6 x7 x8 x9 x10 x11 x12 x17 x18 (ix2 b n)
      = 0 + ∑ r : Fin 20000, if (x18 (ix1 r)).toInt = (b.val : Int)
          then val_main_v79 (F := Ideal) x0 x1 x2 x3 x4 x5 x6 x7 x8 x9 x10 x11 x12 x17 x18 (ix2 r n) else 0 := by
  unfold val_main_v82
  generalize val_main_v79 (F := Ideal) x0 x1 x2 x3 x4 x5 x6 x7 x8 x9 x10 x11 x12 x17 x18 = upd
  exact nodeScatter upd x18 b n

theorem ref_edgesum (b : Fin 64) (n : Fin 128) :
    val_main_v101 (F := Ideal) x0 x1 x2 x3 x4 x5 x6 x17 x18 (ix2 b n)
      = 0 + ∑ r : Fin 320000, if (val_main_v98 (F := Ideal) x17 x18 (ix1 r)).toInt = (b.val : Int)
          then val_main_v41 (F := Ideal) x0 x1 x2 x3 x4 x5 x6 x17 x18 (ix2 r n) else 0 := by
  unfold val_main_v101
  generalize val_main_v41 (F := Ideal) x0 x1 x2 x3 x4 x5 x6 x17 x18 = upd
  exact edgeScatter upd x17 x18 b n

theorem ref_nodeagg (b : Fin 64) (n : Fin 128) :
    val_main_v91 (F := Ideal) x0 x1 x2 x3 x4 x5 x6 x7 x8 x9 x10 x11 x12 x17 x18 (ix2 b n)
      = Ideal.div (val_main_v82 (F := Ideal) x0 x1 x2 x3 x4 x5 x6 x7 x8 x9 x10 x11 x12 x17 x18 (ix2 b n)) (max (val_main_v86 (F := Ideal) x18 (ix1 b)) 1) := by
  rw [val_main_v91_apply, val_main_v90_apply, val_main_v89_apply, idx90, val_main_v88_apply, val_main_v87_apply,
    val_main_cst_16_apply]
  simp only [Ideal.hostDivf_def, Ideal.maximumf_def, Ideal.ofBits_def, Ideal.ofBits_one_f32]

theorem ref_edgeagg (b : Fin 64) (n : Fin 128) :
    val_main_v110 (F := Ideal) x0 x1 x2 x3 x4 x5 x6 x17 x18 (ix2 b n)
      = Ideal.div (val_main_v101 (F := Ideal) x0 x1 x2 x3 x4 x5 x6 x17 x18 (ix2 b n)) (max (val_main_v105 (F := Ideal) x17 x18 (ix1 b)) 1) := by
  rw [val_main_v110_apply, val_main_v109_apply, val_main_v108_apply, idx109, val_main_v107_apply, val_main_v106_apply,
    val_main_cst_22_apply]
  simp only [Ideal.hostDivf_def, Ideal.maximumf_def, Ideal.ofBits_def, Ideal.ofBits_one_f32]

theorem ref_ghid (b : Fin 64) (k : Fin 128) :
    val_main_v116 (F := Ideal) x0 x1 x2 x3 x4 x5 x6 x7 x8 x9 x10 x11 x12 x13 x14 x17 x18 (ix2 b k)
      = Spec.globHid (fun b q => x2 (ix2 b q)) (fun b q => val_main_v91 (F := Ideal) x0 x1 x2 x3 x4 x5 x6 x7 x8 x9 x10 x11 x12 x17 x18 (ix2 b q))
          (fun b q => val_main_v110 (F := Ideal) x0 x1 x2 x3 x4 x5 x6 x17 x18 (ix2 b q))
          (fun q k => x13 (ix2 ⟨q.val, by omega⟩ k)) (fun q k => x13 (ix2 ⟨8 + q.val, by omega⟩ k))
          (fun q k => x13 (ix2 ⟨136 + q.val, by omega⟩ k)) (fun k => x14 (ix1 k)) b k := by
  rw [val_main_v116_apply, val_main_v115_apply, val_main_v112_apply, val_main_v114_apply, val_main_v113_apply, idx114,
    val_main_call2_v0_apply, val_main_call2_cst_apply]
  unfold val_main_v111
  generalize val_main_v91 (F := Ideal) x0 x1 x2 x3 x4 x5 x6 x7 x8 x9 x10 x11 x12 x17 x18 = na
  generalize val_main_v110 (F := Ideal) x0 x1 x2 x3 x4 x5 x6 x17 x18 = ea
  simp only [lidx112, ridx112]
  rw [cat_dot concatenates_S64x8_S64x128_S64x128_S64x264_d1 x2 na ea b x13 k]
  simp only [Ideal.maximumf_def, Ideal.addf_def, Ideal.ofBits_def, Ideal.ofBits_zero_f32]
  rfl

theorem ref_unew (b : Fin 64) (n : Fin 128) :
    val_main_v120 (F := Ideal) x0 x1 x2 x3 x4 x5 x6 x7 x8 x9 x10 x11 x12 x13 x14 x15 x16 x17 x18 (ix2 b n)
      = Spec.globOut (Spec.globHid (fun b q => x2 (ix2 b q)) (fun b q => val_main_v91 (F := Ideal) x0 x1 x2 x3 x4 x5 x6 x7 x8 x9 x10 x11 x12 x17 x18 (ix2 b q))
            (fun b q => val_main_v110 (F := Ideal) x0 x1 x2 x3 x4 x5 x6 x17 x18 (ix2 b q))
            (fun q k => x13 (ix2 ⟨q.val, by omega⟩ k)) (fun q k => x13 (ix2 ⟨8 + q.val, by omega⟩ k))
            (fun q k => x13 (ix2 ⟨136 + q.val, by omega⟩ k)) (fun k => x14 (ix1 k)))
          (fun k n => x15 (ix2 k n)) (fun n => x16 (ix1 n)) b n := by
  rw [val_main_v120_apply, val_main_v117_apply, val_main_v119_apply, val_main_v118_apply, idx119]
  simp only [lidx117, ridx117, ref_ghid, Ideal.addf_def]
  rfl

end Cert.RefSpec

end
-- ==== Proof.Val.OneHot.lean ====
import proofs.«429701_j48541720379569_3_alg».proof.Proof.Val.Spec
import proofs.«429701_j48541720379569_3_alg».proof.Proof.Val.LibRowScatterAdd

set_option maxRecDepth 16384

noncomputable section

open scoped BigOperators

namespace Cert.OneHot

open Cert.Spec Idealize.ShloMosaic Idealize.ShloMosaic.ValueIdx

theorem toInt_bucket (b : Fin 64) : (BitVec.ofNat 32 b.val).toInt = (b.val : Int) := by
  have hb := b.isLt
  have hm : (BitVec.ofNat 32 b.val).toNat = b.val := by
    rw [BitVec.toNat_ofNat]; exact Nat.mod_eq_of_lt (by omega)
  rw [BitVec.toInt_eq_toNat_of_lt (by rw [hm]; omega), hm]

theorem oneHot_eq (b : Fin 64) (w : BitVec 32) : Spec.oneHot b w = if w.toInt = (b.val : Int) then 1 else 0 := by
  unfold Spec.oneHot
  by_cases h : BitVec.ofNat 32 b.val = w
  · rw [if_pos h, if_pos (by rw [← h]; exact toInt_bucket b)]
  · rw [if_neg h, if_neg (fun h' => h (BitVec.eq_of_toInt_eq (by rw [toInt_bucket, h'])))]

theorem sum_tiles {G T : Nat} (f : Fin (G * T) → EReal) :
    ∑ r : Fin (G * T), f r = ∑ t : Fin G, ∑ r' : Fin T, f (Spec.tileRow t r') := by
  rw [← Fintype.sum_prod_type' (fun t r' => f (Spec.tileRow t r'))]
  rw [← Equiv.sum_comp (finProdFinEquiv (m := G) (n := T)) f]
  refine Finset.sum_congr rfl (fun p _ => ?_)
  congr 1
  apply Fin.ext
  show p.2.val + T * p.1.val = p.1.val * T + p.2.val
  rw [Nat.mul_comm, Nat.add_comm]

theorem partSum_tilePart {G T : Nat} (v : Fin (G * T) → Fin 128 → EReal) (id : Fin (G * T) → BitVec 32)
    (b : Fin 64) (n : Fin 128) :
    Spec.partSum (Spec.tilePart v id) b n
      = 0 + ∑ r : Fin (G * T), if (id r).toInt = (b.val : Int) then v r n else 0 := by
  unfold Spec.partSum Spec.tilePart
  congr 1
  rw [sum_tiles]
  refine Finset.sum_congr rfl (fun t _ => Finset.sum_congr rfl (fun r' _ => ?_))
  rw [oneHot_eq]
  split
  · rw [one_mul]
  · rw [zero_mul]

end Cert.OneHot

end
-- ==== Proof.Val.V3.lean ====
import proofs.«429701_j48541720379569_3_alg».proof.Proof.FrameKI.R3
import proofs.«429701_j48541720379569_3_alg».proof.Proof.Val.Spec
import Idealize.ShloMosaic.Lib.Pipeline.Value
import Idealize.ShloMosaic.Lib.StackMember
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandV

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem pay3_apply (v0 : Vec Ideal S64x8 .f32) (v2 : Vec Ideal S8x128 .f32) (v6 : Vec Ideal S64x128 .f32) (v9 : Vec Ideal S128x128 .f32)
    (v14 : Vec Ideal S64x128 .f32) (v17 : Vec Ideal S128x128 .f32) (v22 : Vec Ideal S1x128 .f32) (v29 : Vec Ideal S128x128 .f32)
    (v32 : Vec Ideal S1x128 .f32) (b : Fin 64) (n : Fin 128) :
    (k3_pay1 v0 v2 v6 v9 v14 v17 v22 v29 v32 : S64x128.Idx → EReal) (ix2 b n)
      = (∑ k : Fin 128, max ((((∑ q : Fin 8, (v0 (ix2 b q) : EReal) * v2 (ix2 q k)) + ∑ q : Fin 128, (v6 (ix2 b q) : EReal) * v9 (ix2 q k))
            + ∑ q : Fin 128, (v14 (ix2 b q) : EReal) * v17 (ix2 q k)) + v22 (ix2 (0 : Fin 1) k)) 0 * v29 (ix2 k n))
          + v32 (ix2 (0 : Fin 1) n) := by
  unfold k3_pay1
  simp only [matmul_zero_eq_dotGeneral, shapeCast_self, show dot_S64x8_S8x128_S64x128_1_0_0_1_n_n = DotDims.plain 64 8 128 from rfl,
    show dot_S64x128_S128x128_S64x128_1_0_0_1_n_n = DotDims.plain 64 128 128 from rfl]
  rw [addf_apply, StackMember.dotGeneral_plain_apply, broadcastTo_1b_ab_apply]
  refine congrArg (· + v32 (ix2 (0 : Fin 1) n)) (Finset.sum_congr rfl fun k _ => ?_)
  rw [truncf_apply, truncf_apply, maximumf_apply, addf_apply, addf_apply, addf_apply, StackMember.dotGeneral_plain_apply,
    StackMember.dotGeneral_plain_apply, StackMember.dotGeneral_plain_apply, broadcastTo_1b_ab_apply, broadcast_apply]
  simp only [truncf_apply]
  rw [show (FloatOps.ofBits .f32 0x00000000#32 : Ideal .f32) = (0 : EReal) from Ideal.ofBits_zero_f32]

theorem idx3_zero : ∀ (w : Fin cfg3.W) (t : Fin cfg3.N) (a : Fin (cfg3.win w).shape.rank), (cfg3.win w).index t a = 0 := by
  decide +kernel

theorem emb3 (w : Fin cfg3.W) (t : Fin cfg3.N) (y : ((cfg3.win w).xblock (cfg3.grid.coords t)).Idx) (a : Fin (cfg3.win w).shape.rank) :
    (((cfg3.win w).rect t).emb y a : Nat) = y a :=
  (cfg3.win w).rect_emb_val_of_index_zero t a (idx3_zero w t a) y

theorem iblk3_heq (c : Dev nD) (t : Fin cfg3.N) (w : Fin cfg3.W) : HEq (iblk3 V c w t) (V c (Pipeline.arrRef spec3 w)) := by
  fin_cases w <;> exact heq_of_eq (funext fun y => congrArg (V c (Pipeline.arrRef spec3 _)) (funext fun a => Fin.ext (emb3 _ t y a)))

theorem zeros3 : (![0, 0] : Fin 2 → Nat) = fun _ => 0 := funext fun a => by fin_cases a <;> rfl

theorem final3_9 (c : Dev nD) (b : Fin 64) (n : Fin 128) :
    ((dat3 (F := Ideal) V c).arrAt 9 cfg3.N : S64x128.Idx → EReal) (ix2 b n)
      = Spec.globOut (Spec.globHid (fun i j => (V c main_arg2 : S64x8.Idx → EReal) (ix2 i j))
            (fun i j => (V c main_v90 : S64x128.Idx → EReal) (ix2 i j)) (fun i j => (V c main_v80 : S64x128.Idx → EReal) (ix2 i j))
            (fun i j => (V c main_v91 : S8x128.Idx → EReal) (ix2 i j)) (fun i j => (V c main_v92 : S128x128.Idx → EReal) (ix2 i j))
            (fun i j => (V c main_v93 : S128x128.Idx → EReal) (ix2 i j)) (fun k => (V c main_v94 : S1x128.Idx → EReal) (ix2 (0 : Fin 1) k)))
          (fun i j => (V c main_arg15 : S128x128.Idx → EReal) (ix2 i j)) (fun k => (V c main_v95 : S1x128.Idx → EReal) (ix2 (0 : Fin 1) k)) b n := by
  have h := (dat3 (F := Ideal) V c).arrAt_emb_eq_flushed 9 (fun t t' _ _ ne => absurd ((fin_N3 t).trans (fin_N3 t').symm) ne) t3_0 (flush3_9 t3_0) (ix2 b n)
  rw [show ((cfg3.win 9).blk t3_0).view.emb (ix2 b n) = ix2 b n from funext fun a => Fin.ext (emb3 9 t3_0 (ix2 b n) a)] at h
  refine h.trans ?_
  show (dat3 (F := Ideal) V c).after 9 t3_0 (ix2 b n) = _
  rw [after3_9]
  unfold out3_9
  rw [View.canon_unit_zero zeros3]
  simp only [View.ld_unit_zero (S := S64x8) zeros3, View.ld_unit_zero (S := S64x128) zeros3, View.ld_unit_zero (S := S8x128) zeros3,
    View.ld_unit_zero (S := S128x128) zeros3, View.ld_unit_zero (S := S1x128) zeros3]
  rw [eq_of_heq (iblk3_heq V c t3_0 0), eq_of_heq (iblk3_heq V c t3_0 1), eq_of_heq (iblk3_heq V c t3_0 2), eq_of_heq (iblk3_heq V c t3_0 3),
    eq_of_heq (iblk3_heq V c t3_0 4), eq_of_heq (iblk3_heq V c t3_0 5), eq_of_heq (iblk3_heq V c t3_0 6), eq_of_heq (iblk3_heq V c t3_0 7),
    eq_of_heq (iblk3_heq V c t3_0 8), pay3_apply]
  rfl

end Cert.KernelIdeal.HandV

end
-- ==== Proof.Val.KR3.lean ====
import proofs.«429701_j48541720379569_3_alg».proof.Proof.FrameKI.Run
import proofs.«429701_j48541720379569_3_alg».proof.Proof.Val.RefGen
import proofs.«429701_j48541720379569_3_alg».proof.Proof.Val.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.HandV

open Cert.KernelIdeal Cert.KernelIdeal.Gen Cert.KernelIdeal.Hand Idealize.ShloMosaic Idealize.ShloMosaic.ValueIdx
open Idealize.ShloMosaic.TcCoe Idealize.SL.Sem Idealize.ShloMosaic.StableHlo
open Cert.ReferenceIdeal.ReadP

abbrev kr_WA : List (Ref sig .tc) :=
  [main_v0, main_v1, main_v2, main_v3, main_v4, main_c, main_v5, main_v6, main_c_0, main_v7, main_v8, main_v9, main_v10, main_v11, main_c_1, main_v12,
   main_v13, main_c_2, main_v14, main_v15, main_v16, main_v17, main_v18, main_c_3, main_v19, main_v20, main_c_4, main_v21, main_v22, main_v23, main_v24,
   main_v25, main_c_5, main_v26, main_v27, main_c_6, main_v28, main_v29, main_v30, main_v31, main_v32, main_c_7, main_v33, main_v34, main_c_8, main_v35,
   main_v36, main_v37, main_v38, main_v39, main_c_9, main_v40, main_v41, main_c_10, main_v42, main_v43, main_v44, main_v45, main_v46, main_v47]

abbrev kr_W : List (Ref sig .tc) :=
  [main_v48, main_v49, main_v50, main_v51, main_v52, main_v53, main_cst, main_v55, main_v56, main_v57, main_v58, main_v59, main_v60, main_v61, main_v62,
   main_v63, main_cst_11, main_v65, main_v66, main_v67, main_v68, main_v69, main_cst_12, main_v71, main_cst_13, main_v72, main_cst_14, main_v73, main_v74,
   main_v75, main_cst_15, main_v76, main_v77, main_v78, main_v79, main_v80, main_cst_16, main_v81, main_cst_17, main_v82, main_cst_18, main_v83, main_v84,
   main_v85, main_cst_19, main_v86, main_v87, main_v88, main_v89, main_v90, main_v91, main_v92, main_v93, main_v94, main_v95]

abbrev kr_sub (ops : List (HloOp τ sig (Elt Ideal))) (L : List (Ref sig .tc)) : Prop :=
  ops.Forall fun op => op.writes ⊆ (L.map (Proc.devRef (τ := τ) .tc)).toFinset

/-- Each operation writes its one result, and the list names it. -/
theorem kr_writes : kr_sub main_part0_ops0 kr_WA ∧ kr_sub main_part1_ops0 kr_W ∧ kr_sub main_part1_ops1 kr_W ∧
    kr_sub main_part1_ops2 kr_W ∧ kr_sub main_part1_ops3 kr_W := by
  simp only [kr_sub, List.Forall, nullary_writes, unary_writes, binary_writes, ternary_writes, reshape_writes,
    Finset.singleton_subset_iff, List.mem_toFinset]
  repeat' apply And.intro
  all_goals exact List.mem_map_of_mem (by decide)

/-- A per-row value broadcast along the row reads, at `(b, n)`, the value of row `b`. -/
theorem kr_bcast_row_apply {α : Type} (y : S64.Idx → α) (b : Fin 64) (n : Fin 128) :
    broadcastInDim S64x128 ![0, 1] bcast_S64x1_S64x128_0_1 (broadcastInDim S64x1 ![0] bcast_S64_S64x1_0 y) (ix2 b n) = y (ix1 b) :=
  (broadcastInDim_apply _ _ _ _ (ix2 b (0 : Fin 1)) fun a => match a with | ⟨0, _⟩ => rfl | ⟨1, _⟩ => rfl).trans
    (broadcastInDim_apply _ _ _ _ (ix1 b) fun a => match a with | ⟨0, _⟩ => rfl)

/-- The sum of `T` tiles from zero, divided by the larger of a per-row count and one, read at `(b, n)`. -/
theorem kr_mean_apply {T : ℕ} (X : FVec Ideal ⟨3, ![T, 64, 128]⟩ .f32) (h' : (⟨3, ![T, 64, 128]⟩ : Shape).ReducesTo [0] S64x128)
    (h : (⟨3, ![T, 64, 128]⟩ : Shape).Reduces [0] S64x128) (cnt : FVec Ideal S64 .f32) (b : Fin 64) (n : Fin 128) :
    Host.divf (Host.reduceAdd X (constant S_ .f32 0x00000000#32 : FVec Ideal S_ .f32) h' h_S_)
        (broadcastInDim S64x128 ![0, 1] bcast_S64x1_S64x128_0_1 (broadcastInDim S64x1 ![0] bcast_S64_S64x1_0
          (maximumf cnt (broadcastInDim S64 ![] bcast_S_S64 (constant S_ .f32 0x3F800000#32 : FVec Ideal S_ .f32))))) (ix2 b n)
      = Ideal.div (Spec.partSum (fun t b n => X (ix3 t b n)) b n) (max (cnt (ix1 b)) 1) := by
  rw [hostDivf_apply, hostReduceAdd_apply, Ideal.hostReduceAdd_single h' h, kr_bcast_row_apply,
    maximumf_apply, broadcastInDim_scalar_apply, constant_apply, constant_apply, Ideal.ofBits_zero_f32, Ideal.ofBits_one_f32]
  unfold Spec.partSum
  refine congrArg (fun s => Ideal.div (0 + s) (max (cnt (ix1 b)) 1)) (Finset.sum_congr rfl fun k _ => ?_)
  exact congrArg X (funext fun a => Fin.ext (match a with | ⟨0, _⟩ => rfl | ⟨1, _⟩ => rfl | ⟨2, _⟩ => rfl))

variable (m : (ℓ : Loc nD τ sig) → Buf (Elt Ideal) ℓ) (ρ : Dev nD → PrngReg) (c : Dev nD)

abbrev kr_kept (r : Ref sig .tc) : Prop :=
  (∀ w, Pipeline.arrRef spec0 w ≠ r) ∧ (∀ w, Pipeline.arrRef spec1 w ≠ r) ∧ (∀ w, Pipeline.arrRef spec2 w ≠ r) ∧ r ∉ kr_W

/-- A reference that nothing after the first part writes still holds what the first part left. -/
theorem kr_W7_eq_W1 (r : Ref sig .tc) (h : kr_kept r) : W7 m ρ c (Proc.devRef .tc r) = W1 m ρ c (Proc.devRef .tc r) :=
  (W7_of_ne m ρ c r h.2.2.1).trans <| (after_of_writes_sub main_part1_ops2 _ kr_writes.2.2.2.1 h.2.2.2).trans <|
    (W5_of_ne m ρ c r h.2.1).trans <| (after_of_writes_sub main_part1_ops1 _ kr_writes.2.2.1 h.2.2.2).trans <|
    (W3_of_ne m ρ c r h.1).trans (after_of_writes_sub main_part1_ops0 _ kr_writes.2.1 h.2.2.2)

/-- If the first part does not write it either, it holds the initial memory. -/
theorem kr_W7_arg (r : Ref sig .tc) (h : kr_kept r) (hA : r ∉ kr_WA) : W7 m ρ c (Proc.devRef .tc r) = m ((c : Thread nD τ).loc r) :=
  (kr_W7_eq_W1 m ρ c r h).trans ((after_of_writes_sub main_part0_ops0 _ kr_writes.1 hA).trans rfl)

theorem kr_V8 (r : Ref sig .tc) : V8 m ρ c r = StableHlo.after main_part1_ops3 (W7 m ρ c) (Proc.devRef .tc r) := rfl

theorem kr_V8_arg (r : Ref sig .tc) (h : kr_kept r) (hA : r ∉ kr_WA) : V8 m ρ c r = m ((c : Thread nD τ).loc r) :=
  (after_of_writes_sub main_part1_ops3 _ kr_writes.2.2.2.2 h.2.2.2).trans (kr_W7_arg m ρ c r h hA)

/-- The graph id of each edge's destination node is the reference's own index chain and gather. -/
theorem kr7_v46 : (W7 m ρ c (Proc.devRef .tc main_v46) : IVec S320000 32)
    = val_main_v98 (F := Ideal) (m ((c : Thread nD τ).loc main_arg17)) (m ((c : Thread nD τ).loc main_arg18)) := by
  rw [kr_W7_eq_W1 m ρ c main_v46 (by decide)]
  show StableHlo.after main_part0_ops0 (W0 m ρ c) _ = _
  after_results_simp
  rfl

theorem kr8_arg2 : V8 m ρ c main_arg2 = m ((c : Thread nD τ).loc main_arg2) :=
  kr_V8_arg m ρ c main_arg2 (by decide) (by decide)

theorem kr8_arg15 : V8 m ρ c main_arg15 = m ((c : Thread nD τ).loc main_arg15) :=
  kr_V8_arg m ρ c main_arg15 (by decide) (by decide)

theorem kr8_v91 (q : Fin 8) (k : Fin 128) :
    (V8 m ρ c main_v91 : S8x128.Idx → EReal) (ix2 q k)
      = (m ((c : Thread nD τ).loc main_arg13) : S264x128.Idx → EReal) (ix2 ⟨q.val, by omega⟩ k) := by
  rw [← kr_W7_arg m ρ c main_arg13 (by decide) (by decide), kr_V8]
  after_results
  exact slice2_axis0_apply 0 _ slices_S264x128_S8x128_0_0 q k _ (Nat.zero_add _).symm

theorem kr8_v92 (q : Fin 128) (k : Fin 128) :
    (V8 m ρ c main_v92 : S128x128.Idx → EReal) (ix2 q k)
      = (m ((c : Thread nD τ).loc main_arg13) : S264x128.Idx → EReal) (ix2 ⟨8 + q.val, by omega⟩ k) := by
  rw [← kr_W7_arg m ρ c main_arg13 (by decide) (by decide), kr_V8]
  after_results
  exact slice2_axis0_apply 8 _ slices_S264x128_S128x128_8_0 q k _ rfl

theorem kr8_v93 (q : Fin 128) (k : Fin 128) :
    (V8 m ρ c main_v93 : S128x128.Idx → EReal) (ix2 q k)
      = (m ((c : Thread nD τ).loc main_arg13) : S264x128.Idx → EReal) (ix2 ⟨136 + q.val, by omega⟩ k) := by
  rw [← kr_W7_arg m ρ c main_arg13 (by decide) (by decide), kr_V8]
  after_results
  exact slice2_axis0_apply 136 _ slices_S264x128_S128x128_136_0 q k _ rfl

theorem kr8_v94 (k : Fin 128) :
    (V8 m ρ c main_v94 : S1x128.Idx → EReal) (ix2 0 k) = (m ((c : Thread nD τ).loc main_arg14) : S128.Idx → EReal) (ix1 k) := by
  rw [← kr_W7_arg m ρ c main_arg14 (by decide) (by decide), kr_V8]
  after_results
  exact shapeCast_a_1a_apply _ shapeCasts_S128_S1x128 0 k

theorem kr8_v95 (n : Fin 128) :
    (V8 m ρ c main_v95 : S1x128.Idx → EReal) (ix2 0 n) = (m ((c : Thread nD τ).loc main_arg16) : S128.Idx → EReal) (ix1 n) := by
  rw [← kr_W7_arg m ρ c main_arg16 (by decide) (by decide), kr_V8]
  after_results
  exact shapeCast_a_1a_apply _ shapeCasts_S128_S1x128 0 n

theorem kr8_v80 (b : Fin 64) (n : Fin 128) :
    (V8 m ρ c main_v80 : S64x128.Idx → EReal) (ix2 b n)
      = Ideal.div (Spec.partSum (fun t b n => (W7 m ρ c (Proc.devRef .tc main_v54_1) : S80x64x128.Idx → EReal) (ix3 t b n)) b n)
          (max (val_main_v105 (F := Ideal) (m ((c : Thread nD τ).loc main_arg17)) (m ((c : Thread nD τ).loc main_arg18)) (ix1 b)) 1) := by
  rw [kr_V8]
  after_results_simp
  rw [kr7_v46 m ρ c]
  exact kr_mean_apply _ reducesTo_S80x64x128_S64x128_d0 (by decide) _ b n

theorem kr8_v90 (b : Fin 64) (n : Fin 128) :
    (V8 m ρ c main_v90 : S64x128.Idx → EReal) (ix2 b n)
      = Ideal.div (Spec.partSum (fun t b n => (V7 m ρ c main_v70_1 : S5x64x128.Idx → EReal) (ix3 t b n)) b n)
          (max (val_main_v86 (F := Ideal) (m ((c : Thread nD τ).loc main_arg18)) (ix1 b)) 1) := by
  rw [kr_V8]
  after_results_simp
  rw [kr_W7_arg m ρ c main_arg18 (by decide) (by decide)]
  exact kr_mean_apply _ reducesTo_S5x64x128_S64x128_d0 (by decide) _ b n

theorem kr9_v96 : W9 m ρ c (Proc.devRef .tc main_v96) = (dat3 (V8 m ρ) c).arrAt 9 cfg3.N :=
  W9_arr m ρ c 9

end Cert.KernelIdeal.HandV

end
-- ==== Proof.Val.BridgeU.lean ====
import proofs.«429701_j48541720379569_3_alg».proof.Proof.FrameKI.Run
import proofs.«429701_j48541720379569_3_alg».proof.Proof.Val.RefG
import proofs.«429701_j48541720379569_3_alg».proof.Proof.Val.OneHot
import proofs.«429701_j48541720379569_3_alg».proof.Proof.Val.V0
import proofs.«429701_j48541720379569_3_alg».proof.Proof.Val.V2
import proofs.«429701_j48541720379569_3_alg».proof.Proof.Val.V3
import proofs.«429701_j48541720379569_3_alg».proof.Proof.Val.KR0
import proofs.«429701_j48541720379569_3_alg».proof.Proof.Val.KR12
import proofs.«429701_j48541720379569_3_alg».proof.Proof.Val.KR3
import proofs.«429701_j48541720379569_3_alg».proof.Proof.Val.BridgeE
import proofs.«429701_j48541720379569_3_alg».proof.Proof.Val.BridgeX
import proofs.«429701_j48541720379569_3_alg».proof.Defs
import proofs.«429701_j48541720379569_3_alg».proof.Proof.Gen.Pre_finite_inputs
import Idealize.ShloMosaic.Lib.ValueIdx

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem

section Core

variable (x0 : (⟨Cert.ReferenceIdeal.S20000x64, .f32⟩ : BufTy).Contents (Elt Ideal)) (x1 : (⟨Cert.ReferenceIdeal.S320000x16, .f32⟩ : BufTy).Contents (Elt Ideal)) (x2 : (⟨Cert.ReferenceIdeal.S64x8, .f32⟩ : BufTy).Contents (Elt Ideal)) (x3 : (⟨Cert.ReferenceIdeal.S152x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x200, .f32⟩ : BufTy).Contents (Elt Ideal)) (x8 : (⟨Cert.ReferenceIdeal.S128x264, .f32⟩ : BufTy).Contents (Elt Ideal)) (x9 : (⟨Cert.ReferenceIdeal.S264x128, .f32⟩ : BufTy).Contents (Elt Ideal)) (x10 : (⟨Cert.ReferenceIdeal.S128, .f32⟩ : BufTy).Contents (Elt Ideal)) (x11 : (⟨Cert.ReferenceIdeal.S128x128, .f32⟩ : BufTy).Contents (Elt Ideal)) (x12 : (⟨Cert.ReferenceIdeal.S128, .f32⟩ : BufTy).Contents (Elt Ideal)) (x13 : (⟨Cert.ReferenceIdeal.S264x128, .f32⟩ : BufTy).Contents (Elt Ideal)) (x14 : (⟨Cert.ReferenceIdeal.S128, .f32⟩ : BufTy).Contents (Elt Ideal)) (x15 : (⟨Cert.ReferenceIdeal.S128x128, .f32⟩ : BufTy).Contents (Elt Ideal)) (x16 : (⟨Cert.ReferenceIdeal.S128, .f32⟩ : BufTy).Contents (Elt Ideal)) (x17 : (⟨Cert.ReferenceIdeal.S2x320000, .i32⟩ : BufTy).Contents (Elt Ideal)) (x18 : (⟨Cert.ReferenceIdeal.S20000, .i32⟩ : BufTy).Contents (Elt Ideal))

theorem node_mean (A90 : S64x128.Idx → EReal) (P : S5x64x128.Idx → EReal)
    (X : Fin (5 * 4000) → Fin 128 → EReal) (id : Fin (5 * 4000) → BitVec 32)
    (h90 : ∀ (b : Fin 64) (n : Fin 128), A90 (ix2 b n)
      = Ideal.div (Spec.partSum (fun t b n => P (ix3 t b n)) b n) (max (Cert.ReferenceIdeal.ReadP.val_main_v86 (F := Ideal) x18 (ix1 b)) 1))
    (hP : ∀ (t : Fin 5) (b : Fin 64) (n : Fin 128), P (ix3 t b n) = Spec.tilePart (G := 5) (T := 4000) X id t b n)
    (hX : ∀ (r : Fin (5 * 4000)) (n : Fin 128), X r n = Cert.ReferenceIdeal.ReadP.val_main_v79 (F := Ideal) x0 x1 x2 x3 x4 x5 x6 x7 x8 x9 x10 x11 x12 x17 x18 (ix2 r n))
    (hid : ∀ r : Fin (5 * 4000), id r = x18 (ix1 r)) (b : Fin 64) (n : Fin 128) :
    A90 (ix2 b n) = Cert.ReferenceIdeal.ReadP.val_main_v91 (F := Ideal) x0 x1 x2 x3 x4 x5 x6 x7 x8 x9 x10 x11 x12 x17 x18 (ix2 b n) := by
  rw [h90, Cert.RefSpec.ref_nodeagg, Cert.RefSpec.ref_nodesum]
  refine congrArg (fun z => Ideal.div z _) ?_
  rw [show (fun t b n => P (ix3 t b n)) = Spec.tilePart (G := 5) (T := 4000) X id from
    funext fun t => funext fun b => funext fun n => hP t b n, Cert.OneHot.partSum_tilePart]
  refine congrArg (fun z => 0 + z) (Finset.sum_congr rfl fun r _ => ?_)
  rw [hid, hX]

theorem edge_mean (A80 : S64x128.Idx → EReal) (P : S80x64x128.Idx → EReal)
    (E : Fin (80 * 4000) → Fin 128 → EReal) (id : Fin (80 * 4000) → BitVec 32)
    (h80 : ∀ (b : Fin 64) (n : Fin 128), A80 (ix2 b n)
      = Ideal.div (Spec.partSum (fun t b n => P (ix3 t b n)) b n) (max (Cert.ReferenceIdeal.ReadP.val_main_v105 (F := Ideal) x17 x18 (ix1 b)) 1))
    (hP : ∀ (t : Fin 80) (b : Fin 64) (n : Fin 128), P (ix3 t b n) = Spec.tilePart (G := 80) (T := 4000) E id t b n)
    (hE : ∀ (r : Fin (80 * 4000)) (n : Fin 128), E r n = Cert.ReferenceIdeal.ReadP.val_main_v41 (F := Ideal) x0 x1 x2 x3 x4 x5 x6 x17 x18 (ix2 r n))
    (hid : ∀ r : Fin (80 * 4000), id r = Cert.ReferenceIdeal.ReadP.val_main_v98 (F := Ideal) x17 x18 (ix1 r)) (b : Fin 64) (n : Fin 128) :
    A80 (ix2 b n) = Cert.ReferenceIdeal.ReadP.val_main_v110 (F := Ideal) x0 x1 x2 x3 x4 x5 x6 x17 x18 (ix2 b n) := by
  rw [h80, Cert.RefSpec.ref_edgeagg, Cert.RefSpec.ref_edgesum]
  refine congrArg (fun z => Ideal.div z _) ?_
  rw [show (fun t b n => P (ix3 t b n)) = Spec.tilePart (G := 80) (T := 4000) E id from
    funext fun t => funext fun b => funext fun n => hP t b n, Cert.OneHot.partSum_tilePart]
  refine congrArg (fun z => 0 + z) (Finset.sum_congr rfl fun r _ => ?_)
  rw [hid, hE]

theorem glob_core (out A90 A80 : S64x128.Idx → EReal) (A2 : S64x8.Idx → EReal) (A91 : S8x128.Idx → EReal)
    (A92 A93 A15 : S128x128.Idx → EReal) (A94 A95 : S1x128.Idx → EReal)
    (hout : ∀ (b : Fin 64) (n : Fin 128), out (ix2 b n)
      = Spec.globOut (Spec.globHid (fun i j => A2 (ix2 i j)) (fun i j => A90 (ix2 i j)) (fun i j => A80 (ix2 i j))
            (fun i j => A91 (ix2 i j)) (fun i j => A92 (ix2 i j)) (fun i j => A93 (ix2 i j)) (fun k => A94 (ix2 (0 : Fin 1) k)))
          (fun i j => A15 (ix2 i j)) (fun k => A95 (ix2 (0 : Fin 1) k)) b n)
    (h2 : A2 = x2) (h15 : A15 = x15)
    (h91 : ∀ (q : Fin 8) (k : Fin 128), A91 (ix2 q k) = x13 (ix2 ⟨q.val, by omega⟩ k))
    (h92 : ∀ (q : Fin 128) (k : Fin 128), A92 (ix2 q k) = x13 (ix2 ⟨8 + q.val, by omega⟩ k))
    (h93 : ∀ (q : Fin 128) (k : Fin 128), A93 (ix2 q k) = x13 (ix2 ⟨136 + q.val, by omega⟩ k))
    (h94 : ∀ k : Fin 128, A94 (ix2 (0 : Fin 1) k) = x14 (ix1 k)) (h95 : ∀ n : Fin 128, A95 (ix2 (0 : Fin 1) n) = x16 (ix1 n))
    (h90 : ∀ (b : Fin 64) (n : Fin 128), A90 (ix2 b n) = Cert.ReferenceIdeal.ReadP.val_main_v91 (F := Ideal) x0 x1 x2 x3 x4 x5 x6 x7 x8 x9 x10 x11 x12 x17 x18 (ix2 b n))
    (h80 : ∀ (b : Fin 64) (n : Fin 128), A80 (ix2 b n) = Cert.ReferenceIdeal.ReadP.val_main_v110 (F := Ideal) x0 x1 x2 x3 x4 x5 x6 x17 x18 (ix2 b n)) :
    out = Cert.ReferenceIdeal.ReadP.val_main_v120 (F := Ideal) x0 x1 x2 x3 x4 x5 x6 x7 x8 x9 x10 x11 x12 x13 x14 x15 x16 x17 x18 := by
  funext j
  obtain ⟨b, n, rfl⟩ : ∃ (b : Fin 64) (n : Fin 128), j = ix2 b n := ⟨j 0, j 1, eq_ix2 j⟩
  rw [hout, Cert.RefSpec.ref_unew]
  simp only [h2, h15, h91, h92, h93, h94, h95, h90, h80]

end Core

variable (m : (ℓ : Loc nD τ sig) → Buf (Elt Ideal) ℓ) (ρ : Dev nD → PrngReg) (c : Dev nD)

theorem v90_eq (hpre : Cert.Pre_KernelIdeal m) (b : Fin 64) (n : Fin 128) :
    (V8 m ρ c main_v90 : S64x128.Idx → EReal) (ix2 b n)
      = Cert.ReferenceIdeal.ReadP.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) (ix2 b n) :=
  node_mean (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) (V8 m ρ c main_v90 : S64x128.Idx → EReal) (V7 m ρ c main_v70_1 : S5x64x128.Idx → EReal)
    (X2 (V6 m ρ) c) (fun r => (V6 m ρ c main_v69 : S20000x1.Idx → BitVec 32) (ix2 r 0))
    (fun b n => kr8_v90 m ρ c b n)
    (fun t b n => (congrFun (W7_arr m ρ c 15) (ix3 t b n)).trans (final2_15 (V6 m ρ) c t b n))
    (fun r n => (final2_14 (V6 m ρ) c r n).symm.trans (congrFun (arr_x m ρ c hpre) (ix2 r n)))
    (fun r => kr6_v69 m ρ c r) b n

theorem v80_eq (b : Fin 64) (n : Fin 128) :
    (V8 m ρ c main_v80 : S64x128.Idx → EReal) (ix2 b n)
      = Cert.ReferenceIdeal.ReadP.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (ix2 b n) :=
  edge_mean (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (V8 m ρ c main_v80 : S64x128.Idx → EReal) (W7 m ρ c (Proc.devRef .tc main_v54_1) : S80x64x128.Idx → EReal)
    (fun r n => ((dat0 (V2 m ρ) c).arrAt 12 cfg0.N : S320000x128.Idx → EReal) (ix2 r n))
    (fun r => (V2 m ρ c main_v53 : S320000x1.Idx → BitVec 32) (ix2 r (0 : Fin 1)))
    (fun b n => kr8_v80 m ρ c b n)
    (fun t b n => (congrFun ((kr_part_kept m ρ c).trans (W3_arr m ρ c 13)) (ix3 t b n)).trans
      ((final0_13 (V2 m ρ) c t b n).trans (by
        rw [show (Spec.edgeOut (E := 80 * 4000) _ _ _ : Fin (80 * 4000) → Fin 128 → EReal)
            = fun r n => ((dat0 (V2 m ρ) c).arrAt 12 cfg0.N : S320000x128.Idx → EReal) (ix2 r n) from
          funext fun r => funext fun n => (final0_12 (V2 m ρ) c r n).symm])))
    (fun r n => congrFun (arr_e m ρ c) (ix2 r n))
    (fun r => kr0_v53 m ρ c r) b n

theorem bridge_u (hpre : Cert.Pre_KernelIdeal m) :
    (W9 m ρ c (Proc.devRef .tc main_v96) : S64x128.Idx → EReal)
      = Cert.ReferenceIdeal.ReadP.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  rw [kr9_v96]
  exact glob_core (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
    ((dat3 (V8 m ρ) c).arrAt 9 cfg3.N : S64x128.Idx → EReal) (V8 m ρ c main_v90 : S64x128.Idx → EReal)
    (V8 m ρ c main_v80 : S64x128.Idx → EReal) (V8 m ρ c main_arg2 : S64x8.Idx → EReal) (V8 m ρ c main_v91 : S8x128.Idx → EReal)
    (V8 m ρ c main_v92 : S128x128.Idx → EReal) (V8 m ρ c main_v93 : S128x128.Idx → EReal) (V8 m ρ c main_arg15 : S128x128.Idx → EReal)
    (V8 m ρ c main_v94 : S1x128.Idx → EReal) (V8 m ρ c main_v95 : S1x128.Idx → EReal)
    (fun b n => final3_9 (V8 m ρ) c b n) (kr8_arg2 m ρ c) (kr8_arg15 m ρ c)
    (fun q k => kr8_v91 m ρ c q k) (fun q k => kr8_v92 m ρ c q k) (fun q k => kr8_v93 m ρ c q k)
    (fun k => kr8_v94 m ρ c k) (fun n => kr8_v95 m ρ c n)
    (fun b n => v90_eq m ρ c hpre b n) (fun b n => v80_eq m ρ c b n)

end Cert.KernelIdeal.HandV

end
-- ==== Proof.lean ====
import proofs.«429701_j48541720379569_3_alg».proof.Defs
import proofs.«429701_j48541720379569_3_alg».proof.Proof.Gen.Kernel
import proofs.«429701_j48541720379569_3_alg».proof.Proof.Gen.KernelIdeal
import proofs.«429701_j48541720379569_3_alg».proof.Proof.Gen.ReferenceIdeal
import proofs.«429701_j48541720379569_3_alg».proof.Proof.Gen.Pre_finite_inputs
import proofs.«429701_j48541720379569_3_alg».proof.Proof.FrameK.Args
import proofs.«429701_j48541720379569_3_alg».proof.Proof.FrameKI.Args
import proofs.«429701_j48541720379569_3_alg».proof.Proof.Val.BridgeE
import proofs.«429701_j48541720379569_3_alg».proof.Proof.Val.BridgeX
import proofs.«429701_j48541720379569_3_alg».proof.Proof.Val.BridgeU

noncomputable section

namespace Cert.Proof

open Idealize.ShloMosaic Idealize.SL.Sem

theorem frame_k : Cert.frame_Kernel :=
  fun m ρ _ => Cert.Kernel.Hand.frame (F := Bits) m ρ

theorem frame_ki : Cert.frame_KernelIdeal :=
  fun m ρ _ => Cert.KernelIdeal.Hand.frame (F := Ideal) m ρ

theorem frame_ri : Cert.frame_ReferenceIdeal :=
  fun m ρ _ => (θ_run Cert.ReferenceIdeal.defs _ _).mono (fun _ h c => (h c).2.2.2)
    (Cert.ReferenceIdeal.ValueP.run (F := Ideal) m ρ)

/-- Both runs end; on arguments that agree each reference result is the kernel's, by the three bridge equations. -/
theorem algebraic : Cert.algebraic_KernelIdeal_ReferenceIdeal := by
  intro m ρ m' ρ' hpre hagree
  refine ⟨_, _, _, Cert.KernelIdeal.Hand.run_results (F := Ideal) m ρ, ?_⟩
  refine (θ_run Cert.ReferenceIdeal.defs _ _).mono (fun _ h c => ?_) (Cert.ReferenceIdeal.ValueP.run (F := Ideal) m' ρ')
  obtain ⟨h0, h1, h2, h3, h4, h5, h6, h7, h8, h9, h10, h11, h12, h13, h14, h15, h16, h17, h18⟩ := hagree c
  refine ⟨(h c).1.trans ?_, (h c).2.1.trans ?_, (h c).2.2.1.trans ?_, (h c).2.2.2⟩
  · rw [Cert.ReferenceIdeal.ReadP.val_main_v79_eq, h0, h1, h2, h3, h4, h5, h6, h7, h8, h9, h10, h11, h12, h17, h18]
    exact (Cert.KernelIdeal.HandV.bridge_x m ρ c hpre).symm
  · rw [Cert.ReferenceIdeal.ReadP.val_main_v41_eq, h0, h1, h2, h3, h4, h5, h6, h17, h18]
    exact (Cert.KernelIdeal.HandV.bridge_e m ρ c).symm
  · rw [Cert.ReferenceIdeal.ReadP.val_main_v120_eq, h0, h1, h2, h3, h4, h5, h6, h7, h8, h9, h10, h11, h12, h13, h14, h15, h16, h17, h18]
    exact (Cert.KernelIdeal.HandV.bridge_u m ρ c hpre).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
